-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81_1)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_1) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S250000x64 : Shape := ⟨2, ![250000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S2x1000000 : Shape := ⟨2, ![2, 1000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S250000x64 : S_.BroadcastsInDim S250000x64 (![] : Fin 0 → Fin S250000x64.rank)
  reducesTo_S250000x64_S_d0_1 : S250000x64.ReducesTo [0, 1] S_
  bcast_S_S4x64 : S_.BroadcastsInDim S4x64 (![] : Fin 0 → Fin S4x64.rank)
  reducesTo_S4x64_S_d0_1 : S4x64.ReducesTo [0, 1] S_
  bcast_S_S16x64 : S_.BroadcastsInDim S16x64 (![] : Fin 0 → Fin S16x64.rank)
  reducesTo_S16x64_S_d0_1 : S16x64.ReducesTo [0, 1] S_
  bcast_S_S4x16 : S_.BroadcastsInDim S4x16 (![] : Fin 0 → Fin S4x16.rank)
  reducesTo_S4x16_S_d0_1 : S4x16.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  main_v35

def fn_part1 {F : FTy → Type} [FloatOps F] (main_arg4 : FVec F S4x16 .f32) (main_arg5 : FVec F S1000000 .f32) (main_arg7 : IVec S1000000 32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_c_10 : IVec S_ 32 := constantI S_ 32 1#32
  let main_v29 : IVec S1000000 32 := broadcastInDim S1000000 ![] bcast_S_S1000000 main_c_10
  let main_v30 : IVec S1000000 1 := cmpi .sge main_arg7 main_v29
  let main_c_11 : IVec S_ 32 := constantI S_ 32 16#32
  let main_v31 : IVec S1000000 32 := broadcastInDim S1000000 ![] bcast_S_S1000000 main_c_11
  let main_v32 : IVec S1000000 1 := cmpi .sle main_arg7 main_v31
  let main_v33 : IVec S1000000 1 := andi main_v30 main_v32
  fn_part2 (F := F) main_v28 main_v33

def fn {F : FTy → Type} [FloatOps F] (main_arg0 : FVec F S150000x64 .f32) (main_arg1 : FVec F S250000x64 .f32) (main_arg2 : FVec F S4x64 .f32) (main_arg3 : FVec F S16x64 .f32) (main_arg4 : FVec F S4x16 .f32) (main_arg5 : FVec F S1000000 .f32) (main_arg6 : IVec S2x1000000 32) (main_arg7 : IVec S1000000 32) (main_arg8 : IVec S1000000 32) (main_arg9 : IVec S1000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S250000x64 .f32 := Host.absf main_arg1
  let main_cst_0 : FVec F S_ .f32 := constant S_ .f32 0x7F800000#32
  let main_v5 : FVec F S250000x64 .f32 := broadcastInDim S250000x64 ![] bcast_S_S250000x64 main_cst_0
  let main_v6 : IVec S250000x64 1 := cmpf .olt main_v4 main_v5
  let main_c_1 : IVec S_ 1 := constantI S_ 1 1#1
  let main_v7 : IVec S_ 1 := (fun x v => Host.reduce IntOp.andi x v reducesTo_S250000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg7 main_v13 main_v16
-- ==== Kernel.lean ====
abbrev S150000x64 : Shape := ⟨2, ![150000, 64]⟩
abbrev S250000x64 : Shape := ⟨2, ![250000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S2x1000000 : Shape := ⟨2, ![2, 1000000]⟩
abbrev S1x1000000 : Shape := ⟨2, ![1, 1000000]⟩
abbrev S_ : Shape := ⟨0, ![]⟩
abbrev S4 : Shape := ⟨1, ![4]⟩
abbrev S4x1 : Shape := ⟨2, ![4, 1]⟩
abbrev S16x4 : Shape := ⟨2, ![16, 4]⟩
abbrev S4x4 : Shape := ⟨2, ![4, 4]⟩
abbrev S250000 : Shape := ⟨1, ![250000]⟩
abbrev S1000000x1 : Shape := ⟨2, ![1000000, 1]⟩
abbrev S250000x1 : Shape := ⟨2, ![250000, 1]⟩
abbrev S64x4 : Shape := ⟨2, ![64, 4]⟩
abbrev S1000000x64 : Shape := ⟨2, ![1000000, 64]⟩
abbrev S10000x1 : Shape := ⟨2, ![10000, 1]⟩
abbrev S10000x64 : Shape := ⟨2, ![10000, 64]⟩
abbrev S10000x16 : Shape := ⟨2, ![10000, 16]⟩
abbrev S5000x64 : Shape := ⟨2, ![5000, 64]⟩
abbrev S5000x1 : Shape := ⟨2, ![5000, 1]⟩
abbrev S5000 : Shape := ⟨1, ![5000]⟩
abbrev S5000x4 : Shape := ⟨2, ![5000, 4]⟩

abbrev nBuf : Space → Nat
  | .hbm => 128
  | .vmem => 73
  | .smem => 0
  | _ => 0

abbrev bufTy : (tb : Table) → Fin (tcTables nBuf tb) → BufTy
  | .hbm, ⟨0, _⟩ => ⟨S150000x64, .f32⟩
  | .hbm, ⟨1, _⟩ => ⟨S250000x64, .f32⟩
  | .hbm, ⟨2, _⟩ => ⟨S4x64, .f32⟩
  | .hbm, ⟨3, _⟩ => ⟨S16x64, .f32⟩
  | .hbm, ⟨4, _⟩ => ⟨S4x16, .f32⟩
  | .hbm, ⟨5, _⟩ => ⟨S1000000, .f32⟩
  | .hbm, ⟨6, _⟩ => ⟨S2x1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S4x16, .f32⟩
  | .hbm, ⟨15, _⟩ => ⟨S_, .f32⟩
  | .hbm, ⟨16, _⟩ => ⟨S4, .f32⟩
  | .hbm, ⟨17, _⟩ => ⟨S4x1, .f32⟩
  | .hbm, ⟨18, _⟩ => ⟨S4x1, .f32⟩
  | .hbm, ⟨19, _⟩ => ⟨S4x16, .f32⟩
  | .hbm, ⟨20, _⟩ => ⟨S4x16, .f32⟩
  | .hbm, ⟨21, _⟩ => ⟨S16x4, .f32⟩
  | .hbm, ⟨22, _⟩ => ⟨S4x4, .f32⟩
  | .hbm, ⟨23, _⟩ => ⟨S4x4, .f32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1000000, .f32⟩
  | .hbm, ⟨37, _⟩ => ⟨S_, .f32⟩
  | .hbm, ⟨38, _⟩ => ⟨S250000, .f32⟩
  | .hbm, ⟨39, _⟩ => ⟨S1000000x1, .i32⟩
  | .hbm, ⟨40, _⟩ => ⟨S250000, .f32⟩
  | .hbm, ⟨41, _⟩ => ⟨S_, .f32⟩
  | .hbm, ⟨42, _⟩ => ⟨S250000, .f32⟩
  | .hbm, ⟨43, _⟩ => ⟨S250000, .f32⟩
  | .hbm, ⟨44, _⟩ => ⟨S250000x1, .f32⟩
  | .hbm, ⟨45, _⟩ => ⟨S_, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S4x1, .f32⟩
  | .hbm, ⟨51, _⟩ => ⟨S4x16, .f32⟩
  | .hbm, ⟨52, _⟩ => ⟨S4x16, .f32⟩
  | .hbm, ⟨53, _⟩ => ⟨S4x16, .f32⟩
  | .hbm, ⟨54, _⟩ => ⟨S_, .f32⟩
  | .hbm, ⟨55, _⟩ => ⟨S4, .f32⟩
  | .hbm, ⟨56, _⟩ => ⟨S4x1, .f32⟩
  | .hbm, ⟨57, _⟩ => ⟨S4x16, .f32⟩
  | .hbm, ⟨58, _⟩ => ⟨S4x16, .f32⟩
  | .hbm, ⟨59, _⟩ => ⟨S4x64, .f32⟩
  | .hbm, ⟨60, _⟩ => ⟨S64x4, .f32⟩
  | .hbm, ⟨61, _⟩ => ⟨S1000000x1, .i32⟩
  | .hbm, ⟨62, _⟩ => ⟨S1000000x64, .f32⟩
  | .hbm, ⟨63, _⟩ => ⟨S1000000x1, .f32⟩
  | .hbm, ⟨64, _⟩ => ⟨S_, .i32⟩
  | .hbm, ⟨65, _⟩ => ⟨S1000000, .i32⟩
  | .hbm, ⟨66, _⟩ => ⟨S1000000, .i1⟩
  | .hbm, ⟨67, _⟩ => ⟨S_, .i32⟩
  | .hbm, ⟨68, _⟩ => ⟨S1000000, .i32⟩
  | .hbm, ⟨69, _⟩ => ⟨S1000000, .i32⟩
  | .hbm, ⟨70, _⟩ => ⟨S1000000, .i32⟩
  | .hbm, ⟨71, _⟩ => ⟨S1000000x1, .i32⟩
  | .hbm, ⟨72, _⟩ => ⟨S1000000x64, .f32⟩
  | .hbm, ⟨73, _⟩ => ⟨S1000000x64, .f32⟩
  | .hbm, ⟨74, _⟩ => ⟨S_, .f32⟩
  | .hbm, ⟨75, _⟩ => ⟨S250000x64, .f32⟩
  | .hbm, ⟨76, _⟩ => ⟨S1000000x1, .i32⟩
  | .hbm, ⟨77, _⟩ => ⟨S250000x64, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000x64, .f32⟩
  | .hbm, ⟨87, _⟩ => ⟨S1000000x64, .f32⟩
  | .hbm, ⟨88, _⟩ => ⟨S_, .f32⟩
  | .hbm, ⟨89, _⟩ => ⟨S150000x64, .f32⟩
  | .hbm, ⟨90, _⟩ => ⟨S1000000x1, .i32⟩
  | .hbm, ⟨91, _⟩ => ⟨S150000x64, .f32⟩
  | .hbm, ⟨92, _⟩ => ⟨S250000x64, .f32⟩
  | .hbm, ⟨93, _⟩ => ⟨S250000x64, .f32⟩
  | .hbm, ⟨94, _⟩ => ⟨S150000x64, .f32⟩
  | .hbm, ⟨95, _⟩ => ⟨S150000x64, .f32⟩
  | .hbm, ⟨96, _⟩ => ⟨S_, .i32⟩
  | .hbm, ⟨97, _⟩ => ⟨S1000000, .i32⟩
  | .hbm, ⟨98, _⟩ => ⟨S1000000, .i1⟩
  | .hbm, ⟨99, _⟩ => ⟨S_, .i32⟩
  | .hbm, ⟨100, _⟩ => ⟨S1000000, .i32⟩
  | .hbm, ⟨101, _⟩ => ⟨S1000000, .i32⟩
  | .hbm, ⟨102, _⟩ => ⟨S1000000, .i32⟩
  | .hbm, ⟨103, _⟩ => ⟨S1000000x1, .i32⟩
  | .hbm, ⟨104, _⟩ => ⟨S1000000x64, .f32⟩
  | .hbm, ⟨105, _⟩ => ⟨S1000000x64, .f32⟩
  | .hbm, ⟨106, _⟩ => ⟨S_, .f32⟩
  | .hbm, ⟨107, _⟩ => ⟨S250000x64, .f32⟩
  | .hbm, ⟨108, _⟩ => ⟨S1000000x1, .i32⟩
  | .hbm, ⟨109, _⟩ => ⟨S250000x64, .f32⟩
  | .hbm, ⟨110, _⟩ => ⟨S_, .i32⟩
  | .hbm, ⟨111, _⟩ => ⟨S1000000, .i32⟩
  | .hbm, ⟨112, _⟩ => ⟨S1000000, .i1⟩
  | .hbm, ⟨113, _⟩ => ⟨S_, .i32⟩
  | .hbm, ⟨114, _⟩ => ⟨S1000000, .i32⟩
  | .hbm, ⟨115, _⟩ => ⟨S1000000, .i32⟩
  | .hbm, ⟨116, _⟩ => ⟨S1000000, .i32⟩
  | .hbm, ⟨117, _⟩ => ⟨S1000000x1, .i32⟩
  | .hbm, ⟨118, _⟩ => ⟨S1000000x64, .f32⟩
  | .hbm, ⟨119, _⟩ => ⟨S1000000x64, .f32⟩
  | .hbm, ⟨120, _⟩ => ⟨S_, .f32⟩
  | .hbm, ⟨121, _⟩ => ⟨S150000x64, .f32⟩
  | .hbm, ⟨122, _⟩ => ⟨S1000000x1, .i32⟩
  | .hbm, ⟨123, _⟩ => ⟨S150000x64, .f32⟩
  | .hbm, ⟨124, _⟩ => ⟨S250000x64, .f32⟩
  | .hbm, ⟨125, _⟩ => ⟨S250000x64, .f32⟩
  | .hbm, ⟨126, _⟩ => ⟨S150000x64, .f32⟩
  | .hbm, ⟨127, _⟩ => ⟨S150000x64, .f32⟩
  | .local _ .vmem, ⟨0, _⟩ => ⟨S10000x1, .i32⟩
  | .local _ .vmem, ⟨1, _⟩ => ⟨S10000x1, .i32⟩
  | .local _ .vmem, ⟨2, _⟩ => ⟨S16x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x4, .f32⟩
  | .local _ .vmem, ⟨30, _⟩ => ⟨S4x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x1, .f32⟩
  | .local _ .vmem, ⟨48, _⟩ => ⟨S10000x1, .f32⟩
  | .local _ .vmem, ⟨49, _⟩ => ⟨S10000x64, .f32⟩
  | .local _ .vmem, ⟨50, _⟩ => ⟨S10000x64, .f32⟩
  | .local _ .vmem, ⟨51, _⟩ => ⟨S5000x64, .f32⟩
  | .local _ .vmem, ⟨52, _⟩ => ⟨S5000x64, .f32⟩
  | .local _ .vmem, ⟨53, _⟩ => ⟨S5000x1, .f32⟩
  | .local _ .vmem, ⟨54, _⟩ => ⟨S5000x1, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S64x4, .f32⟩
  | .local _ .vmem, ⟨64, _⟩ => ⟨S4x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_cst : Ref sig .tc := ⟨.hbm, 30, rfl⟩
abbrev main_call1_v5 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_c_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57_0 : Ref sig .tc := ⟨.hbm, 92, rfl⟩
abbrev main_v57_1 : Ref sig .tc := ⟨.hbm, 93, rfl⟩
abbrev main_v58_0 : Ref sig .tc := ⟨.hbm, 94, rfl⟩
abbrev main_v58_1 : Ref sig .tc := ⟨.hbm, 95, rfl⟩
abbrev main_c_11 : Ref sig .tc := ⟨.hbm, 96, rfl⟩
abbrev main_v59 : Ref sig .tc := ⟨.hbm, 97, rfl⟩
abbrev main_v60 : Ref sig .tc := ⟨.hbm, 98, rfl⟩
abbrev main_c_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_14 : Ref sig .tc := ⟨.hbm, 110, rfl⟩
abbrev main_v70 : Ref sig .tc := ⟨.hbm, 111, rfl⟩
abbrev main_v71 : Ref sig .tc := ⟨.hbm, 112, rfl⟩
abbrev main_c_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_16 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81_0 : Ref sig .tc := ⟨.hbm, 124, rfl⟩
abbrev main_v81_1 : Ref sig .tc := ⟨.hbm, 125, rfl⟩
abbrev main_v82_0 : Ref sig .tc := ⟨.hbm, 126, rfl⟩
abbrev main_v82_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc4_stg6_0 : Ref sig .tc := ⟨.vmem, 37, rfl⟩
abbrev cc4_stg6_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg4_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg3_1 : Ref sig .tc := ⟨.vmem, 66, rfl⟩
abbrev cc8_stg4_0 : Ref sig .tc := ⟨.vmem, 67, rfl⟩
abbrev cc8_stg4_1 : Ref sig .tc := ⟨.vmem, 68, rfl⟩
abbrev cc8_stg5_0 : Ref sig .tc := ⟨.vmem, 69, rfl⟩
abbrev cc8_stg5_1 : Ref sig .tc := ⟨.vmem, 70, rfl⟩
abbrev cc8_stg6_0 : Ref sig .tc := ⟨.vmem, 71, rfl⟩
abbrev cc8_stg6_1 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem5_1 : DmaSem sig := 36
abbrev cc4_sem6_0 : DmaSem sig := 37
abbrev cc4_sem6_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58
abbrev cc7_sem4_0 : DmaSem sig := 59
abbrev cc7_sem4_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem3_0 : DmaSem sig := 65
abbrev cc8_sem3_1 : DmaSem sig := 66
abbrev cc8_sem4_0 : DmaSem sig := 67
abbrev cc8_sem4_1 : DmaSem sig := 68
abbrev cc8_sem5_0 : DmaSem sig := 69
abbrev cc8_sem5_1 : DmaSem sig := 70
abbrev cc8_sem6_0 : DmaSem sig := 71
abbrev cc8_sem6_1 : DmaSem sig := 72

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![30], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x4 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S4x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  reducesTo_S4x16_S4_d1 : S4x16.ReducesTo [1] S4
  h_S_ : 0 < S_.numel
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  transposes_S4x16_S16x4_1_0 : S4x16.Transposes [1, 0] S16x4
  bcast_S_S4x4 : S_.BroadcastsInDim S4x4 (![] : Fin 0 → Fin S4x4.rank)
  reducesTo_S4x4_S_d0_1 : S4x4.ReducesTo [0, 1] S_
  bcast_S_S1000000 : S_.BroadcastsInDim S1000000 (![] : Fin 0 → Fin S1000000.rank)
  bcast_S_S250000 : S_.BroadcastsInDim S250000 (![] : Fin 0 → Fin S250000.rank)
  bcast_S1000000_S1000000x1_0 : S1000000.BroadcastsInDim S1000000x1 (![0] : Fin 1 → Fin S1000000x1.rank)
  bcast_S250000_S250000x1_0 : S250000.BroadcastsInDim S250000x1 (![0] : Fin 1 → Fin S250000x1.rank)
  bcast_S_S4 : S_.BroadcastsInDim S4 (![] : Fin 0 → Fin S4.rank)
  transposes_S4x64_S64x4_1_0 : S4x64.Transposes [1, 0] S64x4
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x16_d1_w32 : S10000x16.Iotas .tc 32 [1]
  broadcasts_S10000x1_S10000x16 : S10000x1.Broadcasts S10000x16
  natLt_1_32 : 1 < 32
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S250000x64 : S_.BroadcastsInDim S250000x64 (![] : Fin 0 → Fin S250000x64.rank)
  broadcasts_S10000x1_S10000x64 : S10000x1.Broadcasts S10000x64
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  reduces_S5000x64_S5000 : S5000x64.Reduces [1] S5000
  shapeCasts_S5000_S5000x1 : S5000.ShapeCasts S5000x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  reduces_S5000x4_S5000 : S5000x4.Reduces [1] S5000
  broadcasts_S5000x1_S5000x4 : S5000x1.Broadcasts S5000x4
  dot_S4x16_S16x4_S4x4_1_0_0_1_n_n_wf : DotDims.WF S4x16 S16x4 S4x4 [1] [0] [0] [1] [] []
  scatter_S250000_S1000000x1_S1000000_n_0_0_1_wf : ScatterDims.WF S250000 S1000000x1 S1000000 [] [0] [0] 1
  dot_S4x16_S16x64_S4x64_1_0_0_1_n_n_wf : DotDims.WF S4x16 S16x64 S4x64 [1] [0] [0] [1] [] []
  dot_S10000x16_S16x64_S10000x64_1_0_0_1_n_n_wf : DotDims.WF S10000x16 S16x64 S10000x64 [1] [0] [0] [1] [] []
  gather_S250000x64_S1000000x1_S1000000x64_1_0_n_n_0_1_164_wf : GatherDims.WF S250000x64 S1000000x1 S1000000x64 [1] [0] [] [0] [] 1 ![1, 64]
  scatter_S250000x64_S1000000x1_S1000000x64_1_0_0_1_wf : ScatterDims.WF S250000x64 S1000000x1 S1000000x64 [1] [0] [0] 1
  scatter_S150000x64_S1000000x1_S1000000x64_1_0_0_1_wf : ScatterDims.WF S150000x64 S1000000x1 S1000000x64 [1] [0] [0] 1
  dot_S5000x64_S64x4_S5000x4_1_0_0_1_n_n_wf : DotDims.WF S5000x64 S64x4 S5000x4 [1] [0] [0] [1] [] []
  dot_S5000x4_S4x64_S5000x64_1_0_0_1_n_n_wf : DotDims.WF S5000x4 S4x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1000000x1.size a
  hwx0_0 : ∀ i : grid0.Coords, EltTy.bits .i32 = 32 ∨ (Rect.block (s := S1000000x1) S10000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1000000x64.size a
  hwx0_2 : ∀ i : grid0.Coords, EltTy.bits .f32 = 32 ∨ (Rect.block (s := S1000000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1000000x64.size a
  hwx1_2 : ∀ i : grid1.Coords, EltTy.bits .f32 = 32 ∨ (Rect.block (s := S1000000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1000000x1.size a
  hwx2_1 : ∀ i : grid2.Coords, EltTy.bits .f32 = 32 ∨ (Rect.block (s := S1000000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1000000x64.size a
  hwx2_2 : ∀ i : grid2.Coords, EltTy.bits .f32 = 32 ∨ (Rect.block (s := S1000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S250000x64.size a
  hwx3_0 : ∀ i : grid3.Coords, EltTy.bits .f32 = 32 ∨ (Rect.block (s := S250000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S250000x1.size a
  hwx3_1 : ∀ i : grid3.Coords, EltTy.bits .f32 = 32 ∨ (Rect.block (s := S250000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S250000x64.size a
  hwx3_2 : ∀ i : grid3.Coords, EltTy.bits .f32 = 32 ∨ (Rect.block (s := S250000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S250000x64.size a
  hwx3_3 : ∀ i : grid3.Coords, EltTy.bits .f32 = 32 ∨ (Rect.block (s := S250000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S250000x64.size a
  hwx3_4 : ∀ i : grid3.Coords, EltTy.bits .f32 = 32 ∨ (Rect.block (s := S250000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S150000x64.size a
  hwx4_0 : ∀ i : grid4.Coords, EltTy.bits .f32 = 32 ∨ (Rect.block (s := S150000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x4.size a ≤ S64x4.size a
  hwx4_1 : ∀ i : grid4.Coords, EltTy.bits .f32 = 32 ∨ (Rect.block (s := S64x4) S64x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4x64.size a ≤ S4x64.size a
  hwx4_2 : ∀ i : grid4.Coords, EltTy.bits .f32 = 32 ∨ (Rect.block (s := S4x64) S4x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S150000x64.size a
  hwx4_3 : ∀ i : grid4.Coords, EltTy.bits .f32 = 32 ∨ (Rect.block (s := S150000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S150000x64.size a
  hwx4_4 : ∀ i : grid4.Coords, EltTy.bits .f32 = 32 ∨ (Rect.block (s := S150000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S150000x64.size a
  hwx4_5 : ∀ i : grid4.Coords, EltTy.bits .f32 = 32 ∨ (Rect.block (s := S150000x64) S5000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S150000x64.size a
  hwx4_6 : ∀ i : grid4.Coords, EltTy.bits .f32 = 32 ∨ (Rect.block (s := S150000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1000000x64.size a
  hwx5_0 : ∀ i : grid5.Coords, EltTy.bits .f32 = 32 ∨ (Rect.block (s := S1000000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S1000000x64.size a
  hwx5_1 : ∀ i : grid5.Coords, EltTy.bits .f32 = 32 ∨ (Rect.block (s := S1000000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1000000x64.size a
  hwx5_2 : ∀ i : grid5.Coords, EltTy.bits .f32 = 32 ∨ (Rect.block (s := S1000000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1000000x64.size a
  hwx6_0 : ∀ i : grid6.Coords, EltTy.bits .f32 = 32 ∨ (Rect.block (s := S1000000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S1000000x1.size a
  hwx6_1 : ∀ i : grid6.Coords, EltTy.bits .f32 = 32 ∨ (Rect.block (s := S1000000x1) S10000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S1000000x64.size a
  hwx6_2 : ∀ i : grid6.Coords, EltTy.bits .f32 = 32 ∨ (Rect.block (s := S1000000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S250000x64.size a
  hwx7_0 : ∀ i : grid7.Coords, EltTy.bits .f32 = 32 ∨ (Rect.block (s := S250000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S250000x1.size a
  hwx7_1 : ∀ i : grid7.Coords, EltTy.bits .f32 = 32 ∨ (Rect.block (s := S250000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S250000x64.size a
  hwx7_2 : ∀ i : grid7.Coords, EltTy.bits .f32 = 32 ∨ (Rect.block (s := S250000x64) S5000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S250000x64.size a
  hwx7_3 : ∀ i : grid7.Coords, EltTy.bits .f32 = 32 ∨ (Rect.block (s := S250000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S250000x64.size a
  hwx7_4 : ∀ i : grid7.Coords, EltTy.bits .f32 = 32 ∨ (Rect.block (s := S250000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S150000x64.size a
  hwx8_0 : ∀ i : grid8.Coords, EltTy.bits .f32 = 32 ∨ (Rect.block (s := S150000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x4.size a ≤ S64x4.size a
  hwx8_1 : ∀ i : grid8.Coords, EltTy.bits .f32 = 32 ∨ (Rect.block (s := S64x4) S64x4.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S4x64.size a ≤ S4x64.size a
  hwx8_2 : ∀ i : grid8.Coords, EltTy.bits .f32 = 32 ∨ (Rect.block (s := S4x64) S4x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S150000x64.size a
  hwx8_3 : ∀ i : grid8.Coords, EltTy.bits .f32 = 32 ∨ (Rect.block (s := S150000x64) S5000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S150000x64.size a
  hwx8_4 : ∀ i : grid8.Coords, EltTy.bits .f32 = 32 ∨ (Rect.block (s := S150000x64) S5000x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S150000x64.size a
  hwx8_5 : ∀ i : grid8.Coords, EltTy.bits .f32 = 32 ∨ (Rect.block (s := S150000x64) S5000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S150000x64.size a
  hwx8_6 : ∀ i : grid8.Coords, EltTy.bits .f32 = 32 ∨ (Rect.block (s := S150000x64) S5000x64.size (cc8_transform_6 i) (hinb8_6 i)).WholeWords (EltTy.packing .f32)

variable [Facts₀]

def dot_S4x16_S16x4_S4x4_1_0_0_1_n_n : DotDims S4x16 S16x4 S4x4 where
  lhsContracting := [1]
  rhsContracting := [0]
  lhsNonContracting := [0]
  rhsNonContracting := [1]
  lhsBatch := []
  rhsBatch := []
  wf := dot_S4x16_S16x4_S4x4_1_0_0_1_n_n_wf
def scatter_S250000_S1000000x1_S1000000_n_0_0_1 : ScatterDims S250000 S1000000x1 S1000000 where
  updateWindowDims := []
  insertedWindowDims := [0]
  scatterDimsToOperandDims := [0]
  indexVectorDim := 1
  wf := scatter_S250000_S1000000x1_S1000000_n_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S250000x64_S1000000x1_S1000000x64_1_0_n_n_0_1_164 : GatherDims S250000x64 S1000000x1 S1000000x64 where
  offsetDims := [1]
  collapsedSliceDims := [0]
  operandBatchingDims := []
  startIndicesBatchingDims := []
  startIndexMap := [0]
  indexVectorDim := 1
  sliceSizes := ![1, 64]
  wf := gather_S250000x64_S1000000x1_S1000000x64_1_0_n_n_0_1_164_wf
def scatter_S250000x64_S1000000x1_S1000000x64_1_0_0_1 : ScatterDims S250000x64 S1000000x1 S1000000x64 where
  updateWindowDims := [1]
  insertedWindowDims := [0]
  scatterDimsToOperandDims := [0]
  indexVectorDim := 1
  wf := scatter_S250000x64_S1000000x1_S1000000x64_1_0_0_1_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf

abbrev win0_0 : Pipeline.Window sig grid0 :=
  Pipeline.Window.ofSpec (Memref.whole main_v32) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S64x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S4x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg0) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v58_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v58_1) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v65) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v69) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v18) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v57_1) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v81_0) S5000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v81_1) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v58_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v31) S64x4.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v30) S4x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v80) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v58_1) S5000x64.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v82_0) S5000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v82_1) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S150000x64 : Shape := ⟨2, ![150000, 64]⟩
abbrev S250000x64 : Shape := ⟨2, ![250000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S2x1000000 : Shape := ⟨2, ![2, 1000000]⟩
abbrev S1x1000000 : Shape := ⟨2, ![1, 1000000]⟩
abbrev S_ : Shape := ⟨0, ![]⟩
abbrev S4 : Shape := ⟨1, ![4]⟩
abbrev S4x1 : Shape := ⟨2, ![4, 1]⟩
abbrev S16x4 : Shape := ⟨2, ![16, 4]⟩
abbrev S4x4 : Shape := ⟨2, ![4, 4]⟩
abbrev S250000 : Shape := ⟨1, ![250000]⟩
abbrev S1000000x1 : Shape := ⟨2, ![1000000, 1]⟩
abbrev S250000x1 : Shape := ⟨2, ![250000, 1]⟩
abbrev S1000000x64 : Shape := ⟨2, ![1000000, 64]⟩
abbrev S64x4 : Shape := ⟨2, ![64, 4]⟩
abbrev S150000x4 : Shape := ⟨2, ![150000, 4]⟩
abbrev S150000 : Shape := ⟨1, ![150000]⟩
abbrev S150000x1 : Shape := ⟨2, ![150000, 1]⟩
abbrev S150000x4x1 : Shape := ⟨3, ![150000, 4, 1]⟩
abbrev S1x4x64 : Shape := ⟨3, ![1, 4, 64]⟩
abbrev S150000x4x64 : Shape := ⟨3, ![150000, 4, 64]⟩

abbrev nBuf : Space → Nat
  | .hbm => 242
  | .vmem => 0
  | .smem => 0
  | _ => 0

abbrev hbmTy0_0 (i : Nat) : BufTy := match i % 128 with
  | 0 => ⟨S150000x64, .f32⟩
  | 1 => ⟨S250000x64, .f32⟩
  | 2 => ⟨S4x64, .f32⟩
  | 3 => ⟨S16x64, .f32⟩
  | 4 => ⟨S4x16, .f32⟩
  | 5 => ⟨S1000000, .f32⟩
  | 6 => ⟨S2x1000000, .i32⟩
  | 7 => ⟨S1000000, .i32⟩
  | 8 => ⟨S1000000, .i32⟩
  | 9 => ⟨S1000000, .i32⟩
  | 10 => ⟨S1x1000000, .i32⟩
  | 11 => ⟨S1000000, .i32⟩
  | 12 => ⟨S1x1000000, .i32⟩
  | 13 => ⟨S1000000, .i32⟩
  | 14 => ⟨S4x16, .f32⟩
  | 15 => ⟨S_, .f32⟩
  | 16 => ⟨S4, .f32⟩
  | 17 => ⟨S4x1, .f32⟩
  | 18 => ⟨S4x1, .f32⟩
  | 19 => ⟨S4x16, .f32⟩
  | 20 => ⟨S4x16, .f32⟩
  | 21 => ⟨S16x4, .f32⟩
  | 22 => ⟨S4x4, .f32⟩
  | 23 => ⟨S4x4, .f32⟩
  | 24 => ⟨S4x4, .i32⟩
  | 25 => ⟨S_, .i32⟩
  | 26 => ⟨S4x4, .i32⟩
  | 27 => ⟨S4x4, .i32⟩
  | 28 => ⟨S4x4, .i32⟩
  | 29 => ⟨S4x4, .i1⟩
  | 30 => ⟨S_, .f32⟩
  | 31 => ⟨S4x4, .f32⟩
  | 32 => ⟨S4x4, .f32⟩
  | 33 => ⟨S_, .f32⟩
  | 34 => ⟨S_, .f32⟩
  | 35 => ⟨S_, .f32⟩
  | 36 => ⟨S1000000, .f32⟩
  | 37 => ⟨S_, .f32⟩
  | 38 => ⟨S250000, .f32⟩
  | 39 => ⟨S1000000x1, .i32⟩
  | 40 => ⟨S250000, .f32⟩
  | 41 => ⟨S_, .f32⟩
  | 42 => ⟨S250000, .f32⟩
  | 43 => ⟨S250000, .f32⟩
  | 44 => ⟨S250000x1, .f32⟩
  | 45 => ⟨S_, .f32⟩
  | 46 => ⟨S4, .f32⟩
  | 47 => ⟨S_, .f32⟩
  | 48 => ⟨S4, .f32⟩
  | 49 => ⟨S4, .f32⟩
  | 50 => ⟨S4x1, .f32⟩
  | 51 => ⟨S4x16, .f32⟩
  | 52 => ⟨S4x16, .f32⟩
  | 53 => ⟨S4x16, .f32⟩
  | 54 => ⟨S_, .f32⟩
  | 55 => ⟨S4, .f32⟩
  | 56 => ⟨S4x1, .f32⟩
  | 57 => ⟨S4x16, .f32⟩
  | 58 => ⟨S4x16, .f32⟩
  | 59 => ⟨S4x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S_, .i32⟩
  | 70 => ⟨S1000000, .i32⟩
  | 71 => ⟨S1000000, .i32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x64, .f32⟩
  | 81 => ⟨S1000000x64, .f32⟩
  | 82 => ⟨S_, .f32⟩
  | 83 => ⟨S250000x64, .f32⟩
  | 84 => ⟨S1000000x1, .i32⟩
  | 85 => ⟨S250000x64, .f32⟩
  | 86 => ⟨S250000x64, .f32⟩
  | 87 => ⟨S250000x64, .f32⟩
  | 88 => ⟨S64x4, .f32⟩
  | 89 => ⟨S150000x4, .f32⟩
  | 90 => ⟨S_, .f32⟩
  | 91 => ⟨S150000, .f32⟩
  | 92 => ⟨S_, .f32⟩
  | 93 => ⟨S150000, .f32⟩
  | 94 => ⟨S150000, .f32⟩
  | 95 => ⟨S150000x1, .f32⟩
  | 96 => ⟨S150000x4, .f32⟩
  | 97 => ⟨S150000x4, .f32⟩
  | 98 => ⟨S150000x4, .f32⟩
  | 99 => ⟨S_, .f32⟩
  | 100 => ⟨S150000, .f32⟩
  | 101 => ⟨S150000x1, .f32⟩
  | 102 => ⟨S150000x4, .f32⟩
  | 103 => ⟨S150000x4, .f32⟩
  | 104 => ⟨S150000x4x1, .f32⟩
  | 105 => ⟨S1000000x1, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1000000x64, .f32⟩
  | 117 => ⟨S_, .f32⟩
  | 118 => ⟨S150000x64, .f32⟩
  | 119 => ⟨S1000000x1, .i32⟩
  | 120 => ⟨S150000x64, .f32⟩
  | 121 => ⟨S1x4x64, .f32⟩
  | 122 => ⟨S150000x4x64, .f32⟩
  | 123 => ⟨S150000x4x64, .f32⟩
  | 124 => ⟨S150000x4x64, .f32⟩
  | 125 => ⟨S_, .f32⟩
  | 126 => ⟨S150000x64, .f32⟩
  | 127 => ⟨S150000x64, .f32⟩
  | _ => ⟨S150000x64, .f32⟩

abbrev hbmTy0_1 (i : Nat) : BufTy := match i % 128 with
  | 0 => ⟨S150000x64, .f32⟩
  | 1 => ⟨S250000x64, .f32⟩
  | 2 => ⟨S_, .f32⟩
  | 3 => ⟨S250000, .f32⟩
  | 4 => ⟨S250000x1, .f32⟩
  | 5 => ⟨S250000x1, .f32⟩
  | 6 => ⟨S_, .f32⟩
  | 7 => ⟨S250000x1, .f32⟩
  | 8 => ⟨S250000x1, .f32⟩
  | 9 => ⟨S250000x64, .f32⟩
  | 10 => ⟨S250000x64, .f32⟩
  | 11 => ⟨S150000x64, .f32⟩
  | 12 => ⟨S_, .f32⟩
  | 13 => ⟨S150000, .f32⟩
  | 14 => ⟨S150000x1, .f32⟩
  | 15 => ⟨S150000x1, .f32⟩
  | 16 => ⟨S_, .f32⟩
  | 17 => ⟨S150000x1, .f32⟩
  | 18 => ⟨S150000x1, .f32⟩
  | 19 => ⟨S150000x64, .f32⟩
  | 20 => ⟨S150000x64, .f32⟩
  | 21 => ⟨S250000x64, .f32⟩
  | 22 => ⟨S150000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S_, .i32⟩
  | 33 => ⟨S1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S_, .f32⟩
  | 46 => ⟨S250000x64, .f32⟩
  | 47 => ⟨S1000000x1, .i32⟩
  | 48 => ⟨S250000x64, .f32⟩
  | 49 => ⟨S250000x64, .f32⟩
  | 50 => ⟨S250000x64, .f32⟩
  | 51 => ⟨S64x4, .f32⟩
  | 52 => ⟨S150000x4, .f32⟩
  | 53 => ⟨S_, .f32⟩
  | 54 => ⟨S150000, .f32⟩
  | 55 => ⟨S_, .f32⟩
  | 56 => ⟨S150000, .f32⟩
  | 57 => ⟨S150000, .f32⟩
  | 58 => ⟨S150000x1, .f32⟩
  | 59 => ⟨S150000x4, .f32⟩
  | 60 => ⟨S150000x4, .f32⟩
  | 61 => ⟨S150000x4, .f32⟩
  | 62 => ⟨S_, .f32⟩
  | 63 => ⟨S150000, .f32⟩
  | 64 => ⟨S150000x1, .f32⟩
  | 65 => ⟨S150000x4, .f32⟩
  | 66 => ⟨S150000x4, .f32⟩
  | 67 => ⟨S150000x4x1, .f32⟩
  | 68 => ⟨S1000000x1, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x64, .f32⟩
  | 78 => ⟨S1000000x64, .f32⟩
  | 79 => ⟨S1000000x64, .f32⟩
  | 80 => ⟨S_, .f32⟩
  | 81 => ⟨S150000x64, .f32⟩
  | 82 => ⟨S1000000x1, .i32⟩
  | 83 => ⟨S150000x64, .f32⟩
  | 84 => ⟨S1x4x64, .f32⟩
  | 85 => ⟨S150000x4x64, .f32⟩
  | 86 => ⟨S150000x4x64, .f32⟩
  | 87 => ⟨S150000x4x64, .f32⟩
  | 88 => ⟨S_, .f32⟩
  | 89 => ⟨S150000x64, .f32⟩
  | 90 => ⟨S150000x64, .f32⟩
  | 91 => ⟨S150000x64, .f32⟩
  | 92 => ⟨S250000x64, .f32⟩
  | 93 => ⟨S_, .f32⟩
  | 94 => ⟨S250000, .f32⟩
  | 95 => ⟨S250000x1, .f32⟩
  | 96 => ⟨S250000x1, .f32⟩
  | 97 => ⟨S_, .f32⟩
  | 98 => ⟨S250000x1, .f32⟩
  | 99 => ⟨S250000x1, .f32⟩
  | 100 => ⟨S250000x64, .f32⟩
  | 101 => ⟨S250000x64, .f32⟩
  | 102 => ⟨S150000x64, .f32⟩
  | 103 => ⟨S_, .f32⟩
  | 104 => ⟨S150000, .f32⟩
  | 105 => ⟨S150000x1, .f32⟩
  | 106 => ⟨S150000x1, .f32⟩
  | 107 => ⟨S_, .f32⟩
  | 108 => ⟨S150000x1, .f32⟩
  | 109 => ⟨S150000x1, .f32⟩
  | 110 => ⟨S150000x64, .f32⟩
  | 111 => ⟨S150000x64, .f32⟩
  | 112 => ⟨S250000x64, .f32⟩
  | 113 => ⟨S150000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_cst : Ref sig .tc := ⟨.hbm, 30, rfl⟩
abbrev main_call1_v5 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_v40 : Ref sig .tc := ⟨.hbm, 73, rfl⟩
abbrev main_v41 : Ref sig .tc := ⟨.hbm, 74, rfl⟩
abbrev main_c_9 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call2_v0 : Ref sig .tc := ⟨.hbm, 129, rfl⟩
abbrev main_call2_cst : Ref sig .tc := ⟨.hbm, 130, rfl⟩
abbrev main_call2_v1 : Ref sig .tc := ⟨.hbm, 131, rfl⟩
abbrev main_call2_v2 : Ref sig .tc := ⟨.hbm, 132, rfl⟩
abbrev main_v87 : Ref sig .tc := ⟨.hbm, 133, rfl⟩
abbrev main_cst_18 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_call3_v0 : Ref sig .tc := ⟨.hbm, 139, rfl⟩
abbrev main_call3_cst : Ref sig .tc := ⟨.hbm, 140, rfl⟩
abbrev main_call3_v1 : Ref sig .tc := ⟨.hbm, 141, rfl⟩
abbrev main_call3_v2 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_20 : Ref sig .tc := ⟨.hbm, 151, rfl⟩
abbrev main_v99 : Ref sig .tc := ⟨.hbm, 152, rfl⟩
abbrev main_v100 : Ref sig .tc := ⟨.hbm, 153, rfl⟩
abbrev main_c_21 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_22 : Ref sig .tc := ⟨.hbm, 160, rfl⟩
abbrev main_v106 : Ref sig .tc := ⟨.hbm, 161, rfl⟩
abbrev main_v107 : Ref sig .tc := ⟨.hbm, 162, rfl⟩
abbrev main_c_23 : Ref sig .tc := ⟨.hbm, 163, rfl⟩
abbrev main_v108 : Ref sig .tc := ⟨.hbm, 164, rfl⟩
abbrev main_v109 : Ref sig .tc := ⟨.hbm, 165, rfl⟩
abbrev main_c_24 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_25 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_26 : Ref sig .tc := ⟨.hbm, 181, rfl⟩
abbrev main_v123 : Ref sig .tc := ⟨.hbm, 182, rfl⟩
abbrev main_cst_27 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_28 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_c_29 : Ref sig .tc := ⟨.hbm, 197, rfl⟩
abbrev main_v136 : Ref sig .tc := ⟨.hbm, 198, rfl⟩
abbrev main_v137 : Ref sig .tc := ⟨.hbm, 199, rfl⟩
abbrev main_c_30 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_31 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_cst_32 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_call4_v0 : Ref sig .tc := ⟨.hbm, 220, rfl⟩
abbrev main_call4_cst : Ref sig .tc := ⟨.hbm, 221, rfl⟩
abbrev main_call4_v1 : Ref sig .tc := ⟨.hbm, 222, rfl⟩
abbrev main_call4_v2 : Ref sig .tc := ⟨.hbm, 223, rfl⟩
abbrev main_v155 : Ref sig .tc := ⟨.hbm, 224, rfl⟩
abbrev main_cst_33 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_call5_v0 : Ref sig .tc := ⟨.hbm, 230, rfl⟩
abbrev main_call5_cst : Ref sig .tc := ⟨.hbm, 231, rfl⟩
abbrev main_call5_v1 : Ref sig .tc := ⟨.hbm, 232, rfl⟩
abbrev main_call5_v2 : Ref sig .tc := ⟨.hbm, 233, rfl⟩
abbrev main_v160 : Ref sig .tc := ⟨.hbm, 234, rfl⟩
abbrev main_cst_34 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  reducesTo_S4x16_S4_d1 : S4x16.ReducesTo [1] S4
  h_S_ : 0 < S_.numel
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  transposes_S4x16_S16x4_1_0 : S4x16.Transposes [1, 0] S16x4
  bcast_S_S4x4 : S_.BroadcastsInDim S4x4 (![] : Fin 0 → Fin S4x4.rank)
  reducesTo_S4x4_S_d0_1 : S4x4.ReducesTo [0, 1] S_
  bcast_S_S1000000 : S_.BroadcastsInDim S1000000 (![] : Fin 0 → Fin S1000000.rank)
  bcast_S_S250000 : S_.BroadcastsInDim S250000 (![] : Fin 0 → Fin S250000.rank)
  bcast_S1000000_S1000000x1_0 : S1000000.BroadcastsInDim S1000000x1 (![0] : Fin 1 → Fin S1000000x1.rank)
  bcast_S250000_S250000x1_0 : S250000.BroadcastsInDim S250000x1 (![0] : Fin 1 → Fin S250000x1.rank)
  bcast_S_S4 : S_.BroadcastsInDim S4 (![] : Fin 0 → Fin S4.rank)
  bcast_S_S250000x64 : S_.BroadcastsInDim S250000x64 (![] : Fin 0 → Fin S250000x64.rank)
  bcast_S250000x1_S250000x64_0_1 : S250000x1.BroadcastsInDim S250000x64 (![0, 1] : Fin 2 → Fin S250000x64.rank)
  transposes_S4x64_S64x4_1_0 : S4x64.Transposes [1, 0] S64x4
  reducesTo_S150000x4_S150000_d1 : S150000x4.ReducesTo [1] S150000
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x4_0_1 : S150000x1.BroadcastsInDim S150000x4 (![0, 1] : Fin 2 → Fin S150000x4.rank)
  bcast_S150000x4_S150000x4x1_0_1 : S150000x4.BroadcastsInDim S150000x4x1 (![0, 1] : Fin 2 → Fin S150000x4x1.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  bcast_S4x64_S1x4x64_1_2 : S4x64.BroadcastsInDim S1x4x64 (![1, 2] : Fin 2 → Fin S1x4x64.rank)
  bcast_S1x4x64_S150000x4x64_0_1_2 : S1x4x64.BroadcastsInDim S150000x4x64 (![0, 1, 2] : Fin 3 → Fin S150000x4x64.rank)
  bcast_S150000x4x1_S150000x4x64_0_1_2 : S150000x4x1.BroadcastsInDim S150000x4x64 (![0, 1, 2] : Fin 3 → Fin S150000x4x64.rank)
  reducesTo_S150000x4x64_S150000x64_d1 : S150000x4x64.ReducesTo [1] S150000x64
  reducesTo_S250000x64_S250000_d1 : S250000x64.ReducesTo [1] S250000
  bcast_S_S250000x1 : S_.BroadcastsInDim S250000x1 (![] : Fin 0 → Fin S250000x1.rank)
  reducesTo_S150000x64_S150000_d1 : S150000x64.ReducesTo [1] S150000
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  dot_S4x16_S16x4_S4x4_1_0_0_1_n_n_wf : DotDims.WF S4x16 S16x4 S4x4 [1] [0] [0] [1] [] []
  scatter_S250000_S1000000x1_S1000000_n_0_0_1_wf : ScatterDims.WF S250000 S1000000x1 S1000000 [] [0] [0] 1
  dot_S4x16_S16x64_S4x64_1_0_0_1_n_n_wf : DotDims.WF S4x16 S16x64 S4x64 [1] [0] [0] [1] [] []
  gather_S250000x64_S1000000x1_S1000000x64_1_0_n_n_0_1_164_wf : GatherDims.WF S250000x64 S1000000x1 S1000000x64 [1] [0] [] [0] [] 1 ![1, 64]
  gather_S16x64_S1000000x1_S1000000x64_1_0_n_n_0_1_164_wf : GatherDims.WF S16x64 S1000000x1 S1000000x64 [1] [0] [] [0] [] 1 ![1, 64]
  scatter_S250000x64_S1000000x1_S1000000x64_1_0_0_1_wf : ScatterDims.WF S250000x64 S1000000x1 S1000000x64 [1] [0] [0] 1
  dot_S150000x64_S64x4_S150000x4_1_0_0_1_n_n_wf : DotDims.WF S150000x64 S64x4 S150000x4 [1] [0] [0] [1] [] []
  scatter_S150000x64_S1000000x1_S1000000x64_1_0_0_1_wf : ScatterDims.WF S150000x64 S1000000x1 S1000000x64 [1] [0] [0] 1

variable [Facts₀]

def dot_S4x16_S16x4_S4x4_1_0_0_1_n_n : DotDims S4x16 S16x4 S4x4 where
  lhsContracting := [1]
  rhsContracting := [0]
  lhsNonContracting := [0]
  rhsNonContracting := [1]
  lhsBatch := []
  rhsBatch := []
  wf := dot_S4x16_S16x4_S4x4_1_0_0_1_n_n_wf
def scatter_S250000_S1000000x1_S1000000_n_0_0_1 : ScatterDims S250000 S1000000x1 S1000000 where
  updateWindowDims := []
  insertedWindowDims := [0]
  scatterDimsToOperandDims := [0]
  indexVectorDim := 1
  wf := scatter_S250000_S1000000x1_S1000000_n_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf
def gather_S250000x64_S1000000x1_S1000000x64_1_0_n_n_0_1_164 : GatherDims S250000x64 S1000000x1 S1000000x64 where
  offsetDims := [1]
  collapsedSliceDims := [0]
  operandBatchingDims := []
  startIndicesBatchingDims := []
  startIndexMap := [0]
  indexVectorDim := 1
  sliceSizes := ![1, 64]
  wf := gather_S250000x64_S1000000x1_S1000000x64_1_0_n_n_0_1_164_wf
def gather_S16x64_S1000000x1_S1000000x64_1_0_n_n_0_1_164 : GatherDims S16x64 S1000000x1 S1000000x64 where
  offsetDims := [1]
  collapsedSliceDims := [0]
  operandBatchingDims := []
  startIndicesBatchingDims := []
  startIndexMap := [0]
  indexVectorDim := 1
  sliceSizes := ![1, 64]
  wf := gather_S16x64_S1000000x1_S1000000x64_1_0_n_n_0_1_164_wf
def scatter_S250000x64_S1000000x1_S1000000x64_1_0_0_1 : ScatterDims S250000x64 S1000000x1 S1000000x64 where
  updateWindowDims := [1]
  insertedWindowDims := [0]
  scatterDimsToOperandDims := [0]
  indexVectorDim := 1
  wf := scatter_S250000x64_S1000000x1_S1000000x64_1_0_0_1_wf
def dot_S150000x64_S64x4_S150000x4_1_0_0_1_n_n : DotDims S150000x64 S64x4 S150000x4 where
  lhsContracting := [1]
  rhsContracting := [0]
  lhsNonContracting := [0]
  rhsNonContracting := [1]
  lhsBatch := []
  rhsBatch := []
  wf := dot_S150000x64_S64x4_S150000x4_1_0_0_1_n_n_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

class Facts : Prop extends Facts₀ where

variable [Facts]
-- ==== Proof.KBR0.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x1 := Rect.unit (s := S10000x1) ![0, 0] S10000x1.size inb_S10000x1_S10000x1_0_0
abbrev r0_1 : Rect S16x64 := Rect.unit (s := S16x64) ![0, 0] S16x64.size inb_S16x64_S16x64_0_0
abbrev r0_2 : Rect S10000x64 := Rect.unit (s := S10000x64) ![0, 0] S10000x64.size inb_S10000x64_S10000x64_0_0

def out0_2 (x0 : Vec F S10000x1 .i32) (x1 : Vec F S16x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
theorem sound_kernel0 (c : Dev nD) (E : Set ℕ) (i : grid0.Coords) (arg1 : Memref sig .tc .vmem S10000x1 .i32) (harg1 : arg1.IsWhole)
    (arg2 : Memref sig .tc .vmem S16x64 .f32) (harg2 : arg2.IsWhole) (arg3 : Memref sig .tc .vmem S10000x64 .f32) (harg3 : arg3.IsWhole)
    (x0 : Vec F S10000x1 .i32) (x1 : Vec F S16x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__weight_gather_kernel i arg1 harg1 arg2 harg2 arg3 harg3) K := by
  simp only [cc0__weight_gather_kernel_eq_skeleton]; unfold cc0__weight_gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

end Cert.Kernel.Hand

end
-- ==== Proof.KBR1.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S10000x64 := Rect.unit (s := S10000x64) ![0, 0] S10000x64.size inb_S10000x64_S10000x64_0_0

def out1_2 (x0 x1 : Vec F S10000x64 .f32) : Vec F S10000x64 .f32 :=
  View.canon [⟨r1, k1_pay1 (View.ld x0 r1) (View.ld x1 r1)⟩]

theorem cover1_2 (p0 : Vec F S10000x64 .f32) (y : S10000x64.Idx) :
    ∃ pc ∈ ([⟨r1, p0⟩] : List (View.Piece (Elt F) S10000x64 .f32)), y ∈ pc.1.set :=
  View.cover_of_tiled [⟨r1, p0⟩] S10000x64.size (by rfl) y

set_option maxHeartbeats 1000000 in
theorem sound_kernel1 (c : Dev nD) (E : Set ℕ) (i : grid1.Coords) (arg1 : Memref sig .tc .vmem S10000x64 .f32) (harg1 : arg1.IsWhole)
    (arg2 : Memref sig .tc .vmem S10000x64 .f32) (harg2 : arg2.IsWhole) (arg3 : Memref sig .tc .vmem S10000x64 .f32) (harg3 : arg3.IsWhole)
    (x0 x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__ew_mul_kernel i arg1 harg1 arg2 harg2 arg3 harg3) K := by
  simp only [cc1__ew_mul_kernel_eq_skeleton]; unfold cc1__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe
  isplitl [H2]; · iexists _; iexact H2
  iintro ⟨H0, H1, H2⟩
  iframe

end Cert.Kernel.Hand

end
-- ==== Proof.KBR2.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S10000x64 := Rect.unit (s := S10000x64) ![0, 0] S10000x64.size inb_S10000x64_S10000x64_0_0

abbrev r2c : Rect S10000x1 := Rect.unit (s := S10000x1) ![0, 0] S10000x1.size inb_S10000x1_S10000x1_0_0

def out2_2 (x0 : Vec F S10000x64 .f32) (x1 : Vec F S10000x1 .f32) : Vec F S10000x64 .f32 :=
  View.canon [⟨r2, k2_pay1 (View.ld x0 r2) (View.ld x1 r2c)⟩]

theorem cover2_2 (p0 : Vec F S10000x64 .f32) (y : S10000x64.Idx) :
    ∃ pc ∈ ([⟨r2, p0⟩] : List (View.Piece (Elt F) S10000x64 .f32)), y ∈ pc.1.set :=
  View.cover_of_tiled [⟨r2, p0⟩] S10000x64.size (by rfl) y

set_option maxHeartbeats 1000000 in
theorem sound_kernel2 (c : Dev nD) (E : Set ℕ) (i : grid2.Coords) (arg1 : Memref sig .tc .vmem S10000x64 .f32) (harg1 : arg1.IsWhole)
    (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__ew_mul_kernel i arg1 harg1 arg2 harg2 arg3 harg3) K := by
  simp only [cc2__ew_mul_kernel_eq_skeleton]; unfold cc2__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

end Cert.Kernel.Hand

end
-- ==== Proof.KBR3.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3 : Rect S5000x64 := Rect.unit (s := S5000x64) ![0, 0] S5000x64.size inb_S5000x64_S5000x64_0_0

abbrev r3c : Rect S5000x1 := Rect.unit (s := S5000x1) ![0, 0] S5000x1.size inb_S5000x1_S5000x1_0_0

def out3_3 (x0 : Vec F S5000x64 .f32) (x1 : Vec F S5000x1 .f32) : Vec F S5000x64 .f32 :=
  View.canon [⟨r3, k3_pay1 (View.ld x0 r3) (View.ld x1 r3c)⟩]

def out3_4 (x0 : Vec F S5000x64 .f32) (x1 : Vec F S5000x1 .f32) (x2 : Vec F S5000x64 .f32) : Vec F S5000x64 .f32 :=
  View.canon [⟨r3, k3_pay2 (View.ld x0 r3) (View.ld x1 r3c) (View.ld x2 r3)⟩]

theorem cover3_3 (p0 : Vec F S5000x64 .f32) (y : S5000x64.Idx) :
    ∃ pc ∈ ([⟨r3, p0⟩] : List (View.Piece (Elt F) S5000x64 .f32)), y ∈ pc.1.set :=
  View.cover_of_tiled [⟨r3, p0⟩] S5000x64.size (by rfl) y

set_option maxHeartbeats 1000000 in
theorem sound_kernel3 (c : Dev nD) (E : Set ℕ) (i : grid3.Coords) (arg1 : Memref sig .tc .vmem S5000x64 .f32) (harg1 : arg1.IsWhole)
    (arg2 : Memref sig .tc .vmem S5000x1 .f32) (harg2 : arg2.IsWhole) (arg3 : Memref sig .tc .vmem S5000x64 .f32) (harg3 : arg3.IsWhole)
    (arg4 : Memref sig .tc .vmem S5000x64 .f32) (harg4 : arg4.IsWhole) (arg5 : Memref sig .tc .vmem S5000x64 .f32) (harg5 : arg5.IsWhole)
    (x0 : Vec F S5000x64 .f32) (x1 : Vec F S5000x1 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__entity_update_kernel i arg1 harg1 arg2 harg2 arg3 harg3 arg4 harg4 arg5 harg5) K := by
  simp only [cc3__entity_update_kernel_eq_skeleton]; unfold cc3__entity_update_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) :
    (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  iframe
  isplitl [H3]; · iexists _; iexact H3
  isplitl [H4]; · iexists _; iexact H4
  iintro ⟨H0, H1, H2, H3, H4⟩
  iframe

end Cert.Kernel.Hand

end
-- ==== Proof.KBR4.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4 : Rect S5000x64 := Rect.unit (s := S5000x64) ![0, 0] S5000x64.size inb_S5000x64_S5000x64_0_0

abbrev r4t : Rect S64x4 := Rect.unit (s := S64x4) ![0, 0] S64x4.size inb_S64x4_S64x4_0_0

abbrev r4m : Rect S4x64 := Rect.unit (s := S4x64) ![0, 0] S4x64.size inb_S4x64_S4x64_0_0

def out4_5 (x0 : Vec F S5000x64 .f32) (x1 : Vec F S64x4 .f32) (x2 : Vec F S4x64 .f32) (x3 : Vec F S5000x64 .f32) : Vec F S5000x64 .f32 :=
  View.canon [⟨r4, k4_pay1 (View.ld x0 r4) (View.ld x1 r4t) (View.ld x2 r4m) (View.ld x3 r4)⟩]

def out4_6 (x0 : Vec F S5000x64 .f32) (x1 : Vec F S64x4 .f32) (x2 : Vec F S4x64 .f32) (x3 : Vec F S5000x64 .f32)
    (x4 : Vec F S5000x64 .f32) : Vec F S5000x64 .f32 :=
  View.canon [⟨r4, k4_pay2 (View.ld x0 r4) (View.ld x1 r4t) (View.ld x2 r4m) (View.ld x3 r4) (View.ld x4 r4)⟩]

theorem cover4_5 (p0 : Vec F S5000x64 .f32) (y : S5000x64.Idx) :
    ∃ pc ∈ ([⟨r4, p0⟩] : List (View.Piece (Elt F) S5000x64 .f32)), y ∈ pc.1.set :=
  View.cover_of_tiled [⟨r4, p0⟩] S5000x64.size (by rfl) y

set_option maxHeartbeats 4000000 in
theorem sound_kernel4 (c : Dev nD) (E : Set ℕ) (i : grid4.Coords)
    (arg1 : Memref sig .tc .vmem S5000x64 .f32) (harg1 : arg1.IsWhole) (arg2 : Memref sig .tc .vmem S64x4 .f32) (harg2 : arg2.IsWhole)
    (arg3 : Memref sig .tc .vmem S4x64 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (arg7 : Memref sig .tc .vmem S5000x64 .f32) (harg7 : arg7.IsWhole)
    (x0 : Vec F S5000x64 .f32) (x1 : Vec F S64x4 .f32) (x2 : Vec F S4x64 .f32) (x3 x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3)
            ∗ owns (c : Thread nD τ) arg7 fullShare (out4_6 x0 x1 x2 x3 x4)) -∗ K ⟨⟩))
      ⊢ wp frame (wpE (defs₀ (F := F)) Variants.none c none) E
          (cc4__user_update_kernel i arg1 harg1 arg2 harg2 arg3 harg3 arg4 harg4 arg5 harg5 arg6 harg6 arg7 harg7) K := by
  simp only [cc4__user_update_kernel_eq_skeleton]; unfold cc4__user_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_5 _)

def q4 : Fin cfg4.W → PosShare TreeShare
  | ⟨0, _⟩ => fullShare.left
  | ⟨4, _⟩ => fullShare.right
  | _ => fullShare

theorem q4_0_op_q4_4 : fullShare ∈ PCS.op (q4 0) (q4 4) := PosShare.mem_left_op_right fullShare

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t)
    | ⟨6, _⟩ => out4_6 (iblk4 V c 0 t) (iblk4 V c 1 t) (iblk4 V c 2 t) (iblk4 V c 3 t) (iblk4 V c 4 t)
  Φ _ := Pipeline.ΦA spec4 c
  q := q4
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) := by
  dsimp only [dat4]

theorem share4 (c : Dev nD) (w : Fin cfg4.W) : (dat4 V c).share w = q4 w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

set_option maxHeartbeats 1000000 in
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) _)
  iframe
  isplitl [H5]; · iexists _; iexact H5
  isplitl [H6]; · iexists _; iexact H6
  iintro ⟨H0, H1, H2, H3, H4, H5, H6⟩
  iframe

end Cert.Kernel.Hand

end
-- ==== Proof.KBR5.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5 : Rect S10000x64 := Rect.unit (s := S10000x64) ![0, 0] S10000x64.size inb_S10000x64_S10000x64_0_0

def out5_2 (x0 x1 : Vec F S10000x64 .f32) : Vec F S10000x64 .f32 :=
  View.canon [⟨r5, k5_pay1 (View.ld x0 r5) (View.ld x1 r5)⟩]

theorem cover5_2 (p0 : Vec F S10000x64 .f32) (y : S10000x64.Idx) :
    ∃ pc ∈ ([⟨r5, p0⟩] : List (View.Piece (Elt F) S10000x64 .f32)), y ∈ pc.1.set :=
  View.cover_of_tiled [⟨r5, p0⟩] S10000x64.size (by rfl) y

set_option maxHeartbeats 1000000 in
theorem sound_kernel5 (c : Dev nD) (E : Set ℕ) (i : grid5.Coords) (arg1 : Memref sig .tc .vmem S10000x64 .f32) (harg1 : arg1.IsWhole)
    (arg2 : Memref sig .tc .vmem S10000x64 .f32) (harg2 : arg2.IsWhole) (arg3 : Memref sig .tc .vmem S10000x64 .f32) (harg3 : arg3.IsWhole)
    (x0 x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__ew_mul_kernel i arg1 harg1 arg2 harg2 arg3 harg3) K := by
  simp only [cc5__ew_mul_kernel_eq_skeleton]; unfold cc5__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  unfold bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  iframe
  isplitl [H2]; · iexists _; iexact H2
  iintro ⟨H0, H1, H2⟩
  iframe

end Cert.Kernel.Hand

end
-- ==== Proof.KBR6.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6 : Rect S10000x64 := Rect.unit (s := S10000x64) ![0, 0] S10000x64.size inb_S10000x64_S10000x64_0_0

abbrev r6c : Rect S10000x1 := Rect.unit (s := S10000x1) ![0, 0] S10000x1.size inb_S10000x1_S10000x1_0_0

def out6_2 (x0 : Vec F S10000x64 .f32) (x1 : Vec F S10000x1 .f32) : Vec F S10000x64 .f32 :=
  View.canon [⟨r6, k6_pay1 (View.ld x0 r6) (View.ld x1 r6c)⟩]

theorem cover6_2 (p0 : Vec F S10000x64 .f32) (y : S10000x64.Idx) :
    ∃ pc ∈ ([⟨r6, p0⟩] : List (View.Piece (Elt F) S10000x64 .f32)), y ∈ pc.1.set :=
  View.cover_of_tiled [⟨r6, p0⟩] S10000x64.size (by rfl) y

set_option maxHeartbeats 1000000 in
theorem sound_kernel6 (c : Dev nD) (E : Set ℕ) (i : grid6.Coords) (arg1 : Memref sig .tc .vmem S10000x64 .f32) (harg1 : arg1.IsWhole)
    (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__ew_mul_kernel i arg1 harg1 arg2 harg2 arg3 harg3) K := by
  simp only [cc6__ew_mul_kernel_eq_skeleton]; unfold cc6__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  show _ ⊢ wp frame (wpE (defs₀ (F := F)) Variants.none c none) Set.univ (bodyAt6 t) _
  unfold bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe
  isplitl [H2]; · iexists _; iexact H2
  iintro ⟨H0, H1, H2⟩
  iframe

end Cert.Kernel.Hand

end
-- ==== Proof.KBR7.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7 : Rect S5000x64 := Rect.unit (s := S5000x64) ![0, 0] S5000x64.size inb_S5000x64_S5000x64_0_0

abbrev r7c : Rect S5000x1 := Rect.unit (s := S5000x1) ![0, 0] S5000x1.size inb_S5000x1_S5000x1_0_0

def out7_3 (x0 : Vec F S5000x64 .f32) (x1 : Vec F S5000x1 .f32) : Vec F S5000x64 .f32 :=
  View.canon [⟨r7, k7_pay1 (View.ld x0 r7) (View.ld x1 r7c)⟩]

def out7_4 (x0 : Vec F S5000x64 .f32) (x1 : Vec F S5000x1 .f32) (x2 : Vec F S5000x64 .f32) : Vec F S5000x64 .f32 :=
  View.canon [⟨r7, k7_pay2 (View.ld x0 r7) (View.ld x1 r7c) (View.ld x2 r7)⟩]

theorem cover7_3 (p0 : Vec F S5000x64 .f32) (y : S5000x64.Idx) :
    ∃ pc ∈ ([⟨r7, p0⟩] : List (View.Piece (Elt F) S5000x64 .f32)), y ∈ pc.1.set :=
  View.cover_of_tiled [⟨r7, p0⟩] S5000x64.size (by rfl) y

set_option maxHeartbeats 1000000 in
theorem sound_kernel7 (c : Dev nD) (E : Set ℕ) (i : grid7.Coords) (arg1 : Memref sig .tc .vmem S5000x64 .f32) (harg1 : arg1.IsWhole)
    (arg2 : Memref sig .tc .vmem S5000x1 .f32) (harg2 : arg2.IsWhole) (arg3 : Memref sig .tc .vmem S5000x64 .f32) (harg3 : arg3.IsWhole)
    (arg4 : Memref sig .tc .vmem S5000x64 .f32) (harg4 : arg4.IsWhole) (arg5 : Memref sig .tc .vmem S5000x64 .f32) (harg5 : arg5.IsWhole)
    (x0 : Vec F S5000x64 .f32) (x1 : Vec F S5000x1 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1) ∗ owns (c : Thread nD τ) arg5 fullShare (out7_4 x0 x1 x2)) -∗ K ⟨⟩))
      ⊢ wp frame (wpE (defs₀ (F := F)) Variants.none c none) E (cc7__entity_update_kernel i arg1 harg1 arg2 harg2 arg3 harg3 arg4 harg4 arg5 harg5) K := by
  simp only [cc7__entity_update_kernel_eq_skeleton]; unfold cc7__entity_update_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t)
    | ⟨4, _⟩ => out7_4 (iblk7 V c 0 t) (iblk7 V c 1 t) (iblk7 V c 2 t)
  Φ _ := Pipeline.ΦA spec7 c
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) := by dsimp only [dat7]
theorem after7_4 (c : Dev nD) (t : Fin cfg7.N) :
    (dat7 V c).after 4 t = out7_4 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  show _ ⊢ wp frame (wpE (defs₀ (F := F)) Variants.none c none) Set.univ (bodyAt7 t) _
  unfold bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  iframe
  isplitl [H3]; · iexists _; iexact H3
  isplitl [H4]; · iexists _; iexact H4
  iintro ⟨H0, H1, H2, H3, H4⟩
  iframe

end Cert.Kernel.Hand

end
-- ==== Proof.KBR8.lean ====
import proofs.«407999_j84894323573127_3_alg».proof.Proof.Gen.Kernel.Launch
import proofs.«407999_j84894323573127_3_alg».proof.Proof.Gen.Kernel.Skeleton
import proofs.«407999_j84894323573127_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8 : Rect S5000x64 := Rect.unit (s := S5000x64) ![0, 0] S5000x64.size inb_S5000x64_S5000x64_0_0

abbrev r8t : Rect S64x4 := Rect.unit (s := S64x4) ![0, 0] S64x4.size inb_S64x4_S64x4_0_0

abbrev r8m : Rect S4x64 := Rect.unit (s := S4x64) ![0, 0] S4x64.size inb_S4x64_S4x64_0_0

def out8_5 (x0 : Vec F S5000x64 .f32) (x1 : Vec F S64x4 .f32) (x2 : Vec F S4x64 .f32) (x3 : Vec F S5000x64 .f32) : Vec F S5000x64 .f32 :=
  View.canon [⟨r8, k8_pay1 (View.ld x0 r8) (View.ld x1 r8t) (View.ld x2 r8m) (View.ld x3 r8)⟩]

def out8_6 (x0 : Vec F S5000x64 .f32) (x1 : Vec F S64x4 .f32) (x2 : Vec F S4x64 .f32) (x3 : Vec F S5000x64 .f32)
    (x4 : Vec F S5000x64 .f32) : Vec F S5000x64 .f32 :=
  View.canon [⟨r8, k8_pay2 (View.ld x0 r8) (View.ld x1 r8t) (View.ld x2 r8m) (View.ld x3 r8) (View.ld x4 r8)⟩]

theorem cover8_5 (p0 : Vec F S5000x64 .f32) (y : S5000x64.Idx) :
    ∃ pc ∈ ([⟨r8, p0⟩] : List (View.Piece (Elt F) S5000x64 .f32)), y ∈ pc.1.set :=
  View.cover_of_tiled [⟨r8, p0⟩] S5000x64.size (by rfl) y

set_option maxHeartbeats 4000000 in
theorem sound_kernel8 (c : Dev nD) (E : Set ℕ) (i : grid8.Coords)
    (arg1 : Memref sig .tc .vmem S5000x64 .f32) (harg1 : arg1.IsWhole) (arg2 : Memref sig .tc .vmem S64x4 .f32) (harg2 : arg2.IsWhole)
    (arg3 : Memref sig .tc .vmem S4x64 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (arg7 : Memref sig .tc .vmem S5000x64 .f32) (harg7 : arg7.IsWhole)
    (x0 : Vec F S5000x64 .f32) (x1 : Vec F S64x4 .f32) (x2 : Vec F S4x64 .f32) (x3 x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3)
            ∗ owns (c : Thread nD τ) arg7 fullShare (out8_6 x0 x1 x2 x3 x4)) -∗ K ⟨⟩))
      ⊢ wp frame (wpE (defs₀ (F := F)) Variants.none c none) E
          (cc8__user_update_kernel i arg1 harg1 arg2 harg2 arg3 harg3 arg4 harg4 arg5 harg5 arg6 harg6 arg7 harg7) K := by
  simp only [cc8__user_update_kernel_eq_skeleton]; unfold cc8__user_update_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_5 _)
  iexists _; isplitr
  swap; · iexact H6
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t)
    | ⟨6, _⟩ => out8_6 (iblk8 V c 0 t) (iblk8 V c 1 t) (iblk8 V c 2 t) (iblk8 V c 3 t) (iblk8 V c 4 t)
  Φ _ := Pipeline.ΦA spec8 c
  q _ := fullShare
  owed _ := 0

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

set_option maxHeartbeats 1000000 in
theorem body_obligation8 (c : Dev nD) : BodyObligation (dat8 (F := F) V c) (defs₀ (F := F)) Variants.none () Set.univ := fun t => by
  rw [bigSep_W8, bigSep_W8]
  show _ ⊢ wp frame (wpE (defs₀ (F := F)) Variants.none c none) Set.univ (bodyAt8 t) _
  unfold bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) _)
  iframe
  isplitl [H5]; · iexists _; iexact H5
  isplitl [H6]; · iexists _; iexact H6
  iintro ⟨H0, H1, H2, H3, H4, H5, H6⟩
  iframe

end Cert.Kernel.Hand

end
-- ==== Proof.KBFold.lean ====
import proofs.«407999_j84894323573127_3_alg».proof.Proof.KBR0
import proofs.«407999_j84894323573127_3_alg».proof.Proof.KBR1
import proofs.«407999_j84894323573127_3_alg».proof.Proof.KBR2
import proofs.«407999_j84894323573127_3_alg».proof.Proof.KBR3
import proofs.«407999_j84894323573127_3_alg».proof.Proof.KBR4
import proofs.«407999_j84894323573127_3_alg».proof.Proof.KBR5
import proofs.«407999_j84894323573127_3_alg».proof.Proof.KBR6
import proofs.«407999_j84894323573127_3_alg».proof.Proof.KBR7
import proofs.«407999_j84894323573127_3_alg».proof.Proof.KBR8
import proofs.«407999_j84894323573127_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)

def X33 (c : Dev nD) : Buf (Elt F) ((c : Thread nD τ).loc main_v33) := (dat0 (rd (W5 m)) c).arrAt 2 cfg0.N
def W6 (c : Dev nD) : Valuation τ sig (Elt F) := Function.update (W5 m c) main_v33 (X33 m c)
abbrev W7 (c : Dev nD) : Valuation τ sig (Elt F) := StableHlo.after hostOps1 (W6 m c)

def X42 (c : Dev nD) : Buf (Elt F) ((c : Thread nD τ).loc main_v42) := (dat1 (rd (W7 m)) c).arrAt 2 cfg1.N
def W8 (c : Dev nD) : Valuation τ sig (Elt F) := Function.update (W7 m c) main_v42 (X42 m c)
abbrev W9 (c : Dev nD) : Valuation τ sig (Elt F) := StableHlo.after hostOps2 (W8 m c)

def X53 (c : Dev nD) : Buf (Elt F) ((c : Thread nD τ).loc main_v53) := (dat2 (rd (W9 m)) c).arrAt 2 cfg2.N
def W10 (c : Dev nD) : Valuation τ sig (Elt F) := Function.update (W9 m c) main_v53 (X53 m c)
abbrev W11 (c : Dev nD) : Valuation τ sig (Elt F) := StableHlo.after hostOps3 (W10 m c)

def X57_0 (c : Dev nD) : Buf (Elt F) ((c : Thread nD τ).loc main_v57_0) := (dat3 (rd (W11 m)) c).arrAt 3 cfg3.N
def X57_1 (c : Dev nD) : Buf (Elt F) ((c : Thread nD τ).loc main_v57_1) := (dat3 (rd (W11 m)) c).arrAt 4 cfg3.N
def W12 (c : Dev nD) : Valuation τ sig (Elt F) := Function.update (Function.update (W11 m c) main_v57_0 (X57_0 m c)) main_v57_1 (X57_1 m c)

def X58_0 (c : Dev nD) : Buf (Elt F) ((c : Thread nD τ).loc main_v58_0) := (dat4 (rd (W12 m)) c).arrAt 5 cfg4.N
def X58_1 (c : Dev nD) : Buf (Elt F) ((c : Thread nD τ).loc main_v58_1) := (dat4 (rd (W12 m)) c).arrAt 6 cfg4.N
def W13 (c : Dev nD) : Valuation τ sig (Elt F) := Function.update (Function.update (W12 m c) main_v58_0 (X58_0 m c)) main_v58_1 (X58_1 m c)
abbrev W14 (c : Dev nD) : Valuation τ sig (Elt F) := StableHlo.after hostOps5 (W13 m c)
def X66 (c : Dev nD) : Buf (Elt F) ((c : Thread nD τ).loc main_v66) := (dat5 (rd (W14 m)) c).arrAt 2 cfg5.N
def W15 (c : Dev nD) : Valuation τ sig (Elt F) := Function.update (W14 m c) main_v66 (X66 m c)
abbrev W16 (c : Dev nD) : Valuation τ sig (Elt F) := StableHlo.after hostOps6 (W15 m c)
def X77 (c : Dev nD) : Buf (Elt F) ((c : Thread nD τ).loc main_v77) := (dat6 (rd (W16 m)) c).arrAt 2 cfg6.N
def W17 (c : Dev nD) : Valuation τ sig (Elt F) := Function.update (W16 m c) main_v77 (X77 m c)
abbrev W18 (c : Dev nD) : Valuation τ sig (Elt F) := StableHlo.after hostOps7 (W17 m c)
def X81_0 (c : Dev nD) : Buf (Elt F) ((c : Thread nD τ).loc main_v81_0) := (dat7 (rd (W18 m)) c).arrAt 3 cfg7.N
def X81_1 (c : Dev nD) : Buf (Elt F) ((c : Thread nD τ).loc main_v81_1) := (dat7 (rd (W18 m)) c).arrAt 4 cfg7.N
def W19 (c : Dev nD) : Valuation τ sig (Elt F) := Function.update (Function.update (W18 m c) main_v81_0 (X81_0 m c)) main_v81_1 (X81_1 m c)
def X82_0 (c : Dev nD) : Buf (Elt F) ((c : Thread nD τ).loc main_v82_0) := (dat8 (rd (W19 m)) c).arrAt 5 cfg8.N
def X82_1 (c : Dev nD) : Buf (Elt F) ((c : Thread nD τ).loc main_v82_1) := (dat8 (rd (W19 m)) c).arrAt 6 cfg8.N
def W20 (c : Dev nD) : Valuation τ sig (Elt F) := Function.update (Function.update (W19 m c) main_v82_0 (X82_0 m c)) main_v82_1 (X82_1 m c)

theorem W6_self (c : Dev nD) : W6 m c main_v33 = X33 m c := by unfold W6; exact Function.update_self ..
theorem W6_ne (c : Dev nD) (r : Ref sig .tc) (h : r ≠ main_v33) : W6 m c r = W5 m c r := by
  unfold W6; exact Function.update_of_ne (StableHlo.devRef_ne_of_ne h : (Proc.devRef .tc r : DevRef τ sig) ≠ Proc.devRef .tc main_v33) ..
theorem W8_self (c : Dev nD) : W8 m c main_v42 = X42 m c := by unfold W8; exact Function.update_self ..
theorem W8_ne (c : Dev nD) (r : Ref sig .tc) (h : r ≠ main_v42) : W8 m c r = W7 m c r := by
  unfold W8; exact Function.update_of_ne (StableHlo.devRef_ne_of_ne h : (Proc.devRef .tc r : DevRef τ sig) ≠ Proc.devRef .tc main_v42) ..
theorem W10_self (c : Dev nD) : W10 m c main_v53 = X53 m c := by unfold W10; exact Function.update_self ..
theorem W10_ne (c : Dev nD) (r : Ref sig .tc) (h : r ≠ main_v53) : W10 m c r = W9 m c r := by
  unfold W10; exact Function.update_of_ne (StableHlo.devRef_ne_of_ne h : (Proc.devRef .tc r : DevRef τ sig) ≠ Proc.devRef .tc main_v53) ..
theorem W15_self (c : Dev nD) : W15 m c main_v66 = X66 m c := by unfold W15; exact Function.update_self ..
theorem W15_ne (c : Dev nD) (r : Ref sig .tc) (h : r ≠ main_v66) : W15 m c r = W14 m c r := by
  unfold W15; exact Function.update_of_ne (StableHlo.devRef_ne_of_ne h : (Proc.devRef .tc r : DevRef τ sig) ≠ Proc.devRef .tc main_v66) ..
theorem W17_self (c : Dev nD) : W17 m c main_v77 = X77 m c := by unfold W17; exact Function.update_self ..
theorem W17_ne (c : Dev nD) (r : Ref sig .tc) (h : r ≠ main_v77) : W17 m c r = W16 m c r := by
  unfold W17; exact Function.update_of_ne (StableHlo.devRef_ne_of_ne h : (Proc.devRef .tc r : DevRef τ sig) ≠ Proc.devRef .tc main_v77) ..

theorem upd2_fst (V : Valuation τ sig (Elt F)) (o0 o1 : Ref sig .tc) (h : o0 ≠ o1) (x0) (x1) :
    Function.update (Function.update V (o0 : DevRef τ sig) x0) (o1 : DevRef τ sig) x1 (o0 : DevRef τ sig) = x0 := by
  rw [Function.update_of_ne (StableHlo.devRef_ne_of_ne h : (Proc.devRef .tc o0 : DevRef τ sig) ≠ Proc.devRef .tc o1)]
  exact Function.update_self ..
theorem upd2_snd (V : Valuation τ sig (Elt F)) (o0 o1 : Ref sig .tc) (x0) (x1) :
    Function.update (Function.update V (o0 : DevRef τ sig) x0) (o1 : DevRef τ sig) x1 (o1 : DevRef τ sig) = x1 :=
  Function.update_self ..
theorem upd2_ne (V : Valuation τ sig (Elt F)) (o0 o1 r : Ref sig .tc) (h0 : r ≠ o0) (h1 : r ≠ o1) (x0) (x1) :
    Function.update (Function.update V (o0 : DevRef τ sig) x0) (o1 : DevRef τ sig) x1 (r : DevRef τ sig) = V r := by
  rw [Function.update_of_ne (StableHlo.devRef_ne_of_ne h1 : (Proc.devRef .tc r : DevRef τ sig) ≠ Proc.devRef .tc o1),
    Function.update_of_ne (StableHlo.devRef_ne_of_ne h0 : (Proc.devRef .tc r : DevRef τ sig) ≠ Proc.devRef .tc o0)]

theorem W12_fst (c : Dev nD) : W12 m c main_v57_0 = X57_0 m c := by unfold W12; exact upd2_fst _ _ _ (by decide) _ _
theorem W12_snd (c : Dev nD) : W12 m c main_v57_1 = X57_1 m c := by unfold W12; exact upd2_snd _ _ _ _ _
theorem W12_ne (c : Dev nD) (r : Ref sig .tc) (h0 : r ≠ main_v57_0) (h1 : r ≠ main_v57_1) : W12 m c r = W11 m c r := by
  unfold W12; exact upd2_ne _ _ _ _ h0 h1 _ _
theorem W13_fst (c : Dev nD) : W13 m c main_v58_0 = X58_0 m c := by unfold W13; exact upd2_fst _ _ _ (by decide) _ _
theorem W13_snd (c : Dev nD) : W13 m c main_v58_1 = X58_1 m c := by unfold W13; exact upd2_snd _ _ _ _ _
theorem W13_ne (c : Dev nD) (r : Ref sig .tc) (h0 : r ≠ main_v58_0) (h1 : r ≠ main_v58_1) : W13 m c r = W12 m c r := by
  unfold W13; exact upd2_ne _ _ _ _ h0 h1 _ _
theorem W19_fst (c : Dev nD) : W19 m c main_v81_0 = X81_0 m c := by unfold W19; exact upd2_fst _ _ _ (by decide) _ _
theorem W19_snd (c : Dev nD) : W19 m c main_v81_1 = X81_1 m c := by unfold W19; exact upd2_snd _ _ _ _ _
theorem W19_ne (c : Dev nD) (r : Ref sig .tc) (h0 : r ≠ main_v81_0) (h1 : r ≠ main_v81_1) : W19 m c r = W18 m c r := by
  unfold W19; exact upd2_ne _ _ _ _ h0 h1 _ _
theorem W20_fst (c : Dev nD) : W20 m c main_v82_0 = X82_0 m c := by unfold W20; exact upd2_fst _ _ _ (by decide) _ _
theorem W20_snd (c : Dev nD) : W20 m c main_v82_1 = X82_1 m c := by unfold W20; exact upd2_snd _ _ _ _ _
theorem W20_ne (c : Dev nD) (r : Ref sig .tc) (h0 : r ≠ main_v82_0) (h1 : r ≠ main_v82_1) : W20 m c r = W19 m c r := by
  unfold W20; exact upd2_ne _ _ _ _ h0 h1 _ _

def pdats : (p : Fin 9) → (c : Dev nD) → Dat τ (Elt F) Unit ℕ (UR sig nD τ) ℕ (Pipeline.pin (pcfgs (F := F)) adm p) c
  | ⟨0, _⟩ => fun c => dat0 (rd (W5 m)) c
  | ⟨1, _⟩ => fun c => dat1 (rd (W7 m)) c
  | ⟨2, _⟩ => fun c => dat2 (rd (W9 m)) c
  | ⟨3, _⟩ => fun c => dat3 (rd (W11 m)) c
  | ⟨4, _⟩ => fun c => dat4 (rd (W12 m)) c
  | ⟨5, _⟩ => fun c => dat5 (rd (W14 m)) c
  | ⟨6, _⟩ => fun c => dat6 (rd (W16 m)) c
  | ⟨7, _⟩ => fun c => dat7 (rd (W18 m)) c
  | ⟨8, _⟩ => fun c => dat8 (rd (W19 m)) c

abbrev 𝒱₀ : Variants := Variants.none

abbrev Lz : GSem nD τ sig → Finset Unit := fun _ => ∅
abbrev lvz : GSem nD τ sig → Unit → ℕ := fun _ _ => 0

abbrev Rst (c : Dev nD) : sProp 𝕄 := iprop((∃ r, prngReg c r) ∗ ∃ W, owes (c : Thread nD τ) (0 : CellTallies nD τ sig Unit) W)

abbrev TS (W : Dev nD → Valuation τ sig (Elt F)) (c : Dev nD) : sProp 𝕄 :=
  iprop(StableHlo.held (c : Thread nD τ) (Pipeline.ucRefs τ sig) (W c) ∗ Rst c)

set_option backward.isDefEq.respectTransparency.types false in
/-- One region as a step of the whole run, from every buffer at `Wa` to every buffer at `Wb`, given that its arrays can be taken out of the buffers before it and put back after it. -/
def regOf' (p : Fin 9) (hw : Pipeline.WinFacts₀ (cfgs p).spec) (hpos : ∀ w : Fin (cfgs p).W, 0 < ((cfgs p).spec w).block.numel)
    (hst : ∀ (w : Fin (cfgs p).W) (s : Fin ((cfgs p).spec w).nbuf), (((cfgs p).spec w).stage s).IsWhole)
    (Wa Wb : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0)
    (hΦ : ∀ c k, (pdats m p c).Φ k = Pipeline.ΦA (cfgs p).spec c)
    (hsplit : ∀ c, (unscopedBufs (Ix := Unit) (Name := ℕ) (U := UR sig nD τ) (Lvl := ℕ) c (rd Wa c) : sProp 𝕄)
      ⊢ iprop((pdats m p c).arrays ((pdats m p c).arrAt · 0)
          ∗ Pipeline.unscopedRest (Ix := Unit) (Name := ℕ) (U := UR sig nD τ) (Lvl := ℕ) (cfgs p).spec c (rd Wa c)))
    (hjoin : ∀ c, iprop((pdats m p c).arrays ((pdats m p c).arrAt · (cfgs p).N)
          ∗ Pipeline.unscopedRest (Ix := Unit) (Name := ℕ) (U := UR sig nD τ) (Lvl := ℕ) (cfgs p).spec c (rd Wa c))
      ⊢ (unscopedBufs (Ix := Unit) (Name := ℕ) (U := UR sig nD τ) (Lvl := ℕ) c (rd Wb c) : sProp 𝕄)) :
    Pipeline.RegionSeg (pcfgs (F := F)) adm (pdats m) () defs₀ 𝒱₀ Lz lvz p where
  win := hw
  block_pos := hpos
  stage_whole := hst
  K := PEmpty
  osem k := k.elim
  ho := Pipeline.OwnSemFacts.none _
  hbody c := (hbody c).loose
  hwaits := Pipeline.hwaits_of_owed_zero _ _ _ _ Lz lvz p howed
  pre c := TS Wa c
  post c := TS Wb c
  X c := iprop(∃ r, prngReg c r)
  Y c := iprop(∃ r, prngReg c r)
  Z c := Pipeline.unscopedRest (Ix := Unit) (Name := ℕ) (U := UR sig nD τ) (Lvl := ℕ) (cfgs p).spec c (rd Wa c)
  hentry c := by
    have hs := hsplit c
    rw [Pipeline.unscopedBufs_held] at hs
    rw [Pipeline.ownSems0_none]
    unfold Pipeline.Dat.owesAt Pipeline.owesWithin
    rw [howed c 0]
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [howed c (Fin.last _)]
    iintro ⟨Ha, HO, HY, Hrest⟩
    imodintro
    isplitl [Ha Hrest]
    · iapply hj; isplitl [Ha] <;> iassumption
    isplitl [HY]; · iexact HY
    icases HO with ⟨%W, -, HO⟩; iexists W; iexact HO

set_option backward.isDefEq.respectTransparency.types false in
/-- When the windows' arrays are distinct, `Wb` need only name the result arrays: an operand's array is no result's array, so it is kept. -/
def regOf (p : Fin 9) (lf : Pipeline.LaunchFacts (nD := nD) (τ := τ) cfgs p) (Wa Wb : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0)
    (hΦ : ∀ c k, (pdats m p c).Φ k = Pipeline.ΦA (cfgs p).spec c) (hq : ∀ c w, (pdats m p c).q w = fullShare)
    (hA : ∀ c w, (pdats m p c).A w = rd Wa c (Pipeline.arrRef (cfgs p).spec w))
    (hout : ∀ c w, ((cfgs p).win w).isOut = true → (pdats m p c).arrAt w (cfgs p).N = rd Wb c (Pipeline.arrRef (cfgs p).spec w))
    (hoff : ∀ c b, (∀ w, ((cfgs p).win w).isOut = true → Pipeline.arrRef (cfgs p).spec w ≠ b) → rd Wb c b = rd Wa c b) :
    Pipeline.RegionSeg (pcfgs (F := F)) adm (pdats m) () defs₀ 𝒱₀ Lz lvz p :=
  regOf' m p lf.win.to₀ lf.block_pos lf.stage_whole Wa Wb hbody howed hrec hΦ
    (fun c => Pipeline.arrays_of_unscopedBufs (p := p) (pcfgs (F := F)) adm (pdats m) lf.win lf.arr_whole c
      ((pdats m p c).share_full (hq c)) (rd Wa c) (hA c))
    (fun c => Pipeline.unscopedBufs_of_arrays (p := p) (pcfgs (F := F)) adm (Ix := Unit) (Name := ℕ) (U := UR sig nD τ) (Lvl := ℕ)
      lf.win lf.arr_whole c (pdats m) ((pdats m p c).share_full (hq c))
      (rd Wa c) (rd Wb c) ((pdats m p c).arrAt · (cfgs p).N)
      (fun w => by
        by_cases hw : ((cfgs p).win w).isOut = true
        · exact hout c w hw
        · refine (((pdats m p c).arrAt_in w ((Bool.not_eq_true _).mp hw) _).trans (hA c w)).trans (hoff c _ fun w' hw' e => ?_).symm
          rw [lf.win.arr_inj e] at hw'
          exact hw hw')
      (fun b hb => hoff c b fun w _ e => hb (Finset.mem_image.mpr ⟨w, Finset.mem_univ _, e⟩)))

end Cert.Kernel.Hand

end
-- ==== Proof.KBOuts.lean ====
import proofs.«407999_j84894323573127_3_alg».proof.Proof.KBFold
import proofs.«407999_j84894323573127_3_alg».proof.Proof.KBRegionsRun
import proofs.«407999_j84894323573127_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def Wtab : ℕ → Dev nD → Valuation τ sig (Elt F)
  | 6 => W6 m | 8 => W8 m | 10 => W10 m | 12 => W12 m | 13 => W13 m
  | 15 => W15 m | 17 => W17 m | 19 => W19 m | 20 => W20 m | _ => W0 m

def outs : Outs (F := F) := fun J r c => Wtab m J c r

theorem VW5 (c : Dev nD) : V5 m c = W5 m c := rfl
theorem VW6 (c : Dev nD) : V6 m (outs m) c = W6 m c := by
  have h : outs m 6 main_v33 c = X33 m c := W6_self m c
  show Function.update (V5 m c) (main_v33 : DevRef τ sig) (outs m 6 main_v33 c) = W6 m c
  rw [h]; rfl
theorem VW7 (c : Dev nD) : V7 m (outs m) c = W7 m c := by
  show StableHlo.after hostOps1 (V6 m (outs m) c) = StableHlo.after hostOps1 (W6 m c); rw [VW6]
theorem VW8 (c : Dev nD) : V8 m (outs m) c = W8 m c := by
  have h : outs m 8 main_v42 c = X42 m c := W8_self m c
  show Function.update (V7 m (outs m) c) (main_v42 : DevRef τ sig) (outs m 8 main_v42 c) = W8 m c
  rw [h, VW7]; rfl
theorem VW9 (c : Dev nD) : V9 m (outs m) c = W9 m c := by
  show StableHlo.after hostOps2 (V8 m (outs m) c) = StableHlo.after hostOps2 (W8 m c); rw [VW8]
theorem VW10 (c : Dev nD) : V10 m (outs m) c = W10 m c := by
  have h : outs m 10 main_v53 c = X53 m c := W10_self m c
  show Function.update (V9 m (outs m) c) (main_v53 : DevRef τ sig) (outs m 10 main_v53 c) = W10 m c
  rw [h, VW9]; rfl
theorem VW11 (c : Dev nD) : V11 m (outs m) c = W11 m c := by
  show StableHlo.after hostOps3 (V10 m (outs m) c) = StableHlo.after hostOps3 (W10 m c); rw [VW10]
theorem VW12 (c : Dev nD) : V12 m (outs m) c = W12 m c := by
  have h0 : outs m 12 main_v57_0 c = X57_0 m c := W12_fst m c
  have h1 : outs m 12 main_v57_1 c = X57_1 m c := W12_snd m c
  show Function.update (Function.update (V11 m (outs m) c) (main_v57_0 : DevRef τ sig) (outs m 12 main_v57_0 c)) (main_v57_1 : DevRef τ sig) (outs m 12 main_v57_1 c) = W12 m c
  rw [h0, h1, VW11]; rfl
theorem VW13 (c : Dev nD) : V13 m (outs m) c = W13 m c := by
  have h0 : outs m 13 main_v58_0 c = X58_0 m c := W13_fst m c
  have h1 : outs m 13 main_v58_1 c = X58_1 m c := W13_snd m c
  show Function.update (Function.update (V12 m (outs m) c) (main_v58_0 : DevRef τ sig) (outs m 13 main_v58_0 c)) (main_v58_1 : DevRef τ sig) (outs m 13 main_v58_1 c) = W13 m c
  rw [h0, h1, VW12]; rfl
theorem VW14 (c : Dev nD) : V14 m (outs m) c = W14 m c := by
  show StableHlo.after hostOps5 (V13 m (outs m) c) = StableHlo.after hostOps5 (W13 m c); rw [VW13]
theorem VW15 (c : Dev nD) : V15 m (outs m) c = W15 m c := by
  have h : outs m 15 main_v66 c = X66 m c := W15_self m c
  show Function.update (V14 m (outs m) c) (main_v66 : DevRef τ sig) (outs m 15 main_v66 c) = W15 m c
  rw [h, VW14]; rfl
theorem VW16 (c : Dev nD) : V16 m (outs m) c = W16 m c := by
  show StableHlo.after hostOps6 (V15 m (outs m) c) = StableHlo.after hostOps6 (W15 m c); rw [VW15]
theorem VW17 (c : Dev nD) : V17 m (outs m) c = W17 m c := by
  have h : outs m 17 main_v77 c = X77 m c := W17_self m c
  show Function.update (V16 m (outs m) c) (main_v77 : DevRef τ sig) (outs m 17 main_v77 c) = W17 m c
  rw [h, VW16]; rfl
theorem VW18 (c : Dev nD) : V18 m (outs m) c = W18 m c := by
  show StableHlo.after hostOps7 (V17 m (outs m) c) = StableHlo.after hostOps7 (W17 m c); rw [VW17]
theorem VW19 (c : Dev nD) : V19 m (outs m) c = W19 m c := by
  have h0 : outs m 19 main_v81_0 c = X81_0 m c := W19_fst m c
  have h1 : outs m 19 main_v81_1 c = X81_1 m c := W19_snd m c
  show Function.update (Function.update (V18 m (outs m) c) (main_v81_0 : DevRef τ sig) (outs m 19 main_v81_0 c)) (main_v81_1 : DevRef τ sig) (outs m 19 main_v81_1 c) = W19 m c
  rw [h0, h1, VW18]; rfl
theorem VW20 (c : Dev nD) : V20 m (outs m) c = W20 m c := by
  have h0 : outs m 20 main_v82_0 c = X82_0 m c := W20_fst m c
  have h1 : outs m 20 main_v82_1 c = X82_1 m c := W20_snd m c
  show Function.update (Function.update (V19 m (outs m) c) (main_v82_0 : DevRef τ sig) (outs m 20 main_v82_0 c)) (main_v82_1 : DevRef τ sig) (outs m 20 main_v82_1 c) = W20 m c
  rw [h0, h1, VW19]; rfl

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rst (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE9 (c : Dev nD) : Rst (F := F) c ⊢ (iprop(∃ W, owes (c : Thread nD τ) (0 : CellTallies nD τ sig Unit) W) : sProp 𝕄) := by
  iintro ⟨-, HO⟩; iexact HO

end Cert.Kernel.Hand

end
-- ==== Proof.KBSeg0.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg0 : Pipeline.RegionSeg (pcfgs (F := F)) adm (pdats m) () defs₀ 𝒱₀ Lz lvz 0 :=
  regOf m 0 launch0 (W5 m) (W6 m) (body_obligation0 (rd (W5 m))) (fun _ _ => rfl) (fun _ _ => trivial) (fun _ _ => rfl)
    (fun _ _ => rfl) (fun _ _ => rfl)
    (fun c w hw => match w, hw with
      | ⟨2, _⟩, _ => (W6_self m c).symm
      | ⟨0, _⟩, h | ⟨1, _⟩, h => nomatch h)
    (fun c b h => W6_ne m c b (h 2 rfl).symm)

end Cert.Kernel.Hand

end
-- ==== Proof.KBSeg1.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg1 : Pipeline.RegionSeg (pcfgs (F := F)) adm (pdats m) () defs₀ 𝒱₀ Lz lvz 1 :=
  regOf m 1 launch1 (W7 m) (W8 m) (body_obligation1 (rd (W7 m))) (fun _ _ => rfl) (fun _ _ => trivial) (fun _ _ => rfl)
    (fun _ _ => rfl) (fun _ _ => rfl)
    (fun c w hw => match w, hw with
      | ⟨2, _⟩, _ => (W8_self m c).symm
      | ⟨0, _⟩, h | ⟨1, _⟩, h => nomatch h)
    (fun c b h => W8_ne m c b (h 2 rfl).symm)

end Cert.Kernel.Hand

end
-- ==== Proof.KBSeg2.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg2 : Pipeline.RegionSeg (pcfgs (F := F)) adm (pdats m) () defs₀ 𝒱₀ Lz lvz 2 :=
  regOf m 2 launch2 (W9 m) (W10 m) (body_obligation2 (rd (W9 m))) (fun _ _ => rfl) (fun _ _ => trivial) (fun _ _ => rfl)
    (fun _ _ => rfl) (fun _ _ => rfl)
    (fun c w hw => match w, hw with
      | ⟨2, _⟩, _ => (W10_self m c).symm
      | ⟨0, _⟩, h | ⟨1, _⟩, h => nomatch h)
    (fun c b h => W10_ne m c b (h 2 rfl).symm)

end Cert.Kernel.Hand

end
-- ==== Proof.KBSeg3.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg3 : Pipeline.RegionSeg (pcfgs (F := F)) adm (pdats m) () defs₀ 𝒱₀ Lz lvz 3 :=
  regOf m 3 launch3 (W11 m) (W12 m) (body_obligation3 (rd (W11 m))) (fun _ _ => rfl) (fun _ _ => trivial) (fun _ _ => rfl)
    (fun _ _ => rfl) (fun _ _ => rfl)
    (fun c w hw => match w, hw with
      | ⟨3, _⟩, _ => (W12_fst m c).symm
      | ⟨4, _⟩, _ => (W12_snd m c).symm
      | ⟨0, _⟩, h | ⟨1, _⟩, h | ⟨2, _⟩, h => nomatch h)
    (fun c b h => W12_ne m c b (h 3 rfl).symm (h 4 rfl).symm)

end Cert.Kernel.Hand

end
-- ==== Proof.KBSeg4.lean ====
import proofs.«407999_j84894323573127_3_alg».proof.Proof.KBFold
import proofs.«407999_j84894323573127_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF4 (c : Dev nD) (w : Fin cfg4.W) : (dat4 (rd (W12 m)) c).arrAt w cfg4.N = rd (W13 m) c (Pipeline.arrRef spec4 w) :=
  match w with
  | ⟨0, _⟩ => (((dat4 (rd (W12 m)) c).arrAt_in 0 rfl _).trans (A_eq4 (rd (W12 m)) c 0)).trans (W13_ne m c _ (by decide) (by decide)).symm
  | ⟨1, _⟩ => (((dat4 (rd (W12 m)) c).arrAt_in 1 rfl _).trans (A_eq4 (rd (W12 m)) c 1)).trans (W13_ne m c _ (by decide) (by decide)).symm
  | ⟨2, _⟩ => (((dat4 (rd (W12 m)) c).arrAt_in 2 rfl _).trans (A_eq4 (rd (W12 m)) c 2)).trans (W13_ne m c _ (by decide) (by decide)).symm
  | ⟨3, _⟩ => (((dat4 (rd (W12 m)) c).arrAt_in 3 rfl _).trans (A_eq4 (rd (W12 m)) c 3)).trans (W13_ne m c _ (by decide) (by decide)).symm
  | ⟨4, _⟩ => (((dat4 (rd (W12 m)) c).arrAt_in 4 rfl _).trans (A_eq4 (rd (W12 m)) c 4)).trans (W13_ne m c _ (by decide) (by decide)).symm
  | ⟨5, _⟩ => (W13_fst m c).symm
  | ⟨6, _⟩ => (W13_snd m c).symm

theorem hrest4 (c : Dev nD) : ∀ b, b ∉ Finset.univ.image (Pipeline.arrRef spec4) → rd (W13 m) c b = rd (W12 m) c b :=
  fun b hb => W13_ne m c b (fun e => hb (Finset.mem_image.mpr ⟨5, Finset.mem_univ _, e.symm⟩))
    (fun e => hb (Finset.mem_image.mpr ⟨6, Finset.mem_univ _, e.symm⟩))

theorem arrRefs4 : Finset.univ.image (Pipeline.arrRef spec4) = [main_arg0, main_v31, main_v30, main_v56, main_v58_0, main_v58_1].toFinset := by decide

theorem arrays4_eq (V : (c : Dev nD) → (b : Ref sig .tc) → Buf (Elt F) ((c : Thread nD τ).loc b)) (c : Dev nD)
    (G : (w : Fin cfg4.W) → Buf (Elt F) ((cfg4.win w).arr.view.loc (c : Thread nD τ))) :
    (dat4 V c).arrays G = bigSep Finset.univ fun w => ((((c : Thread nD τ).loc (Pipeline.arrRef spec4 w)) ↦{q4 w} G w : sProp 𝕄)) := by
  unfold Dat.arrays
  exact bigSep_congr fun w _ => by rw [(arr_whole4 w).set_eq_univ, share4]

theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_arg0) ↦{fullShare} V main_arg0) ∗ (((c : Thread nD τ).loc main_v31) ↦{fullShare} V main_v31)
        ∗ (((c : Thread nD τ).loc main_v30) ↦{fullShare} V main_v30) ∗ (((c : Thread nD τ).loc main_v56) ↦{fullShare} V main_v56)
        ∗ (((c : Thread nD τ).loc main_v58_0) ↦{fullShare} V main_v58_0) ∗ (((c : Thread nD τ).loc main_v58_1) ↦{fullShare} V main_v58_1)) := by
  unfold Pipeline.arrBufs
  rw [bigSep_eq_bigSepL_of_eq _ arrRefs4 (by decide)]
  rfl

theorem arrRef4_0 : Pipeline.arrRef spec4 0 = main_arg0 := rfl
theorem arrRef4_1 : Pipeline.arrRef spec4 1 = main_v31 := rfl
theorem arrRef4_2 : Pipeline.arrRef spec4 2 = main_v30 := rfl
theorem arrRef4_3 : Pipeline.arrRef spec4 3 = main_v56 := rfl
theorem arrRef4_4 : Pipeline.arrRef spec4 4 = main_arg0 := rfl
theorem arrRef4_5 : Pipeline.arrRef spec4 5 = main_v58_0 := rfl
theorem arrRef4_6 : Pipeline.arrRef spec4 6 = main_v58_1 := rfl
theorem q4_0 : q4 0 = fullShare.left := rfl
theorem q4_1 : q4 1 = fullShare := rfl
theorem q4_2 : q4 2 = fullShare := rfl
theorem q4_3 : q4 3 = fullShare := rfl
theorem q4_4 : q4 4 = fullShare.right := rfl
theorem q4_5 : q4 5 = fullShare := rfl
theorem q4_6 : q4 6 = fullShare := rfl

set_option maxHeartbeats 4000000 in
theorem arrays4_at (V : (c : Dev nD) → (b : Ref sig .tc) → Buf (Elt F) ((c : Thread nD τ).loc b)) (c : Dev nD)
    (V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w)) :
    (dat4 V c).arrays G = iprop((((c : Thread nD τ).loc main_arg0) ↦{fullShare.left} V' main_arg0) ∗ (((c : Thread nD τ).loc main_v31) ↦{fullShare} V' main_v31)
      ∗ (((c : Thread nD τ).loc main_v30) ↦{fullShare} V' main_v30) ∗ (((c : Thread nD τ).loc main_v56) ↦{fullShare} V' main_v56)
      ∗ (((c : Thread nD τ).loc main_arg0) ↦{fullShare.right} V' main_arg0) ∗ (((c : Thread nD τ).loc main_v58_0) ↦{fullShare} V' main_v58_0)
      ∗ (((c : Thread nD τ).loc main_v58_1) ↦{fullShare} V' main_v58_1)) := by
  rw [arrays4_eq, bigSep_W4, hG 0, hG 1, hG 2, hG 3, hG 4, hG 5, hG 6]
  rw [arrRef4_0, arrRef4_1, arrRef4_2, arrRef4_3, arrRef4_5, arrRef4_6, q4_0, q4_1, q4_2, q4_3, q4_4, q4_5, q4_6]

set_option maxHeartbeats 4000000 in
theorem arrays4_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat4 V c).arrays ((dat4 V c).arrAt · 0)
          ∗ Pipeline.unscopedRest (Ix := Unit) (Name := ℕ) (U := UR sig nD τ) (Lvl := ℕ) spec4 c (V c)) := by
  rw [Pipeline.unscopedBufs_split₀ (Pipeline.pin (pcfgs (F := F)) adm) 4 winFacts₀4.arr_unscoped c (V c)]
  refine sep_mono ?_ .rfl
  rw [arrays4_at V c (V c) ((dat4 V c).arrAt · 0) (fun w => A_eq4 V c w)]
  refine (Entails.of_eq (arrBufs4_eq c (V c))).trans ?_
  iintro ⟨H0, H1, H2, H3, H5, H6⟩
  ihave H0 := (pointsTo_share (PosShare.mem_left_op_right fullShare)).1 $$ H0
  icases H0 with ⟨H0, H4⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem unscopedBufs4_of_arrays (V : (c : Dev nD) → (b : Ref sig .tc) → Buf (Elt F) ((c : Thread nD τ).loc b)) (c : Dev nD)
    (V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V c b) :
    iprop((dat4 V c).arrays G ∗ Pipeline.unscopedRest (Ix := Unit) (Name := ℕ) (U := UR sig nD τ) (Lvl := ℕ) spec4 c (V c))
      ⊢ (unscopedBufs (Ix := Unit) (Name := ℕ) (U := UR sig nD τ) (Lvl := ℕ) c V' : sProp 𝕄) := by
  rw [Pipeline.unscopedBufs_split₀ (Pipeline.pin (pcfgs (F := F)) adm) 4 winFacts₀4.arr_unscoped c V']
  refine sep_mono ?_ (Entails.of_eq ?_)
  · rw [arrays4_at V c V' G hG]
    refine BIBase.Entails.trans ?_ (Entails.of_eq (arrBufs4_eq c V').symm)
    iintro ⟨H0, H1, H2, H3, H4, H5, H6⟩
    isplitl [H0 H4]
    · iapply (pointsTo_share (PosShare.mem_left_op_right fullShare)).2
      isplitl [H0]; · iexact H0
      iexact H4
    isplitl [H1]; · iexact H1
    isplitl [H2]; · iexact H2
    isplitl [H3]; · iexact H3
    isplitl [H5]; · iexact H5
    iexact H6
  · unfold Pipeline.unscopedRest
    exact bigSep_congr fun b hb => by rw [hrest b (Finset.mem_sdiff.mp hb).2]

def reg4 : Pipeline.RegionSeg (pcfgs (F := F)) adm (pdats m) () defs₀ 𝒱₀ Lz lvz 4 :=
  regOf' m 4 winFacts₀4 block_pos4 stage_whole4 (W12 m) (W13 m) (body_obligation4 (rd (W12 m))) (fun _ _ => rfl) (fun _ _ => trivial)
    (fun _ _ => rfl) (arrays4_of_unscopedBufs (rd (W12 m)))
    (fun c => unscopedBufs4_of_arrays (rd (W12 m)) c (rd (W13 m) c) ((pdats m 4 c).arrAt · cfg4.N) (hF4 m c) (hrest4 m c))

end Cert.Kernel.Hand

end
-- ==== Proof.KBSeg5.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg5 : Pipeline.RegionSeg (pcfgs (F := F)) adm (pdats m) () defs₀ 𝒱₀ Lz lvz 5 :=
  regOf m 5 launch5 (W14 m) (W15 m) (body_obligation5 (rd (W14 m))) (fun _ _ => rfl) (fun _ _ => trivial) (fun _ _ => rfl)
    (fun _ _ => rfl) (fun _ _ => rfl)
    (fun c w hw => match w, hw with
      | ⟨2, _⟩, _ => (W15_self m c).symm
      | ⟨0, _⟩, h | ⟨1, _⟩, h => nomatch h)
    (fun c b h => W15_ne m c b (h 2 rfl).symm)

end Cert.Kernel.Hand

end
-- ==== Proof.KBSeg6.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg6 : Pipeline.RegionSeg (pcfgs (F := F)) adm (pdats m) () defs₀ 𝒱₀ Lz lvz 6 :=
  regOf m 6 launch6 (W16 m) (W17 m) (body_obligation6 (rd (W16 m))) (fun _ _ => rfl) (fun _ _ => trivial) (fun _ _ => rfl)
    (fun _ _ => rfl) (fun _ _ => rfl)
    (fun c w hw => match w, hw with
      | ⟨2, _⟩, _ => (W17_self m c).symm
      | ⟨0, _⟩, h | ⟨1, _⟩, h => nomatch h)
    (fun c b h => W17_ne m c b (h 2 rfl).symm)

end Cert.Kernel.Hand

end
-- ==== Proof.KBSeg7.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg7 : Pipeline.RegionSeg (pcfgs (F := F)) adm (pdats m) () defs₀ 𝒱₀ Lz lvz 7 :=
  regOf m 7 launch7 (W18 m) (W19 m) (body_obligation7 (rd (W18 m))) (fun _ _ => rfl) (fun _ _ => trivial) (fun _ _ => rfl)
    (fun _ _ => rfl) (fun _ _ => rfl)
    (fun c w hw => match w, hw with
      | ⟨3, _⟩, _ => (W19_fst m c).symm
      | ⟨4, _⟩, _ => (W19_snd m c).symm
      | ⟨0, _⟩, h | ⟨1, _⟩, h | ⟨2, _⟩, h => nomatch h)
    (fun c b h => W19_ne m c b (h 3 rfl).symm (h 4 rfl).symm)

end Cert.Kernel.Hand

end
-- ==== Proof.KBSeg8.lean ====
import proofs.«407999_j84894323573127_3_alg».proof.Proof.KBFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

def reg8 : Pipeline.RegionSeg (pcfgs (F := F)) adm (pdats m) () defs₀ 𝒱₀ Lz lvz 8 :=
  regOf m 8 launch8 (W19 m) (W20 m) (body_obligation8 (rd (W19 m))) (fun _ _ => rfl) (fun _ _ => trivial) (fun _ _ => rfl)
    (fun _ _ => rfl) (fun _ _ => rfl)
    (fun c w hw => match w, hw with
      | ⟨5, _⟩, _ => (W20_fst m c).symm
      | ⟨6, _⟩, _ => (W20_snd m c).symm
      | ⟨0, _⟩, h | ⟨1, _⟩, h | ⟨2, _⟩, h | ⟨3, _⟩, h | ⟨4, _⟩, h => nomatch h)
    (fun c b h => W20_ne m c b (h 5 rfl).symm (h 6 rfl).symm)

end Cert.Kernel.Hand

end
-- ==== Proof.KBRun.lean ====
import proofs.«407999_j84894323573127_3_alg».proof.Proof.KBOuts
import proofs.«407999_j84894323573127_3_alg».proof.Proof.KBSeg0
import proofs.«407999_j84894323573127_3_alg».proof.Proof.KBSeg1
import proofs.«407999_j84894323573127_3_alg».proof.Proof.KBSeg2
import proofs.«407999_j84894323573127_3_alg».proof.Proof.KBSeg3
import proofs.«407999_j84894323573127_3_alg».proof.Proof.KBSeg4
import proofs.«407999_j84894323573127_3_alg».proof.Proof.KBSeg5
import proofs.«407999_j84894323573127_3_alg».proof.Proof.KBSeg6
import proofs.«407999_j84894323573127_3_alg».proof.Proof.KBSeg7
import proofs.«407999_j84894323573127_3_alg».proof.Proof.KBSeg8
import proofs.«407999_j84894323573127_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W20 m c b) := by
  have h := Cert.Kernel.GenP.run_cond m emb₁ () 𝒱₀ Lz lvz (fun _ _ => rfl) ρ (outs m) (pdats m)
    (0 : Dev nD → CellTallies nD τ sig Unit) (fun _ => (BI.emp : sProp 𝕄)) u₀ hu₀ (fun _ c => Rst c) (hE0 ρ) hE9
    (reg0 m) (fun c => by rw [VW5]; exact .rfl) (fun c => by rw [VW6]; exact .rfl)
    (reg1 m) (fun c => by rw [VW7]; exact .rfl) (fun c => by rw [VW8]; exact .rfl)
    (reg2 m) (fun c => by rw [VW9]; exact .rfl) (fun c => by rw [VW10]; exact .rfl)
    (reg3 m) (fun c => by rw [VW11]; exact .rfl) (fun c => by rw [VW12]; exact .rfl)
    (reg4 m) (fun c => by rw [VW12]; exact .rfl) (fun c => by rw [VW13]; exact .rfl)
    (reg5 m) (fun c => by rw [VW14]; exact .rfl) (fun c => by rw [VW15]; exact .rfl)
    (reg6 m) (fun c => by rw [VW16]; exact .rfl) (fun c => by rw [VW17]; exact .rfl)
    (reg7 m) (fun c => by rw [VW18]; exact .rfl) (fun c => by rw [VW19]; exact .rfl)
    (reg8 m) (fun c => by rw [VW19]; exact .rfl) (fun c => by rw [VW20]; exact .rfl)
  refine (θ_run defs _ _).mono (fun r hr c b hb => ?_) h
  rw [hr c b hb, VW20]

theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => ⟨
    (hr c _ (mem_uc main_arg0 (by decide))).trans ((congrFun (VW20 m c).symm _).trans (V20_main_arg0 m (outs m) c)),
    (hr c _ (mem_uc main_arg1 (by decide))).trans ((congrFun (VW20 m c).symm _).trans (V20_main_arg1 m (outs m) c)),
    (hr c _ (mem_uc main_arg2 (by decide))).trans ((congrFun (VW20 m c).symm _).trans (V20_main_arg2 m (outs m) c)),
    (hr c _ (mem_uc main_arg3 (by decide))).trans ((congrFun (VW20 m c).symm _).trans (V20_main_arg3 m (outs m) c)),
    (hr c _ (mem_uc main_arg4 (by decide))).trans ((congrFun (VW20 m c).symm _).trans (V20_main_arg4 m (outs m) c)),
    (hr c _ (mem_uc main_arg5 (by decide))).trans ((congrFun (VW20 m c).symm _).trans (V20_main_arg5 m (outs m) c)),
    (hr c _ (mem_uc main_arg6 (by decide))).trans ((congrFun (VW20 m c).symm _).trans (V20_main_arg6 m (outs m) c)),
    (hr c _ (mem_uc main_arg7 (by decide))).trans ((congrFun (VW20 m c).symm _).trans (V20_main_arg7 m (outs m) c)),
    (hr c _ (mem_uc main_arg8 (by decide))).trans ((congrFun (VW20 m c).symm _).trans (V20_main_arg8 m (outs m) c)),
    (hr c _ (mem_uc main_arg9 (by decide))).trans ((congrFun (VW20 m c).symm _).trans (V20_main_arg9 m (outs m) c))⟩)
    (run_all m ρ)

end Cert.Kernel.Hand

end
-- ==== Proof.KIR0.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x1 := Rect.unit (s := S10000x1) ![0, 0] S10000x1.size inb_S10000x1_S10000x1_0_0
abbrev r0_1 : Rect S16x64 := Rect.unit (s := S16x64) ![0, 0] S16x64.size inb_S16x64_S16x64_0_0
abbrev r0_2 : Rect S10000x64 := Rect.unit (s := S10000x64) ![0, 0] S10000x64.size inb_S10000x64_S10000x64_0_0

def out0_2 (x0 : Vec F S10000x1 .i32) (x1 : Vec F S16x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
theorem sound_kernel0 (c : Dev nD) (E : Set ℕ) (i : grid0.Coords) (arg1 : Memref sig .tc .vmem S10000x1 .i32) (harg1 : arg1.IsWhole)
    (arg2 : Memref sig .tc .vmem S16x64 .f32) (harg2 : arg2.IsWhole) (arg3 : Memref sig .tc .vmem S10000x64 .f32) (harg3 : arg3.IsWhole)
    (x0 : Vec F S10000x1 .i32) (x1 : Vec F S16x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__weight_gather_kernel i arg1 harg1 arg2 harg2 arg3 harg3) K := by
  simp only [cc0__weight_gather_kernel_eq_skeleton]; unfold cc0__weight_gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

end Cert.KernelIdeal.Hand

end
-- ==== Proof.KIR1.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S10000x64 := Rect.unit (s := S10000x64) ![0, 0] S10000x64.size inb_S10000x64_S10000x64_0_0

def out1_2 (x0 x1 : Vec F S10000x64 .f32) : Vec F S10000x64 .f32 :=
  View.canon [⟨r1, k1_pay1 (View.ld x0 r1) (View.ld x1 r1)⟩]

theorem cover1_2 (p0 : Vec F S10000x64 .f32) (y : S10000x64.Idx) :
    ∃ pc ∈ ([⟨r1, p0⟩] : List (View.Piece (Elt F) S10000x64 .f32)), y ∈ pc.1.set :=
  View.cover_of_tiled [⟨r1, p0⟩] S10000x64.size (by rfl) y

set_option maxHeartbeats 1000000 in
theorem sound_kernel1 (c : Dev nD) (E : Set ℕ) (i : grid1.Coords) (arg1 : Memref sig .tc .vmem S10000x64 .f32) (harg1 : arg1.IsWhole)
    (arg2 : Memref sig .tc .vmem S10000x64 .f32) (harg2 : arg2.IsWhole) (arg3 : Memref sig .tc .vmem S10000x64 .f32) (harg3 : arg3.IsWhole)
    (x0 x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__ew_mul_kernel i arg1 harg1 arg2 harg2 arg3 harg3) K := by
  simp only [cc1__ew_mul_kernel_eq_skeleton]; unfold cc1__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe
  isplitl [H2]; · iexists _; iexact H2
  iintro ⟨H0, H1, H2⟩
  iframe

end Cert.KernelIdeal.Hand

end
-- ==== Proof.KIR2.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S10000x64 := Rect.unit (s := S10000x64) ![0, 0] S10000x64.size inb_S10000x64_S10000x64_0_0

abbrev r2c : Rect S10000x1 := Rect.unit (s := S10000x1) ![0, 0] S10000x1.size inb_S10000x1_S10000x1_0_0

def out2_2 (x0 : Vec F S10000x64 .f32) (x1 : Vec F S10000x1 .f32) : Vec F S10000x64 .f32 :=
  View.canon [⟨r2, k2_pay1 (View.ld x0 r2) (View.ld x1 r2c)⟩]

theorem cover2_2 (p0 : Vec F S10000x64 .f32) (y : S10000x64.Idx) :
    ∃ pc ∈ ([⟨r2, p0⟩] : List (View.Piece (Elt F) S10000x64 .f32)), y ∈ pc.1.set :=
  View.cover_of_tiled [⟨r2, p0⟩] S10000x64.size (by rfl) y

set_option maxHeartbeats 1000000 in
theorem sound_kernel2 (c : Dev nD) (E : Set ℕ) (i : grid2.Coords) (arg1 : Memref sig .tc .vmem S10000x64 .f32) (harg1 : arg1.IsWhole)
    (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__ew_mul_kernel i arg1 harg1 arg2 harg2 arg3 harg3) K := by
  simp only [cc2__ew_mul_kernel_eq_skeleton]; unfold cc2__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

end Cert.KernelIdeal.Hand

end
-- ==== Proof.KIR3.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3 : Rect S5000x64 := Rect.unit (s := S5000x64) ![0, 0] S5000x64.size inb_S5000x64_S5000x64_0_0

abbrev r3c : Rect S5000x1 := Rect.unit (s := S5000x1) ![0, 0] S5000x1.size inb_S5000x1_S5000x1_0_0

def out3_3 (x0 : Vec F S5000x64 .f32) (x1 : Vec F S5000x1 .f32) : Vec F S5000x64 .f32 :=
  View.canon [⟨r3, k3_pay1 (View.ld x0 r3) (View.ld x1 r3c)⟩]

def out3_4 (x0 : Vec F S5000x64 .f32) (x1 : Vec F S5000x1 .f32) (x2 : Vec F S5000x64 .f32) : Vec F S5000x64 .f32 :=
  View.canon [⟨r3, k3_pay2 (View.ld x0 r3) (View.ld x1 r3c) (View.ld x2 r3)⟩]

theorem cover3_3 (p0 : Vec F S5000x64 .f32) (y : S5000x64.Idx) :
    ∃ pc ∈ ([⟨r3, p0⟩] : List (View.Piece (Elt F) S5000x64 .f32)), y ∈ pc.1.set :=
  View.cover_of_tiled [⟨r3, p0⟩] S5000x64.size (by rfl) y

set_option maxHeartbeats 1000000 in
theorem sound_kernel3 (c : Dev nD) (E : Set ℕ) (i : grid3.Coords) (arg1 : Memref sig .tc .vmem S5000x64 .f32) (harg1 : arg1.IsWhole)
    (arg2 : Memref sig .tc .vmem S5000x1 .f32) (harg2 : arg2.IsWhole) (arg3 : Memref sig .tc .vmem S5000x64 .f32) (harg3 : arg3.IsWhole)
    (arg4 : Memref sig .tc .vmem S5000x64 .f32) (harg4 : arg4.IsWhole) (arg5 : Memref sig .tc .vmem S5000x64 .f32) (harg5 : arg5.IsWhole)
    (x0 : Vec F S5000x64 .f32) (x1 : Vec F S5000x1 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__entity_update_kernel i arg1 harg1 arg2 harg2 arg3 harg3 arg4 harg4 arg5 harg5) K := by
  simp only [cc3__entity_update_kernel_eq_skeleton]; unfold cc3__entity_update_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) :
    (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  iframe
  isplitl [H3]; · iexists _; iexact H3
  isplitl [H4]; · iexists _; iexact H4
  iintro ⟨H0, H1, H2, H3, H4⟩
  iframe

end Cert.KernelIdeal.Hand

end
-- ==== Proof.KIR4.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4 : Rect S5000x64 := Rect.unit (s := S5000x64) ![0, 0] S5000x64.size inb_S5000x64_S5000x64_0_0

abbrev r4t : Rect S64x4 := Rect.unit (s := S64x4) ![0, 0] S64x4.size inb_S64x4_S64x4_0_0

abbrev r4m : Rect S4x64 := Rect.unit (s := S4x64) ![0, 0] S4x64.size inb_S4x64_S4x64_0_0

def out4_5 (x0 : Vec F S5000x64 .f32) (x1 : Vec F S64x4 .f32) (x2 : Vec F S4x64 .f32) (x3 : Vec F S5000x64 .f32) : Vec F S5000x64 .f32 :=
  View.canon [⟨r4, k4_pay1 (View.ld x0 r4) (View.ld x1 r4t) (View.ld x2 r4m) (View.ld x3 r4)⟩]

def out4_6 (x0 : Vec F S5000x64 .f32) (x1 : Vec F S64x4 .f32) (x2 : Vec F S4x64 .f32) (x3 : Vec F S5000x64 .f32)
    (x4 : Vec F S5000x64 .f32) : Vec F S5000x64 .f32 :=
  View.canon [⟨r4, k4_pay2 (View.ld x0 r4) (View.ld x1 r4t) (View.ld x2 r4m) (View.ld x3 r4) (View.ld x4 r4)⟩]

theorem cover4_5 (p0 : Vec F S5000x64 .f32) (y : S5000x64.Idx) :
    ∃ pc ∈ ([⟨r4, p0⟩] : List (View.Piece (Elt F) S5000x64 .f32)), y ∈ pc.1.set :=
  View.cover_of_tiled [⟨r4, p0⟩] S5000x64.size (by rfl) y

set_option maxHeartbeats 4000000 in
theorem sound_kernel4 (c : Dev nD) (E : Set ℕ) (i : grid4.Coords)
    (arg1 : Memref sig .tc .vmem S5000x64 .f32) (harg1 : arg1.IsWhole) (arg2 : Memref sig .tc .vmem S64x4 .f32) (harg2 : arg2.IsWhole)
    (arg3 : Memref sig .tc .vmem S4x64 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (arg7 : Memref sig .tc .vmem S5000x64 .f32) (harg7 : arg7.IsWhole)
    (x0 : Vec F S5000x64 .f32) (x1 : Vec F S64x4 .f32) (x2 : Vec F S4x64 .f32) (x3 x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3)
            ∗ owns (c : Thread nD τ) arg7 fullShare (out4_6 x0 x1 x2 x3 x4)) -∗ K ⟨⟩))
      ⊢ wp frame (wpE (defs₀ (F := F)) Variants.none c none) E
          (cc4__user_update_kernel i arg1 harg1 arg2 harg2 arg3 harg3 arg4 harg4 arg5 harg5 arg6 harg6 arg7 harg7) K := by
  simp only [cc4__user_update_kernel_eq_skeleton]; unfold cc4__user_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_5 _)

def q4 : Fin cfg4.W → PosShare TreeShare
  | ⟨0, _⟩ => fullShare.left
  | ⟨4, _⟩ => fullShare.right
  | _ => fullShare

theorem q4_0_op_q4_4 : fullShare ∈ PCS.op (q4 0) (q4 4) := PosShare.mem_left_op_right fullShare

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t)
    | ⟨6, _⟩ => out4_6 (iblk4 V c 0 t) (iblk4 V c 1 t) (iblk4 V c 2 t) (iblk4 V c 3 t) (iblk4 V c 4 t)
  Φ _ := Pipeline.ΦA spec4 c
  q := q4
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) := by
  dsimp only [dat4]

theorem share4 (c : Dev nD) (w : Fin cfg4.W) : (dat4 V c).share w = q4 w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

set_option maxHeartbeats 1000000 in
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) _)
  iframe
  isplitl [H5]; · iexists _; iexact H5
  isplitl [H6]; · iexists _; iexact H6
  iintro ⟨H0, H1, H2, H3, H4, H5, H6⟩
  iframe

end Cert.KernelIdeal.Hand

end
-- ==== Proof.KIR5.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5 : Rect S10000x64 := Rect.unit (s := S10000x64) ![0, 0] S10000x64.size inb_S10000x64_S10000x64_0_0

def out5_2 (x0 x1 : Vec F S10000x64 .f32) : Vec F S10000x64 .f32 :=
  View.canon [⟨r5, k5_pay1 (View.ld x0 r5) (View.ld x1 r5)⟩]

theorem cover5_2 (p0 : Vec F S10000x64 .f32) (y : S10000x64.Idx) :
    ∃ pc ∈ ([⟨r5, p0⟩] : List (View.Piece (Elt F) S10000x64 .f32)), y ∈ pc.1.set :=
  View.cover_of_tiled [⟨r5, p0⟩] S10000x64.size (by rfl) y

set_option maxHeartbeats 1000000 in
theorem sound_kernel5 (c : Dev nD) (E : Set ℕ) (i : grid5.Coords) (arg1 : Memref sig .tc .vmem S10000x64 .f32) (harg1 : arg1.IsWhole)
    (arg2 : Memref sig .tc .vmem S10000x64 .f32) (harg2 : arg2.IsWhole) (arg3 : Memref sig .tc .vmem S10000x64 .f32) (harg3 : arg3.IsWhole)
    (x0 x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__ew_mul_kernel i arg1 harg1 arg2 harg2 arg3 harg3) K := by
  simp only [cc5__ew_mul_kernel_eq_skeleton]; unfold cc5__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  unfold bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  iframe
  isplitl [H2]; · iexists _; iexact H2
  iintro ⟨H0, H1, H2⟩
  iframe

end Cert.KernelIdeal.Hand

end
-- ==== Proof.KIR6.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6 : Rect S10000x64 := Rect.unit (s := S10000x64) ![0, 0] S10000x64.size inb_S10000x64_S10000x64_0_0

abbrev r6c : Rect S10000x1 := Rect.unit (s := S10000x1) ![0, 0] S10000x1.size inb_S10000x1_S10000x1_0_0

def out6_2 (x0 : Vec F S10000x64 .f32) (x1 : Vec F S10000x1 .f32) : Vec F S10000x64 .f32 :=
  View.canon [⟨r6, k6_pay1 (View.ld x0 r6) (View.ld x1 r6c)⟩]

theorem cover6_2 (p0 : Vec F S10000x64 .f32) (y : S10000x64.Idx) :
    ∃ pc ∈ ([⟨r6, p0⟩] : List (View.Piece (Elt F) S10000x64 .f32)), y ∈ pc.1.set :=
  View.cover_of_tiled [⟨r6, p0⟩] S10000x64.size (by rfl) y

set_option maxHeartbeats 1000000 in
theorem sound_kernel6 (c : Dev nD) (E : Set ℕ) (i : grid6.Coords) (arg1 : Memref sig .tc .vmem S10000x64 .f32) (harg1 : arg1.IsWhole)
    (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__ew_mul_kernel i arg1 harg1 arg2 harg2 arg3 harg3) K := by
  simp only [cc6__ew_mul_kernel_eq_skeleton]; unfold cc6__ew_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  show _ ⊢ wp frame (wpE (defs₀ (F := F)) Variants.none c none) Set.univ (bodyAt6 t) _
  unfold bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe
  isplitl [H2]; · iexists _; iexact H2
  iintro ⟨H0, H1, H2⟩
  iframe

end Cert.KernelIdeal.Hand

end
-- ==== Proof.KIR7.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7 : Rect S5000x64 := Rect.unit (s := S5000x64) ![0, 0] S5000x64.size inb_S5000x64_S5000x64_0_0

abbrev r7c : Rect S5000x1 := Rect.unit (s := S5000x1) ![0, 0] S5000x1.size inb_S5000x1_S5000x1_0_0

def out7_3 (x0 : Vec F S5000x64 .f32) (x1 : Vec F S5000x1 .f32) : Vec F S5000x64 .f32 :=
  View.canon [⟨r7, k7_pay1 (View.ld x0 r7) (View.ld x1 r7c)⟩]

def out7_4 (x0 : Vec F S5000x64 .f32) (x1 : Vec F S5000x1 .f32) (x2 : Vec F S5000x64 .f32) : Vec F S5000x64 .f32 :=
  View.canon [⟨r7, k7_pay2 (View.ld x0 r7) (View.ld x1 r7c) (View.ld x2 r7)⟩]

theorem cover7_3 (p0 : Vec F S5000x64 .f32) (y : S5000x64.Idx) :
    ∃ pc ∈ ([⟨r7, p0⟩] : List (View.Piece (Elt F) S5000x64 .f32)), y ∈ pc.1.set :=
  View.cover_of_tiled [⟨r7, p0⟩] S5000x64.size (by rfl) y

set_option maxHeartbeats 1000000 in
theorem sound_kernel7 (c : Dev nD) (E : Set ℕ) (i : grid7.Coords) (arg1 : Memref sig .tc .vmem S5000x64 .f32) (harg1 : arg1.IsWhole)
    (arg2 : Memref sig .tc .vmem S5000x1 .f32) (harg2 : arg2.IsWhole) (arg3 : Memref sig .tc .vmem S5000x64 .f32) (harg3 : arg3.IsWhole)
    (arg4 : Memref sig .tc .vmem S5000x64 .f32) (harg4 : arg4.IsWhole) (arg5 : Memref sig .tc .vmem S5000x64 .f32) (harg5 : arg5.IsWhole)
    (x0 : Vec F S5000x64 .f32) (x1 : Vec F S5000x1 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1) ∗ owns (c : Thread nD τ) arg5 fullShare (out7_4 x0 x1 x2)) -∗ K ⟨⟩))
      ⊢ wp frame (wpE (defs₀ (F := F)) Variants.none c none) E (cc7__entity_update_kernel i arg1 harg1 arg2 harg2 arg3 harg3 arg4 harg4 arg5 harg5) K := by
  simp only [cc7__entity_update_kernel_eq_skeleton]; unfold cc7__entity_update_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t)
    | ⟨4, _⟩ => out7_4 (iblk7 V c 0 t) (iblk7 V c 1 t) (iblk7 V c 2 t)
  Φ _ := Pipeline.ΦA spec7 c
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) := by dsimp only [dat7]
theorem after7_4 (c : Dev nD) (t : Fin cfg7.N) :
    (dat7 V c).after 4 t = out7_4 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  show _ ⊢ wp frame (wpE (defs₀ (F := F)) Variants.none c none) Set.univ (bodyAt7 t) _
  unfold bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  iframe
  isplitl [H3]; · iexists _; iexact H3
  isplitl [H4]; · iexists _; iexact H4
  iintro ⟨H0, H1, H2, H3, H4⟩
  iframe

end Cert.KernelIdeal.Hand

end
-- ==== Proof.KIR8.lean ====
import proofs.«407999_j84894323573127_3_alg».proof.Proof.Gen.KernelIdeal.Launch
import proofs.«407999_j84894323573127_3_alg».proof.Proof.Gen.KernelIdeal.Skeleton
import proofs.«407999_j84894323573127_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8 : Rect S5000x64 := Rect.unit (s := S5000x64) ![0, 0] S5000x64.size inb_S5000x64_S5000x64_0_0

abbrev r8t : Rect S64x4 := Rect.unit (s := S64x4) ![0, 0] S64x4.size inb_S64x4_S64x4_0_0

abbrev r8m : Rect S4x64 := Rect.unit (s := S4x64) ![0, 0] S4x64.size inb_S4x64_S4x64_0_0

def out8_5 (x0 : Vec F S5000x64 .f32) (x1 : Vec F S64x4 .f32) (x2 : Vec F S4x64 .f32) (x3 : Vec F S5000x64 .f32) : Vec F S5000x64 .f32 :=
  View.canon [⟨r8, k8_pay1 (View.ld x0 r8) (View.ld x1 r8t) (View.ld x2 r8m) (View.ld x3 r8)⟩]

def out8_6 (x0 : Vec F S5000x64 .f32) (x1 : Vec F S64x4 .f32) (x2 : Vec F S4x64 .f32) (x3 : Vec F S5000x64 .f32)
    (x4 : Vec F S5000x64 .f32) : Vec F S5000x64 .f32 :=
  View.canon [⟨r8, k8_pay2 (View.ld x0 r8) (View.ld x1 r8t) (View.ld x2 r8m) (View.ld x3 r8) (View.ld x4 r8)⟩]

theorem cover8_5 (p0 : Vec F S5000x64 .f32) (y : S5000x64.Idx) :
    ∃ pc ∈ ([⟨r8, p0⟩] : List (View.Piece (Elt F) S5000x64 .f32)), y ∈ pc.1.set :=
  View.cover_of_tiled [⟨r8, p0⟩] S5000x64.size (by rfl) y

set_option maxHeartbeats 4000000 in
theorem sound_kernel8 (c : Dev nD) (E : Set ℕ) (i : grid8.Coords)
    (arg1 : Memref sig .tc .vmem S5000x64 .f32) (harg1 : arg1.IsWhole) (arg2 : Memref sig .tc .vmem S64x4 .f32) (harg2 : arg2.IsWhole)
    (arg3 : Memref sig .tc .vmem S4x64 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (arg7 : Memref sig .tc .vmem S5000x64 .f32) (harg7 : arg7.IsWhole)
    (x0 : Vec F S5000x64 .f32) (x1 : Vec F S64x4 .f32) (x2 : Vec F S4x64 .f32) (x3 x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3)
            ∗ owns (c : Thread nD τ) arg7 fullShare (out8_6 x0 x1 x2 x3 x4)) -∗ K ⟨⟩))
      ⊢ wp frame (wpE (defs₀ (F := F)) Variants.none c none) E
          (cc8__user_update_kernel i arg1 harg1 arg2 harg2 arg3 harg3 arg4 harg4 arg5 harg5 arg6 harg6 arg7 harg7) K := by
  simp only [cc8__user_update_kernel_eq_skeleton]; unfold cc8__user_update_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_5 _)
  iexists _; isplitr
  swap; · iexact H6
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t)
    | ⟨6, _⟩ => out8_6 (iblk8 V c 0 t) (iblk8 V c 1 t) (iblk8 V c 2 t) (iblk8 V c 3 t) (iblk8 V c 4 t)
  Φ _ := Pipeline.ΦA spec8 c
  q _ := fullShare
  owed _ := 0

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

set_option maxHeartbeats 1000000 in
theorem body_obligation8 (c : Dev nD) : BodyObligation (dat8 (F := F) V c) (defs₀ (F := F)) Variants.none () Set.univ := fun t => by
  rw [bigSep_W8, bigSep_W8]
  show _ ⊢ wp frame (wpE (defs₀ (F := F)) Variants.none c none) Set.univ (bodyAt8 t) _
  unfold bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) _)
  iframe
  isplitl [H5]; · iexists _; iexact H5
  isplitl [H6]; · iexists _; iexact H6
  iintro ⟨H0, H1, H2, H3, H4, H5, H6⟩
  iframe

end Cert.KernelIdeal.Hand

end
-- ==== Proof.KIFold.lean ====
import proofs.«407999_j84894323573127_3_alg».proof.Proof.KIR0
import proofs.«407999_j84894323573127_3_alg».proof.Proof.KIR1
import proofs.«407999_j84894323573127_3_alg».proof.Proof.KIR2
import proofs.«407999_j84894323573127_3_alg».proof.Proof.KIR3
import proofs.«407999_j84894323573127_3_alg».proof.Proof.KIR4
import proofs.«407999_j84894323573127_3_alg».proof.Proof.KIR5
import proofs.«407999_j84894323573127_3_alg».proof.Proof.KIR6
import proofs.«407999_j84894323573127_3_alg».proof.Proof.KIR7
import proofs.«407999_j84894323573127_3_alg».proof.Proof.KIR8
import proofs.«407999_j84894323573127_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)

def X33 (c : Dev nD) : Buf (Elt F) ((c : Thread nD τ).loc main_v33) := (dat0 (rd (W5 m)) c).arrAt 2 cfg0.N
def W6 (c : Dev nD) : Valuation τ sig (Elt F) := Function.update (W5 m c) main_v33 (X33 m c)
abbrev W7 (c : Dev nD) : Valuation τ sig (Elt F) := StableHlo.after hostOps1 (W6 m c)

def X42 (c : Dev nD) : Buf (Elt F) ((c : Thread nD τ).loc main_v42) := (dat1 (rd (W7 m)) c).arrAt 2 cfg1.N
def W8 (c : Dev nD) : Valuation τ sig (Elt F) := Function.update (W7 m c) main_v42 (X42 m c)
abbrev W9 (c : Dev nD) : Valuation τ sig (Elt F) := StableHlo.after hostOps2 (W8 m c)

def X53 (c : Dev nD) : Buf (Elt F) ((c : Thread nD τ).loc main_v53) := (dat2 (rd (W9 m)) c).arrAt 2 cfg2.N
def W10 (c : Dev nD) : Valuation τ sig (Elt F) := Function.update (W9 m c) main_v53 (X53 m c)
abbrev W11 (c : Dev nD) : Valuation τ sig (Elt F) := StableHlo.after hostOps3 (W10 m c)

def X57_0 (c : Dev nD) : Buf (Elt F) ((c : Thread nD τ).loc main_v57_0) := (dat3 (rd (W11 m)) c).arrAt 3 cfg3.N
def X57_1 (c : Dev nD) : Buf (Elt F) ((c : Thread nD τ).loc main_v57_1) := (dat3 (rd (W11 m)) c).arrAt 4 cfg3.N
def W12 (c : Dev nD) : Valuation τ sig (Elt F) := Function.update (Function.update (W11 m c) main_v57_0 (X57_0 m c)) main_v57_1 (X57_1 m c)

def X58_0 (c : Dev nD) : Buf (Elt F) ((c : Thread nD τ).loc main_v58_0) := (dat4 (rd (W12 m)) c).arrAt 5 cfg4.N
def X58_1 (c : Dev nD) : Buf (Elt F) ((c : Thread nD τ).loc main_v58_1) := (dat4 (rd (W12 m)) c).arrAt 6 cfg4.N
def W13 (c : Dev nD) : Valuation τ sig (Elt F) := Function.update (Function.update (W12 m c) main_v58_0 (X58_0 m c)) main_v58_1 (X58_1 m c)
abbrev W14 (c : Dev nD) : Valuation τ sig (Elt F) := StableHlo.after hostOps5 (W13 m c)
def X66 (c : Dev nD) : Buf (Elt F) ((c : Thread nD τ).loc main_v66) := (dat5 (rd (W14 m)) c).arrAt 2 cfg5.N
def W15 (c : Dev nD) : Valuation τ sig (Elt F) := Function.update (W14 m c) main_v66 (X66 m c)
abbrev W16 (c : Dev nD) : Valuation τ sig (Elt F) := StableHlo.after hostOps6 (W15 m c)
def X77 (c : Dev nD) : Buf (Elt F) ((c : Thread nD τ).loc main_v77) := (dat6 (rd (W16 m)) c).arrAt 2 cfg6.N
def W17 (c : Dev nD) : Valuation τ sig (Elt F) := Function.update (W16 m c) main_v77 (X77 m c)
abbrev W18 (c : Dev nD) : Valuation τ sig (Elt F) := StableHlo.after hostOps7 (W17 m c)
def X81_0 (c : Dev nD) : Buf (Elt F) ((c : Thread nD τ).loc main_v81_0) := (dat7 (rd (W18 m)) c).arrAt 3 cfg7.N
def X81_1 (c : Dev nD) : Buf (Elt F) ((c : Thread nD τ).loc main_v81_1) := (dat7 (rd (W18 m)) c).arrAt 4 cfg7.N
def W19 (c : Dev nD) : Valuation τ sig (Elt F) := Function.update (Function.update (W18 m c) main_v81_0 (X81_0 m c)) main_v81_1 (X81_1 m c)
def X82_0 (c : Dev nD) : Buf (Elt F) ((c : Thread nD τ).loc main_v82_0) := (dat8 (rd (W19 m)) c).arrAt 5 cfg8.N
def X82_1 (c : Dev nD) : Buf (Elt F) ((c : Thread nD τ).loc main_v82_1) := (dat8 (rd (W19 m)) c).arrAt 6 cfg8.N
def W20 (c : Dev nD) : Valuation τ sig (Elt F) := Function.update (Function.update (W19 m c) main_v82_0 (X82_0 m c)) main_v82_1 (X82_1 m c)

theorem W6_self (c : Dev nD) : W6 m c main_v33 = X33 m c := by unfold W6; exact Function.update_self ..
theorem W6_ne (c : Dev nD) (r : Ref sig .tc) (h : r ≠ main_v33) : W6 m c r = W5 m c r := by
  unfold W6; exact Function.update_of_ne (StableHlo.devRef_ne_of_ne h : (Proc.devRef .tc r : DevRef τ sig) ≠ Proc.devRef .tc main_v33) ..
theorem W8_self (c : Dev nD) : W8 m c main_v42 = X42 m c := by unfold W8; exact Function.update_self ..
theorem W8_ne (c : Dev nD) (r : Ref sig .tc) (h : r ≠ main_v42) : W8 m c r = W7 m c r := by
  unfold W8; exact Function.update_of_ne (StableHlo.devRef_ne_of_ne h : (Proc.devRef .tc r : DevRef τ sig) ≠ Proc.devRef .tc main_v42) ..
theorem W10_self (c : Dev nD) : W10 m c main_v53 = X53 m c := by unfold W10; exact Function.update_self ..
theorem W10_ne (c : Dev nD) (r : Ref sig .tc) (h : r ≠ main_v53) : W10 m c r = W9 m c r := by
  unfold W10; exact Function.update_of_ne (StableHlo.devRef_ne_of_ne h : (Proc.devRef .tc r : DevRef τ sig) ≠ Proc.devRef .tc main_v53) ..
theorem W15_self (c : Dev nD) : W15 m c main_v66 = X66 m c := by unfold W15; exact Function.update_self ..
theorem W15_ne (c : Dev nD) (r : Ref sig .tc) (h : r ≠ main_v66) : W15 m c r = W14 m c r := by
  unfold W15; exact Function.update_of_ne (StableHlo.devRef_ne_of_ne h : (Proc.devRef .tc r : DevRef τ sig) ≠ Proc.devRef .tc main_v66) ..
theorem W17_self (c : Dev nD) : W17 m c main_v77 = X77 m c := by unfold W17; exact Function.update_self ..
theorem W17_ne (c : Dev nD) (r : Ref sig .tc) (h : r ≠ main_v77) : W17 m c r = W16 m c r := by
  unfold W17; exact Function.update_of_ne (StableHlo.devRef_ne_of_ne h : (Proc.devRef .tc r : DevRef τ sig) ≠ Proc.devRef .tc main_v77) ..

theorem upd2_fst (V : Valuation τ sig (Elt F)) (o0 o1 : Ref sig .tc) (h : o0 ≠ o1) (x0) (x1) :
    Function.update (Function.update V (o0 : DevRef τ sig) x0) (o1 : DevRef τ sig) x1 (o0 : DevRef τ sig) = x0 := by
  rw [Function.update_of_ne (StableHlo.devRef_ne_of_ne h : (Proc.devRef .tc o0 : DevRef τ sig) ≠ Proc.devRef .tc o1)]
  exact Function.update_self ..
theorem upd2_snd (V : Valuation τ sig (Elt F)) (o0 o1 : Ref sig .tc) (x0) (x1) :
    Function.update (Function.update V (o0 : DevRef τ sig) x0) (o1 : DevRef τ sig) x1 (o1 : DevRef τ sig) = x1 :=
  Function.update_self ..
theorem upd2_ne (V : Valuation τ sig (Elt F)) (o0 o1 r : Ref sig .tc) (h0 : r ≠ o0) (h1 : r ≠ o1) (x0) (x1) :
    Function.update (Function.update V (o0 : DevRef τ sig) x0) (o1 : DevRef τ sig) x1 (r : DevRef τ sig) = V r := by
  rw [Function.update_of_ne (StableHlo.devRef_ne_of_ne h1 : (Proc.devRef .tc r : DevRef τ sig) ≠ Proc.devRef .tc o1),
    Function.update_of_ne (StableHlo.devRef_ne_of_ne h0 : (Proc.devRef .tc r : DevRef τ sig) ≠ Proc.devRef .tc o0)]

theorem W12_fst (c : Dev nD) : W12 m c main_v57_0 = X57_0 m c := by unfold W12; exact upd2_fst _ _ _ (by decide) _ _
theorem W12_snd (c : Dev nD) : W12 m c main_v57_1 = X57_1 m c := by unfold W12; exact upd2_snd _ _ _ _ _
theorem W12_ne (c : Dev nD) (r : Ref sig .tc) (h0 : r ≠ main_v57_0) (h1 : r ≠ main_v57_1) : W12 m c r = W11 m c r := by
  unfold W12; exact upd2_ne _ _ _ _ h0 h1 _ _
theorem W13_fst (c : Dev nD) : W13 m c main_v58_0 = X58_0 m c := by unfold W13; exact upd2_fst _ _ _ (by decide) _ _
theorem W13_snd (c : Dev nD) : W13 m c main_v58_1 = X58_1 m c := by unfold W13; exact upd2_snd _ _ _ _ _
theorem W13_ne (c : Dev nD) (r : Ref sig .tc) (h0 : r ≠ main_v58_0) (h1 : r ≠ main_v58_1) : W13 m c r = W12 m c r := by
  unfold W13; exact upd2_ne _ _ _ _ h0 h1 _ _
theorem W19_fst (c : Dev nD) : W19 m c main_v81_0 = X81_0 m c := by unfold W19; exact upd2_fst _ _ _ (by decide) _ _
theorem W19_snd (c : Dev nD) : W19 m c main_v81_1 = X81_1 m c := by unfold W19; exact upd2_snd _ _ _ _ _
theorem W19_ne (c : Dev nD) (r : Ref sig .tc) (h0 : r ≠ main_v81_0) (h1 : r ≠ main_v81_1) : W19 m c r = W18 m c r := by
  unfold W19; exact upd2_ne _ _ _ _ h0 h1 _ _
theorem W20_fst (c : Dev nD) : W20 m c main_v82_0 = X82_0 m c := by unfold W20; exact upd2_fst _ _ _ (by decide) _ _
theorem W20_snd (c : Dev nD) : W20 m c main_v82_1 = X82_1 m c := by unfold W20; exact upd2_snd _ _ _ _ _
theorem W20_ne (c : Dev nD) (r : Ref sig .tc) (h0 : r ≠ main_v82_0) (h1 : r ≠ main_v82_1) : W20 m c r = W19 m c r := by
  unfold W20; exact upd2_ne _ _ _ _ h0 h1 _ _

def pdats : (p : Fin 9) → (c : Dev nD) → Dat τ (Elt F) Unit ℕ (UR sig nD τ) ℕ (Pipeline.pin (pcfgs (F := F)) adm p) c
  | ⟨0, _⟩ => fun c => dat0 (rd (W5 m)) c
  | ⟨1, _⟩ => fun c => dat1 (rd (W7 m)) c
  | ⟨2, _⟩ => fun c => dat2 (rd (W9 m)) c
  | ⟨3, _⟩ => fun c => dat3 (rd (W11 m)) c
  | ⟨4, _⟩ => fun c => dat4 (rd (W12 m)) c
  | ⟨5, _⟩ => fun c => dat5 (rd (W14 m)) c
  | ⟨6, _⟩ => fun c => dat6 (rd (W16 m)) c
  | ⟨7, _⟩ => fun c => dat7 (rd (W18 m)) c
  | ⟨8, _⟩ => fun c => dat8 (rd (W19 m)) c

abbrev 𝒱₀ : Variants := Variants.none

abbrev Lz : GSem nD τ sig → Finset Unit := fun _ => ∅
abbrev lvz : GSem nD τ sig → Unit → ℕ := fun _ _ => 0

abbrev Rst (c : Dev nD) : sProp 𝕄 := iprop((∃ r, prngReg c r) ∗ ∃ W, owes (c : Thread nD τ) (0 : CellTallies nD τ sig Unit) W)

abbrev TS (W : Dev nD → Valuation τ sig (Elt F)) (c : Dev nD) : sProp 𝕄 :=
  iprop(StableHlo.held (c : Thread nD τ) (Pipeline.ucRefs τ sig) (W c) ∗ Rst c)

set_option backward.isDefEq.respectTransparency.types false in
/-- One region as a step of the whole run, from every buffer at `Wa` to every buffer at `Wb`, given that its arrays can be taken out of the buffers before it and put back after it. -/
def regOf' (p : Fin 9) (hw : Pipeline.WinFacts₀ (cfgs p).spec) (hpos : ∀ w : Fin (cfgs p).W, 0 < ((cfgs p).spec w).block.numel)
    (hst : ∀ (w : Fin (cfgs p).W) (s : Fin ((cfgs p).spec w).nbuf), (((cfgs p).spec w).stage s).IsWhole)
    (Wa Wb : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0)
    (hΦ : ∀ c k, (pdats m p c).Φ k = Pipeline.ΦA (cfgs p).spec c)
    (hsplit : ∀ c, (unscopedBufs (Ix := Unit) (Name := ℕ) (U := UR sig nD τ) (Lvl := ℕ) c (rd Wa c) : sProp 𝕄)
      ⊢ iprop((pdats m p c).arrays ((pdats m p c).arrAt · 0)
          ∗ Pipeline.unscopedRest (Ix := Unit) (Name := ℕ) (U := UR sig nD τ) (Lvl := ℕ) (cfgs p).spec c (rd Wa c)))
    (hjoin : ∀ c, iprop((pdats m p c).arrays ((pdats m p c).arrAt · (cfgs p).N)
          ∗ Pipeline.unscopedRest (Ix := Unit) (Name := ℕ) (U := UR sig nD τ) (Lvl := ℕ) (cfgs p).spec c (rd Wa c))
      ⊢ (unscopedBufs (Ix := Unit) (Name := ℕ) (U := UR sig nD τ) (Lvl := ℕ) c (rd Wb c) : sProp 𝕄)) :
    Pipeline.RegionSeg (pcfgs (F := F)) adm (pdats m) () defs₀ 𝒱₀ Lz lvz p where
  win := hw
  block_pos := hpos
  stage_whole := hst
  K := PEmpty
  osem k := k.elim
  ho := Pipeline.OwnSemFacts.none _
  hbody c := (hbody c).loose
  hwaits := Pipeline.hwaits_of_owed_zero _ _ _ _ Lz lvz p howed
  pre c := TS Wa c
  post c := TS Wb c
  X c := iprop(∃ r, prngReg c r)
  Y c := iprop(∃ r, prngReg c r)
  Z c := Pipeline.unscopedRest (Ix := Unit) (Name := ℕ) (U := UR sig nD τ) (Lvl := ℕ) (cfgs p).spec c (rd Wa c)
  hentry c := by
    have hs := hsplit c
    rw [Pipeline.unscopedBufs_held] at hs
    rw [Pipeline.ownSems0_none]
    unfold Pipeline.Dat.owesAt Pipeline.owesWithin
    rw [howed c 0]
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [howed c (Fin.last _)]
    iintro ⟨Ha, HO, HY, Hrest⟩
    imodintro
    isplitl [Ha Hrest]
    · iapply hj; isplitl [Ha] <;> iassumption
    isplitl [HY]; · iexact HY
    icases HO with ⟨%W, -, HO⟩; iexists W; iexact HO

set_option backward.isDefEq.respectTransparency.types false in
/-- When the windows' arrays are distinct, `Wb` need only name the result arrays: an operand's array is no result's array, so it is kept. -/
def regOf (p : Fin 9) (lf : Pipeline.LaunchFacts (nD := nD) (τ := τ) cfgs p) (Wa Wb : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0)
    (hΦ : ∀ c k, (pdats m p c).Φ k = Pipeline.ΦA (cfgs p).spec c) (hq : ∀ c w, (pdats m p c).q w = fullShare)
    (hA : ∀ c w, (pdats m p c).A w = rd Wa c (Pipeline.arrRef (cfgs p).spec w))
    (hout : ∀ c w, ((cfgs p).win w).isOut = true → (pdats m p c).arrAt w (cfgs p).N = rd Wb c (Pipeline.arrRef (cfgs p).spec w))
    (hoff : ∀ c b, (∀ w, ((cfgs p).win w).isOut = true → Pipeline.arrRef (cfgs p).spec w ≠ b) → rd Wb c b = rd Wa c b) :
    Pipeline.RegionSeg (pcfgs (F := F)) adm (pdats m) () defs₀ 𝒱₀ Lz lvz p :=
  regOf' m p lf.win.to₀ lf.block_pos lf.stage_whole Wa Wb hbody howed hrec hΦ
    (fun c => Pipeline.arrays_of_unscopedBufs (p := p) (pcfgs (F := F)) adm (pdats m) lf.win lf.arr_whole c
      ((pdats m p c).share_full (hq c)) (rd Wa c) (hA c))
    (fun c => Pipeline.unscopedBufs_of_arrays (p := p) (pcfgs (F := F)) adm (Ix := Unit) (Name := ℕ) (U := UR sig nD τ) (Lvl := ℕ)
      lf.win lf.arr_whole c (pdats m) ((pdats m p c).share_full (hq c))
      (rd Wa c) (rd Wb c) ((pdats m p c).arrAt · (cfgs p).N)
      (fun w => by
        by_cases hw : ((cfgs p).win w).isOut = true
        · exact hout c w hw
        · refine (((pdats m p c).arrAt_in w ((Bool.not_eq_true _).mp hw) _).trans (hA c w)).trans (hoff c _ fun w' hw' e => ?_).symm
          rw [lf.win.arr_inj e] at hw'
          exact hw hw')
      (fun b hb => hoff c b fun w _ e => hb (Finset.mem_image.mpr ⟨w, Finset.mem_univ _, e⟩)))

end Cert.KernelIdeal.Hand

end
-- ==== Proof.KIOuts.lean ====
import proofs.«407999_j84894323573127_3_alg».proof.Proof.KIFold
import proofs.«407999_j84894323573127_3_alg».proof.Proof.KIRegionsRun
import proofs.«407999_j84894323573127_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def Wtab : ℕ → Dev nD → Valuation τ sig (Elt F)
  | 6 => W6 m | 8 => W8 m | 10 => W10 m | 12 => W12 m | 13 => W13 m
  | 15 => W15 m | 17 => W17 m | 19 => W19 m | 20 => W20 m | _ => W0 m

def outs : Outs (F := F) := fun J r c => Wtab m J c r

theorem VW5 (c : Dev nD) : V5 m c = W5 m c := rfl
theorem VW6 (c : Dev nD) : V6 m (outs m) c = W6 m c := by
  have h : outs m 6 main_v33 c = X33 m c := W6_self m c
  show Function.update (V5 m c) (main_v33 : DevRef τ sig) (outs m 6 main_v33 c) = W6 m c
  rw [h]; rfl
theorem VW7 (c : Dev nD) : V7 m (outs m) c = W7 m c := by
  show StableHlo.after hostOps1 (V6 m (outs m) c) = StableHlo.after hostOps1 (W6 m c); rw [VW6]
theorem VW8 (c : Dev nD) : V8 m (outs m) c = W8 m c := by
  have h : outs m 8 main_v42 c = X42 m c := W8_self m c
  show Function.update (V7 m (outs m) c) (main_v42 : DevRef τ sig) (outs m 8 main_v42 c) = W8 m c
  rw [h, VW7]; rfl
theorem VW9 (c : Dev nD) : V9 m (outs m) c = W9 m c := by
  show StableHlo.after hostOps2 (V8 m (outs m) c) = StableHlo.after hostOps2 (W8 m c); rw [VW8]
theorem VW10 (c : Dev nD) : V10 m (outs m) c = W10 m c := by
  have h : outs m 10 main_v53 c = X53 m c := W10_self m c
  show Function.update (V9 m (outs m) c) (main_v53 : DevRef τ sig) (outs m 10 main_v53 c) = W10 m c
  rw [h, VW9]; rfl
theorem VW11 (c : Dev nD) : V11 m (outs m) c = W11 m c := by
  show StableHlo.after hostOps3 (V10 m (outs m) c) = StableHlo.after hostOps3 (W10 m c); rw [VW10]
theorem VW12 (c : Dev nD) : V12 m (outs m) c = W12 m c := by
  have h0 : outs m 12 main_v57_0 c = X57_0 m c := W12_fst m c
  have h1 : outs m 12 main_v57_1 c = X57_1 m c := W12_snd m c
  show Function.update (Function.update (V11 m (outs m) c) (main_v57_0 : DevRef τ sig) (outs m 12 main_v57_0 c)) (main_v57_1 : DevRef τ sig) (outs m 12 main_v57_1 c) = W12 m c
  rw [h0, h1, VW11]; rfl
theorem VW13 (c : Dev nD) : V13 m (outs m) c = W13 m c := by
  have h0 : outs m 13 main_v58_0 c = X58_0 m c := W13_fst m c
  have h1 : outs m 13 main_v58_1 c = X58_1 m c := W13_snd m c
  show Function.update (Function.update (V12 m (outs m) c) (main_v58_0 : DevRef τ sig) (outs m 13 main_v58_0 c)) (main_v58_1 : DevRef τ sig) (outs m 13 main_v58_1 c) = W13 m c
  rw [h0, h1, VW12]; rfl
theorem VW14 (c : Dev nD) : V14 m (outs m) c = W14 m c := by
  show StableHlo.after hostOps5 (V13 m (outs m) c) = StableHlo.after hostOps5 (W13 m c); rw [VW13]
theorem VW15 (c : Dev nD) : V15 m (outs m) c = W15 m c := by
  have h : outs m 15 main_v66 c = X66 m c := W15_self m c
  show Function.update (V14 m (outs m) c) (main_v66 : DevRef τ sig) (outs m 15 main_v66 c) = W15 m c
  rw [h, VW14]; rfl
theorem VW16 (c : Dev nD) : V16 m (outs m) c = W16 m c := by
  show StableHlo.after hostOps6 (V15 m (outs m) c) = StableHlo.after hostOps6 (W15 m c); rw [VW15]
theorem VW17 (c : Dev nD) : V17 m (outs m) c = W17 m c := by
  have h : outs m 17 main_v77 c = X77 m c := W17_self m c
  show Function.update (V16 m (outs m) c) (main_v77 : DevRef τ sig) (outs m 17 main_v77 c) = W17 m c
  rw [h, VW16]; rfl
theorem VW18 (c : Dev nD) : V18 m (outs m) c = W18 m c := by
  show StableHlo.after hostOps7 (V17 m (outs m) c) = StableHlo.after hostOps7 (W17 m c); rw [VW17]
theorem VW19 (c : Dev nD) : V19 m (outs m) c = W19 m c := by
  have h0 : outs m 19 main_v81_0 c = X81_0 m c := W19_fst m c
  have h1 : outs m 19 main_v81_1 c = X81_1 m c := W19_snd m c
  show Function.update (Function.update (V18 m (outs m) c) (main_v81_0 : DevRef τ sig) (outs m 19 main_v81_0 c)) (main_v81_1 : DevRef τ sig) (outs m 19 main_v81_1 c) = W19 m c
  rw [h0, h1, VW18]; rfl
theorem VW20 (c : Dev nD) : V20 m (outs m) c = W20 m c := by
  have h0 : outs m 20 main_v82_0 c = X82_0 m c := W20_fst m c
  have h1 : outs m 20 main_v82_1 c = X82_1 m c := W20_snd m c
  show Function.update (Function.update (V19 m (outs m) c) (main_v82_0 : DevRef τ sig) (outs m 20 main_v82_0 c)) (main_v82_1 : DevRef τ sig) (outs m 20 main_v82_1 c) = W20 m c
  rw [h0, h1, VW19]; rfl

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rst (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE9 (c : Dev nD) : Rst (F := F) c ⊢ (iprop(∃ W, owes (c : Thread nD τ) (0 : CellTallies nD τ sig Unit) W) : sProp 𝕄) := by
  iintro ⟨-, HO⟩; iexact HO

end Cert.KernelIdeal.Hand

end
-- ==== Proof.KISeg0.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg0 : Pipeline.RegionSeg (pcfgs (F := F)) adm (pdats m) () defs₀ 𝒱₀ Lz lvz 0 :=
  regOf m 0 launch0 (W5 m) (W6 m) (body_obligation0 (rd (W5 m))) (fun _ _ => rfl) (fun _ _ => trivial) (fun _ _ => rfl)
    (fun _ _ => rfl) (fun _ _ => rfl)
    (fun c w hw => match w, hw with
      | ⟨2, _⟩, _ => (W6_self m c).symm
      | ⟨0, _⟩, h | ⟨1, _⟩, h => nomatch h)
    (fun c b h => W6_ne m c b (h 2 rfl).symm)

end Cert.KernelIdeal.Hand

end
-- ==== Proof.KISeg1.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg1 : Pipeline.RegionSeg (pcfgs (F := F)) adm (pdats m) () defs₀ 𝒱₀ Lz lvz 1 :=
  regOf m 1 launch1 (W7 m) (W8 m) (body_obligation1 (rd (W7 m))) (fun _ _ => rfl) (fun _ _ => trivial) (fun _ _ => rfl)
    (fun _ _ => rfl) (fun _ _ => rfl)
    (fun c w hw => match w, hw with
      | ⟨2, _⟩, _ => (W8_self m c).symm
      | ⟨0, _⟩, h | ⟨1, _⟩, h => nomatch h)
    (fun c b h => W8_ne m c b (h 2 rfl).symm)

end Cert.KernelIdeal.Hand

end
-- ==== Proof.KISeg2.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg2 : Pipeline.RegionSeg (pcfgs (F := F)) adm (pdats m) () defs₀ 𝒱₀ Lz lvz 2 :=
  regOf m 2 launch2 (W9 m) (W10 m) (body_obligation2 (rd (W9 m))) (fun _ _ => rfl) (fun _ _ => trivial) (fun _ _ => rfl)
    (fun _ _ => rfl) (fun _ _ => rfl)
    (fun c w hw => match w, hw with
      | ⟨2, _⟩, _ => (W10_self m c).symm
      | ⟨0, _⟩, h | ⟨1, _⟩, h => nomatch h)
    (fun c b h => W10_ne m c b (h 2 rfl).symm)

end Cert.KernelIdeal.Hand

end
-- ==== Proof.KISeg3.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg3 : Pipeline.RegionSeg (pcfgs (F := F)) adm (pdats m) () defs₀ 𝒱₀ Lz lvz 3 :=
  regOf m 3 launch3 (W11 m) (W12 m) (body_obligation3 (rd (W11 m))) (fun _ _ => rfl) (fun _ _ => trivial) (fun _ _ => rfl)
    (fun _ _ => rfl) (fun _ _ => rfl)
    (fun c w hw => match w, hw with
      | ⟨3, _⟩, _ => (W12_fst m c).symm
      | ⟨4, _⟩, _ => (W12_snd m c).symm
      | ⟨0, _⟩, h | ⟨1, _⟩, h | ⟨2, _⟩, h => nomatch h)
    (fun c b h => W12_ne m c b (h 3 rfl).symm (h 4 rfl).symm)

end Cert.KernelIdeal.Hand

end
-- ==== Proof.KISeg4.lean ====
import proofs.«407999_j84894323573127_3_alg».proof.Proof.KIFold
import proofs.«407999_j84894323573127_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF4 (c : Dev nD) (w : Fin cfg4.W) : (dat4 (rd (W12 m)) c).arrAt w cfg4.N = rd (W13 m) c (Pipeline.arrRef spec4 w) :=
  match w with
  | ⟨0, _⟩ => (((dat4 (rd (W12 m)) c).arrAt_in 0 rfl _).trans (A_eq4 (rd (W12 m)) c 0)).trans (W13_ne m c _ (by decide) (by decide)).symm
  | ⟨1, _⟩ => (((dat4 (rd (W12 m)) c).arrAt_in 1 rfl _).trans (A_eq4 (rd (W12 m)) c 1)).trans (W13_ne m c _ (by decide) (by decide)).symm
  | ⟨2, _⟩ => (((dat4 (rd (W12 m)) c).arrAt_in 2 rfl _).trans (A_eq4 (rd (W12 m)) c 2)).trans (W13_ne m c _ (by decide) (by decide)).symm
  | ⟨3, _⟩ => (((dat4 (rd (W12 m)) c).arrAt_in 3 rfl _).trans (A_eq4 (rd (W12 m)) c 3)).trans (W13_ne m c _ (by decide) (by decide)).symm
  | ⟨4, _⟩ => (((dat4 (rd (W12 m)) c).arrAt_in 4 rfl _).trans (A_eq4 (rd (W12 m)) c 4)).trans (W13_ne m c _ (by decide) (by decide)).symm
  | ⟨5, _⟩ => (W13_fst m c).symm
  | ⟨6, _⟩ => (W13_snd m c).symm

theorem hrest4 (c : Dev nD) : ∀ b, b ∉ Finset.univ.image (Pipeline.arrRef spec4) → rd (W13 m) c b = rd (W12 m) c b :=
  fun b hb => W13_ne m c b (fun e => hb (Finset.mem_image.mpr ⟨5, Finset.mem_univ _, e.symm⟩))
    (fun e => hb (Finset.mem_image.mpr ⟨6, Finset.mem_univ _, e.symm⟩))

theorem arrRefs4 : Finset.univ.image (Pipeline.arrRef spec4) = [main_arg0, main_v31, main_v30, main_v56, main_v58_0, main_v58_1].toFinset := by decide

theorem arrays4_eq (V : (c : Dev nD) → (b : Ref sig .tc) → Buf (Elt F) ((c : Thread nD τ).loc b)) (c : Dev nD)
    (G : (w : Fin cfg4.W) → Buf (Elt F) ((cfg4.win w).arr.view.loc (c : Thread nD τ))) :
    (dat4 V c).arrays G = bigSep Finset.univ fun w => ((((c : Thread nD τ).loc (Pipeline.arrRef spec4 w)) ↦{q4 w} G w : sProp 𝕄)) := by
  unfold Dat.arrays
  exact bigSep_congr fun w _ => by rw [(arr_whole4 w).set_eq_univ, share4]

theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_arg0) ↦{fullShare} V main_arg0) ∗ (((c : Thread nD τ).loc main_v31) ↦{fullShare} V main_v31)
        ∗ (((c : Thread nD τ).loc main_v30) ↦{fullShare} V main_v30) ∗ (((c : Thread nD τ).loc main_v56) ↦{fullShare} V main_v56)
        ∗ (((c : Thread nD τ).loc main_v58_0) ↦{fullShare} V main_v58_0) ∗ (((c : Thread nD τ).loc main_v58_1) ↦{fullShare} V main_v58_1)) := by
  unfold Pipeline.arrBufs
  rw [bigSep_eq_bigSepL_of_eq _ arrRefs4 (by decide)]
  rfl

theorem arrRef4_0 : Pipeline.arrRef spec4 0 = main_arg0 := rfl
theorem arrRef4_1 : Pipeline.arrRef spec4 1 = main_v31 := rfl
theorem arrRef4_2 : Pipeline.arrRef spec4 2 = main_v30 := rfl
theorem arrRef4_3 : Pipeline.arrRef spec4 3 = main_v56 := rfl
theorem arrRef4_4 : Pipeline.arrRef spec4 4 = main_arg0 := rfl
theorem arrRef4_5 : Pipeline.arrRef spec4 5 = main_v58_0 := rfl
theorem arrRef4_6 : Pipeline.arrRef spec4 6 = main_v58_1 := rfl
theorem q4_0 : q4 0 = fullShare.left := rfl
theorem q4_1 : q4 1 = fullShare := rfl
theorem q4_2 : q4 2 = fullShare := rfl
theorem q4_3 : q4 3 = fullShare := rfl
theorem q4_4 : q4 4 = fullShare.right := rfl
theorem q4_5 : q4 5 = fullShare := rfl
theorem q4_6 : q4 6 = fullShare := rfl

set_option maxHeartbeats 4000000 in
theorem arrays4_at (V : (c : Dev nD) → (b : Ref sig .tc) → Buf (Elt F) ((c : Thread nD τ).loc b)) (c : Dev nD)
    (V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w)) :
    (dat4 V c).arrays G = iprop((((c : Thread nD τ).loc main_arg0) ↦{fullShare.left} V' main_arg0) ∗ (((c : Thread nD τ).loc main_v31) ↦{fullShare} V' main_v31)
      ∗ (((c : Thread nD τ).loc main_v30) ↦{fullShare} V' main_v30) ∗ (((c : Thread nD τ).loc main_v56) ↦{fullShare} V' main_v56)
      ∗ (((c : Thread nD τ).loc main_arg0) ↦{fullShare.right} V' main_arg0) ∗ (((c : Thread nD τ).loc main_v58_0) ↦{fullShare} V' main_v58_0)
      ∗ (((c : Thread nD τ).loc main_v58_1) ↦{fullShare} V' main_v58_1)) := by
  rw [arrays4_eq, bigSep_W4, hG 0, hG 1, hG 2, hG 3, hG 4, hG 5, hG 6]
  rw [arrRef4_0, arrRef4_1, arrRef4_2, arrRef4_3, arrRef4_5, arrRef4_6, q4_0, q4_1, q4_2, q4_3, q4_4, q4_5, q4_6]

set_option maxHeartbeats 4000000 in
theorem arrays4_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat4 V c).arrays ((dat4 V c).arrAt · 0)
          ∗ Pipeline.unscopedRest (Ix := Unit) (Name := ℕ) (U := UR sig nD τ) (Lvl := ℕ) spec4 c (V c)) := by
  rw [Pipeline.unscopedBufs_split₀ (Pipeline.pin (pcfgs (F := F)) adm) 4 winFacts₀4.arr_unscoped c (V c)]
  refine sep_mono ?_ .rfl
  rw [arrays4_at V c (V c) ((dat4 V c).arrAt · 0) (fun w => A_eq4 V c w)]
  refine (Entails.of_eq (arrBufs4_eq c (V c))).trans ?_
  iintro ⟨H0, H1, H2, H3, H5, H6⟩
  ihave H0 := (pointsTo_share (PosShare.mem_left_op_right fullShare)).1 $$ H0
  icases H0 with ⟨H0, H4⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem unscopedBufs4_of_arrays (V : (c : Dev nD) → (b : Ref sig .tc) → Buf (Elt F) ((c : Thread nD τ).loc b)) (c : Dev nD)
    (V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V c b) :
    iprop((dat4 V c).arrays G ∗ Pipeline.unscopedRest (Ix := Unit) (Name := ℕ) (U := UR sig nD τ) (Lvl := ℕ) spec4 c (V c))
      ⊢ (unscopedBufs (Ix := Unit) (Name := ℕ) (U := UR sig nD τ) (Lvl := ℕ) c V' : sProp 𝕄) := by
  rw [Pipeline.unscopedBufs_split₀ (Pipeline.pin (pcfgs (F := F)) adm) 4 winFacts₀4.arr_unscoped c V']
  refine sep_mono ?_ (Entails.of_eq ?_)
  · rw [arrays4_at V c V' G hG]
    refine BIBase.Entails.trans ?_ (Entails.of_eq (arrBufs4_eq c V').symm)
    iintro ⟨H0, H1, H2, H3, H4, H5, H6⟩
    isplitl [H0 H4]
    · iapply (pointsTo_share (PosShare.mem_left_op_right fullShare)).2
      isplitl [H0]; · iexact H0
      iexact H4
    isplitl [H1]; · iexact H1
    isplitl [H2]; · iexact H2
    isplitl [H3]; · iexact H3
    isplitl [H5]; · iexact H5
    iexact H6
  · unfold Pipeline.unscopedRest
    exact bigSep_congr fun b hb => by rw [hrest b (Finset.mem_sdiff.mp hb).2]

def reg4 : Pipeline.RegionSeg (pcfgs (F := F)) adm (pdats m) () defs₀ 𝒱₀ Lz lvz 4 :=
  regOf' m 4 winFacts₀4 block_pos4 stage_whole4 (W12 m) (W13 m) (body_obligation4 (rd (W12 m))) (fun _ _ => rfl) (fun _ _ => trivial)
    (fun _ _ => rfl) (arrays4_of_unscopedBufs (rd (W12 m)))
    (fun c => unscopedBufs4_of_arrays (rd (W12 m)) c (rd (W13 m) c) ((pdats m 4 c).arrAt · cfg4.N) (hF4 m c) (hrest4 m c))

end Cert.KernelIdeal.Hand

end
-- ==== Proof.KISeg5.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg5 : Pipeline.RegionSeg (pcfgs (F := F)) adm (pdats m) () defs₀ 𝒱₀ Lz lvz 5 :=
  regOf m 5 launch5 (W14 m) (W15 m) (body_obligation5 (rd (W14 m))) (fun _ _ => rfl) (fun _ _ => trivial) (fun _ _ => rfl)
    (fun _ _ => rfl) (fun _ _ => rfl)
    (fun c w hw => match w, hw with
      | ⟨2, _⟩, _ => (W15_self m c).symm
      | ⟨0, _⟩, h | ⟨1, _⟩, h => nomatch h)
    (fun c b h => W15_ne m c b (h 2 rfl).symm)

end Cert.KernelIdeal.Hand

end
-- ==== Proof.KISeg6.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg6 : Pipeline.RegionSeg (pcfgs (F := F)) adm (pdats m) () defs₀ 𝒱₀ Lz lvz 6 :=
  regOf m 6 launch6 (W16 m) (W17 m) (body_obligation6 (rd (W16 m))) (fun _ _ => rfl) (fun _ _ => trivial) (fun _ _ => rfl)
    (fun _ _ => rfl) (fun _ _ => rfl)
    (fun c w hw => match w, hw with
      | ⟨2, _⟩, _ => (W17_self m c).symm
      | ⟨0, _⟩, h | ⟨1, _⟩, h => nomatch h)
    (fun c b h => W17_ne m c b (h 2 rfl).symm)

end Cert.KernelIdeal.Hand

end
-- ==== Proof.KISeg7.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg7 : Pipeline.RegionSeg (pcfgs (F := F)) adm (pdats m) () defs₀ 𝒱₀ Lz lvz 7 :=
  regOf m 7 launch7 (W18 m) (W19 m) (body_obligation7 (rd (W18 m))) (fun _ _ => rfl) (fun _ _ => trivial) (fun _ _ => rfl)
    (fun _ _ => rfl) (fun _ _ => rfl)
    (fun c w hw => match w, hw with
      | ⟨3, _⟩, _ => (W19_fst m c).symm
      | ⟨4, _⟩, _ => (W19_snd m c).symm
      | ⟨0, _⟩, h | ⟨1, _⟩, h | ⟨2, _⟩, h => nomatch h)
    (fun c b h => W19_ne m c b (h 3 rfl).symm (h 4 rfl).symm)

end Cert.KernelIdeal.Hand

end
-- ==== Proof.KISeg8.lean ====
import proofs.«407999_j84894323573127_3_alg».proof.Proof.KIFold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

def reg8 : Pipeline.RegionSeg (pcfgs (F := F)) adm (pdats m) () defs₀ 𝒱₀ Lz lvz 8 :=
  regOf m 8 launch8 (W19 m) (W20 m) (body_obligation8 (rd (W19 m))) (fun _ _ => rfl) (fun _ _ => trivial) (fun _ _ => rfl)
    (fun _ _ => rfl) (fun _ _ => rfl)
    (fun c w hw => match w, hw with
      | ⟨5, _⟩, _ => (W20_fst m c).symm
      | ⟨6, _⟩, _ => (W20_snd m c).symm
      | ⟨0, _⟩, h | ⟨1, _⟩, h | ⟨2, _⟩, h | ⟨3, _⟩, h | ⟨4, _⟩, h => nomatch h)
    (fun c b h => W20_ne m c b (h 5 rfl).symm (h 6 rfl).symm)

end Cert.KernelIdeal.Hand

end
-- ==== Proof.KIRun.lean ====
import proofs.«407999_j84894323573127_3_alg».proof.Proof.KIOuts
import proofs.«407999_j84894323573127_3_alg».proof.Proof.KISeg0
import proofs.«407999_j84894323573127_3_alg».proof.Proof.KISeg1
import proofs.«407999_j84894323573127_3_alg».proof.Proof.KISeg2
import proofs.«407999_j84894323573127_3_alg».proof.Proof.KISeg3
import proofs.«407999_j84894323573127_3_alg».proof.Proof.KISeg4
import proofs.«407999_j84894323573127_3_alg».proof.Proof.KISeg5
import proofs.«407999_j84894323573127_3_alg».proof.Proof.KISeg6
import proofs.«407999_j84894323573127_3_alg».proof.Proof.KISeg7
import proofs.«407999_j84894323573127_3_alg».proof.Proof.KISeg8
import proofs.«407999_j84894323573127_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W20 m c b) := by
  have h := Cert.KernelIdeal.GenP.run_cond m emb₁ () 𝒱₀ Lz lvz (fun _ _ => rfl) ρ (outs m) (pdats m)
    (0 : Dev nD → CellTallies nD τ sig Unit) (fun _ => (BI.emp : sProp 𝕄)) u₀ hu₀ (fun _ c => Rst c) (hE0 ρ) hE9
    (reg0 m) (fun c => by rw [VW5]; exact .rfl) (fun c => by rw [VW6]; exact .rfl)
    (reg1 m) (fun c => by rw [VW7]; exact .rfl) (fun c => by rw [VW8]; exact .rfl)
    (reg2 m) (fun c => by rw [VW9]; exact .rfl) (fun c => by rw [VW10]; exact .rfl)
    (reg3 m) (fun c => by rw [VW11]; exact .rfl) (fun c => by rw [VW12]; exact .rfl)
    (reg4 m) (fun c => by rw [VW12]; exact .rfl) (fun c => by rw [VW13]; exact .rfl)
    (reg5 m) (fun c => by rw [VW14]; exact .rfl) (fun c => by rw [VW15]; exact .rfl)
    (reg6 m) (fun c => by rw [VW16]; exact .rfl) (fun c => by rw [VW17]; exact .rfl)
    (reg7 m) (fun c => by rw [VW18]; exact .rfl) (fun c => by rw [VW19]; exact .rfl)
    (reg8 m) (fun c => by rw [VW19]; exact .rfl) (fun c => by rw [VW20]; exact .rfl)
  refine (θ_run defs _ _).mono (fun r hr c b hb => ?_) h
  rw [hr c b hb, VW20]

theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => ⟨
    (hr c _ (mem_uc main_arg0 (by decide))).trans ((congrFun (VW20 m c).symm _).trans (V20_main_arg0 m (outs m) c)),
    (hr c _ (mem_uc main_arg1 (by decide))).trans ((congrFun (VW20 m c).symm _).trans (V20_main_arg1 m (outs m) c)),
    (hr c _ (mem_uc main_arg2 (by decide))).trans ((congrFun (VW20 m c).symm _).trans (V20_main_arg2 m (outs m) c)),
    (hr c _ (mem_uc main_arg3 (by decide))).trans ((congrFun (VW20 m c).symm _).trans (V20_main_arg3 m (outs m) c)),
    (hr c _ (mem_uc main_arg4 (by decide))).trans ((congrFun (VW20 m c).symm _).trans (V20_main_arg4 m (outs m) c)),
    (hr c _ (mem_uc main_arg5 (by decide))).trans ((congrFun (VW20 m c).symm _).trans (V20_main_arg5 m (outs m) c)),
    (hr c _ (mem_uc main_arg6 (by decide))).trans ((congrFun (VW20 m c).symm _).trans (V20_main_arg6 m (outs m) c)),
    (hr c _ (mem_uc main_arg7 (by decide))).trans ((congrFun (VW20 m c).symm _).trans (V20_main_arg7 m (outs m) c)),
    (hr c _ (mem_uc main_arg8 (by decide))).trans ((congrFun (VW20 m c).symm _).trans (V20_main_arg8 m (outs m) c)),
    (hr c _ (mem_uc main_arg9 (by decide))).trans ((congrFun (VW20 m c).symm _).trans (V20_main_arg9 m (outs m) c))⟩)
    (run_all m ρ)

end Cert.KernelIdeal.Hand

end
-- ==== Proof.RefRun.lean ====
import proofs.«407999_j84894323573127_3_alg».proof.Proof.Gen.ReferenceIdeal.Run
import proofs.«407999_j84894323573127_3_alg».proof.Proof.Gen.ReferenceIdeal.Read
-- ==== Proof.KIWalk.lean ====
import proofs.«407999_j84894323573127_3_alg».proof.Proof.KIFold
import proofs.«407999_j84894323573127_3_alg».proof.Proof.RefRun
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read

variable (m : (ℓ : Loc nD τ sig) → Buf (Elt Ideal) ℓ)

theorem W1_of (c : Dev nD) (r : Ref sig .tc) (h : r ∉ hostOps0_W) : W1 m c r = W0 m c r := after_of_writes_sub hostOps0 _ hostOps0_writes h
theorem W2_of (c : Dev nD) (r : Ref sig .tc) (h : r ∉ hostOps0_1_W) : W2 m c r = W1 m c r := after_of_writes_sub hostOps0_1 _ hostOps0_1_writes h
theorem W3_of (c : Dev nD) (r : Ref sig .tc) (h : r ∉ hostOps0_2_W) : W3 m c r = W2 m c r := after_of_writes_sub hostOps0_2 _ hostOps0_2_writes h
theorem W4_of (c : Dev nD) (r : Ref sig .tc) (h : r ∉ hostOps0_3_W) : W4 m c r = W3 m c r := after_of_writes_sub hostOps0_3 _ hostOps0_3_writes h
theorem W5_of (c : Dev nD) (r : Ref sig .tc) (h : r ∉ hostOps0_4_W) : W5 m c r = W4 m c r := after_of_writes_sub hostOps0_4 _ hostOps0_4_writes h
theorem W7_of (c : Dev nD) (r : Ref sig .tc) (h : r ∉ hostOps1_W) : W7 m c r = W6 m c r := after_of_writes_sub hostOps1 _ hostOps1_writes h
theorem W9_of (c : Dev nD) (r : Ref sig .tc) (h : r ∉ hostOps2_W) : W9 m c r = W8 m c r := after_of_writes_sub hostOps2 _ hostOps2_writes h
theorem W11_of (c : Dev nD) (r : Ref sig .tc) (h : r ∉ hostOps3_W) : W11 m c r = W10 m c r := after_of_writes_sub hostOps3 _ hostOps3_writes h
theorem W14_of (c : Dev nD) (r : Ref sig .tc) (h : r ∉ hostOps5_W) : W14 m c r = W13 m c r := after_of_writes_sub hostOps5 _ hostOps5_writes h
theorem W16_of (c : Dev nD) (r : Ref sig .tc) (h : r ∉ hostOps6_W) : W16 m c r = W15 m c r := after_of_writes_sub hostOps6 _ hostOps6_writes h
theorem W18_of (c : Dev nD) (r : Ref sig .tc) (h : r ∉ hostOps7_W) : W18 m c r = W17 m c r := after_of_writes_sub hostOps7 _ hostOps7_writes h

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

end Cert.KernelIdeal.Hand

end
-- ==== Proof.KIHost.lean ====
import proofs.«407999_j84894323573127_3_alg».proof.Proof.KIWalk
import proofs.«407999_j84894323573127_3_alg».proof.Proof.RefRun
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read

variable (m : (ℓ : Loc nD τ sig) → Buf (Elt Ideal) ℓ)

private theorem P_v1_4 (c : Dev nD) : W4 m c main_v1 = W1 m c main_v1 := by
  rw [W4_of m c _ (by decide), W3_of m c _ (by decide), W2_of m c _ (by decide)]
private theorem P_arg4_4 (c : Dev nD) : W4 m c main_arg4 = a4 m c := by
  rw [W4_of m c _ (by decide), W3_of m c _ (by decide), W2_of m c _ (by decide), W1_of m c _ (by decide)]
private theorem P_arg3_4 (c : Dev nD) : W4 m c main_arg3 = a3 m c := by
  rw [W4_of m c _ (by decide), W3_of m c _ (by decide), W2_of m c _ (by decide), W1_of m c _ (by decide)]
private theorem P_arg2_4 (c : Dev nD) : W4 m c main_arg2 = a2 m c := by
  rw [W4_of m c _ (by decide), W3_of m c _ (by decide), W2_of m c _ (by decide), W1_of m c _ (by decide)]
private theorem P_arg7_4 (c : Dev nD) : W4 m c main_arg7 = a7 m c := by
  rw [W4_of m c _ (by decide), W3_of m c _ (by decide), W2_of m c _ (by decide), W1_of m c _ (by decide)]
private theorem P_arg5_6 (c : Dev nD) : W6 m c main_arg5 = a5 m c := by
  rw [W6_ne m c _ (by decide), W5_of m c _ (by decide), W4_of m c _ (by decide), W3_of m c _ (by decide), W2_of m c _ (by decide), W1_of m c _ (by decide)]

theorem P_v3_6 (c : Dev nD) : W6 m c main_v3 = W1 m c main_v3 := by
  rw [W6_ne m c _ (by decide), W5_of m c _ (by decide), W4_of m c _ (by decide), W3_of m c _ (by decide), W2_of m c _ (by decide)]
theorem P_arg1_6 (c : Dev nD) : W6 m c main_arg1 = a1 m c := by
  rw [W6_ne m c _ (by decide), W5_of m c _ (by decide), W4_of m c _ (by decide), W3_of m c _ (by decide), W2_of m c _ (by decide), W1_of m c _ (by decide)]

theorem P_arg3_5 (c : Dev nD) : W5 m c main_arg3 = a3 m c := by
  rw [W5_of m c _ (by decide), W4_of m c _ (by decide), W3_of m c _ (by decide), W2_of m c _ (by decide), W1_of m c _ (by decide)]
theorem P_v33_7 (c : Dev nD) : W7 m c main_v33 = W6 m c main_v33 := by
  rw [W7_of m c _ (by decide)]
theorem P_v34_9 (c : Dev nD) : W9 m c main_v34 = W7 m c main_v34 := by
  rw [W9_of m c _ (by decide), W8_ne m c _ (by decide)]
theorem P_v45_11 (c : Dev nD) : W11 m c main_v45 = W9 m c main_v45 := by
  rw [W11_of m c _ (by decide), W10_ne m c _ (by decide)]
theorem P_v18_11 (c : Dev nD) : W11 m c main_v18 = W5 m c main_v18 := by
  rw [W11_of m c _ (by decide), W10_ne m c _ (by decide), W9_of m c _ (by decide), W8_ne m c _ (by decide), W7_of m c _ (by decide), W6_ne m c _ (by decide)]
theorem P_arg1_11 (c : Dev nD) : W11 m c main_arg1 = a1 m c := by
  rw [W11_of m c _ (by decide), W10_ne m c _ (by decide), W9_of m c _ (by decide), W8_ne m c _ (by decide), W7_of m c _ (by decide), W6_ne m c _ (by decide), W5_of m c _ (by decide), W4_of m c _ (by decide), W3_of m c _ (by decide), W2_of m c _ (by decide), W1_of m c _ (by decide)]
theorem P_arg0_12 (c : Dev nD) : W12 m c main_arg0 = a0 m c := by
  rw [W12_ne m c _ (by decide) (by decide), W11_of m c _ (by decide), W10_ne m c _ (by decide), W9_of m c _ (by decide), W8_ne m c _ (by decide), W7_of m c _ (by decide), W6_ne m c _ (by decide), W5_of m c _ (by decide), W4_of m c _ (by decide), W3_of m c _ (by decide), W2_of m c _ (by decide), W1_of m c _ (by decide)]
theorem P_v31_12 (c : Dev nD) : W12 m c main_v31 = W5 m c main_v31 := by
  rw [W12_ne m c _ (by decide) (by decide), W11_of m c _ (by decide), W10_ne m c _ (by decide), W9_of m c _ (by decide), W8_ne m c _ (by decide), W7_of m c _ (by decide), W6_ne m c _ (by decide)]
theorem P_v30_12 (c : Dev nD) : W12 m c main_v30 = W5 m c main_v30 := by
  rw [W12_ne m c _ (by decide) (by decide), W11_of m c _ (by decide), W10_ne m c _ (by decide), W9_of m c _ (by decide), W8_ne m c _ (by decide), W7_of m c _ (by decide), W6_ne m c _ (by decide)]
theorem P_v56_12 (c : Dev nD) : W12 m c main_v56 = W11 m c main_v56 := by
  rw [W12_ne m c _ (by decide) (by decide)]
theorem P_v33_14 (c : Dev nD) : W14 m c main_v33 = W6 m c main_v33 := by
  rw [W14_of m c _ (by decide), W13_ne m c _ (by decide) (by decide), W12_ne m c _ (by decide) (by decide), W11_of m c _ (by decide), W10_ne m c _ (by decide), W9_of m c _ (by decide), W8_ne m c _ (by decide), W7_of m c _ (by decide)]
theorem P_v34_16 (c : Dev nD) : W16 m c main_v34 = W7 m c main_v34 := by
  rw [W16_of m c _ (by decide), W15_ne m c _ (by decide), W14_of m c _ (by decide), W13_ne m c _ (by decide) (by decide), W12_ne m c _ (by decide) (by decide), W11_of m c _ (by decide), W10_ne m c _ (by decide), W9_of m c _ (by decide), W8_ne m c _ (by decide)]
theorem P_v69_18 (c : Dev nD) : W18 m c main_v69 = W16 m c main_v69 := by
  rw [W18_of m c _ (by decide), W17_ne m c _ (by decide)]
theorem P_v18_18 (c : Dev nD) : W18 m c main_v18 = W5 m c main_v18 := by
  rw [W18_of m c _ (by decide), W17_ne m c _ (by decide), W16_of m c _ (by decide), W15_ne m c _ (by decide), W14_of m c _ (by decide), W13_ne m c _ (by decide) (by decide), W12_ne m c _ (by decide) (by decide), W11_of m c _ (by decide), W10_ne m c _ (by decide), W9_of m c _ (by decide), W8_ne m c _ (by decide), W7_of m c _ (by decide), W6_ne m c _ (by decide)]
theorem P_v57_1_18 (c : Dev nD) : W18 m c main_v57_1 = W12 m c main_v57_1 := by
  rw [W18_of m c _ (by decide), W17_ne m c _ (by decide), W16_of m c _ (by decide), W15_ne m c _ (by decide), W14_of m c _ (by decide), W13_ne m c _ (by decide) (by decide)]
theorem P_v58_0_19 (c : Dev nD) : W19 m c main_v58_0 = W13 m c main_v58_0 := by
  rw [W19_ne m c _ (by decide) (by decide), W18_of m c _ (by decide), W17_ne m c _ (by decide), W16_of m c _ (by decide), W15_ne m c _ (by decide), W14_of m c _ (by decide)]
theorem P_v31_19 (c : Dev nD) : W19 m c main_v31 = W5 m c main_v31 := by
  rw [W19_ne m c _ (by decide) (by decide), W18_of m c _ (by decide), W17_ne m c _ (by decide), W16_of m c _ (by decide), W15_ne m c _ (by decide), W14_of m c _ (by decide), W13_ne m c _ (by decide) (by decide), W12_ne m c _ (by decide) (by decide), W11_of m c _ (by decide), W10_ne m c _ (by decide), W9_of m c _ (by decide), W8_ne m c _ (by decide), W7_of m c _ (by decide), W6_ne m c _ (by decide)]
theorem P_v30_19 (c : Dev nD) : W19 m c main_v30 = W5 m c main_v30 := by
  rw [W19_ne m c _ (by decide) (by decide), W18_of m c _ (by decide), W17_ne m c _ (by decide), W16_of m c _ (by decide), W15_ne m c _ (by decide), W14_of m c _ (by decide), W13_ne m c _ (by decide) (by decide), W12_ne m c _ (by decide) (by decide), W11_of m c _ (by decide), W10_ne m c _ (by decide), W9_of m c _ (by decide), W8_ne m c _ (by decide), W7_of m c _ (by decide), W6_ne m c _ (by decide)]
theorem P_v80_19 (c : Dev nD) : W19 m c main_v80 = W18 m c main_v80 := by
  rw [W19_ne m c _ (by decide) (by decide)]
theorem P_v58_1_19 (c : Dev nD) : W19 m c main_v58_1 = W13 m c main_v58_1 := by
  rw [W19_ne m c _ (by decide) (by decide), W18_of m c _ (by decide), W17_ne m c _ (by decide), W16_of m c _ (by decide), W15_ne m c _ (by decide), W14_of m c _ (by decide)]
theorem P_v11_20 (c : Dev nD) : W20 m c main_v11 = W5 m c main_v11 := by
  rw [W20_ne m c _ (by decide) (by decide), W19_ne m c _ (by decide) (by decide), W18_of m c _ (by decide), W17_ne m c _ (by decide), W16_of m c _ (by decide), W15_ne m c _ (by decide), W14_of m c _ (by decide), W13_ne m c _ (by decide) (by decide), W12_ne m c _ (by decide) (by decide), W11_of m c _ (by decide), W10_ne m c _ (by decide), W9_of m c _ (by decide), W8_ne m c _ (by decide), W7_of m c _ (by decide), W6_ne m c _ (by decide)]
theorem P_v81_1_20 (c : Dev nD) : W20 m c main_v81_1 = W19 m c main_v81_1 := by
  rw [W20_ne m c _ (by decide) (by decide)]

private theorem L_v1 (c : Dev nD) : W1 m c main_v1 = val_main_v1 (F := Ideal) (a6 m c) := by
  show StableHlo.after hostOps0 (W0 m c) (Proc.devRef .tc main_v1) = _
  dsimp only [hostOps0]
  after_results
  rfl

theorem L_v3 (c : Dev nD) : W1 m c main_v3 = val_main_v3 (F := Ideal) (a6 m c) := by
  show StableHlo.after hostOps0 (W0 m c) (Proc.devRef .tc main_v3) = _
  dsimp only [hostOps0]
  after_results
  rfl

private theorem L_v10 (c : Dev nD) : W4 m c main_v10 = val_main_v10 (F := Ideal) (a4 m c) := by
  show StableHlo.after hostOps0_3 (W3 m c) (Proc.devRef .tc main_v10) = _
  dsimp only [hostOps0_3]
  after_results
  rfl

private theorem hostOps0_4_v11 (V : Valuation τ sig (Elt Ideal)) (x4 : (⟨S4x16, .f32⟩ : BufTy).Contents (Elt Ideal)) (h : V main_v10 = val_main_v10 (F := Ideal) x4) :
    StableHlo.after hostOps0_4 V (Proc.devRef .tc main_v11) = val_main_v11 (F := Ideal) x4 := by
  dsimp only [hostOps0_4]
  after_results_simp
  rw [h]
  rfl

private theorem hostOps0_4_v18 (V : Valuation τ sig (Elt Ideal)) (x6 : (⟨S2x1000000, .i32⟩ : BufTy).Contents (Elt Ideal)) (h : V main_v1 = val_main_v1 (F := Ideal) x6) :
    StableHlo.after hostOps0_4 V (Proc.devRef .tc main_v18) = val_main_v18 (F := Ideal) x6 := by
  dsimp only [hostOps0_4]
  after_results_simp
  rw [h]
  rfl

private theorem hostOps0_4_v30 (V : Valuation τ sig (Elt Ideal)) :
    StableHlo.after hostOps0_4 V (Proc.devRef .tc main_v30) = val_main_v30 (F := Ideal) (V main_arg3) (V main_arg4) := by
  dsimp only [hostOps0_4]
  after_results_simp
  rfl

private theorem hostOps0_4_v31 (V : Valuation τ sig (Elt Ideal)) :
    StableHlo.after hostOps0_4 V (Proc.devRef .tc main_v31) = val_main_v53 (F := Ideal) (V main_arg2) := by
  dsimp only [hostOps0_4]
  after_results_simp
  rfl

private theorem hostOps0_4_v32 (V : Valuation τ sig (Elt Ideal)) :
    StableHlo.after hostOps0_4 V (Proc.devRef .tc main_v32) = broadcastInDim S1000000x1 ![0] bcast_S1000000_S1000000x1_0 (V main_arg7) := by
  dsimp only [hostOps0_4]
  after_results_simp

private theorem hostOps1_v34 (V : Valuation τ sig (Elt Ideal)) :
    StableHlo.after hostOps1 V (Proc.devRef .tc main_v34) = val_main_v67 (F := Ideal) (V main_arg5) := by
  dsimp only [hostOps1]
  after_results_simp
  rfl

theorem L_v11 (c : Dev nD) : W5 m c main_v11 = val_main_v11 (F := Ideal) (a4 m c) :=
  hostOps0_4_v11 (W4 m c) (a4 m c) (L_v10 m c)
theorem L_v18 (c : Dev nD) : W5 m c main_v18 = val_main_v18 (F := Ideal) (a6 m c) :=
  hostOps0_4_v18 (W4 m c) (a6 m c) ((P_v1_4 m c).trans (L_v1 m c))
theorem L_v30 (c : Dev nD) : W5 m c main_v30 = val_main_v30 (F := Ideal) (a3 m c) (a4 m c) :=
  (hostOps0_4_v30 (W4 m c)).trans (by rw [P_arg3_4, P_arg4_4])
theorem L_v31 (c : Dev nD) : W5 m c main_v31 = val_main_v53 (F := Ideal) (a2 m c) :=
  (hostOps0_4_v31 (W4 m c)).trans (by rw [P_arg2_4])
theorem L_v32 (c : Dev nD) : W5 m c main_v32 = broadcastInDim S1000000x1 ![0] bcast_S1000000_S1000000x1_0 (a7 m c) :=
  (hostOps0_4_v32 (W4 m c)).trans (by rw [P_arg7_4])
theorem L_v34 (c : Dev nD) : W7 m c main_v34 = val_main_v67 (F := Ideal) (a5 m c) :=
  (hostOps1_v34 (W6 m c)).trans (by rw [P_arg5_6])

theorem L_v41 (c : Dev nD) : W7 m c main_v41 = val_main_v37 (F := Ideal) (a1 m c) (a6 m c) := by
  show StableHlo.after hostOps1 (W6 m c) (Proc.devRef .tc main_v41) = _
  dsimp only [hostOps1]
  after_results
  rw [P_v3_6, P_arg1_6, L_v3]
  rfl

end Cert.KernelIdeal.Hand

end
-- ==== Proof.KIHostB.lean ====
import proofs.«407999_j84894323573127_3_alg».proof.Proof.KIWalk
import proofs.«407999_j84894323573127_3_alg».proof.Proof.RefRun
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read

variable (m : (ℓ : Loc nD τ sig) → Buf (Elt Ideal) ℓ)

theorem Q_v1_5 (c : Dev nD) : W5 m c main_v1 = W1 m c main_v1 := by
  rw [W5_of m c _ (by decide), W4_of m c _ (by decide), W3_of m c _ (by decide), W2_of m c _ (by decide)]
theorem Q_v1_8 (c : Dev nD) : W8 m c main_v1 = W1 m c main_v1 := by
  rw [W8_ne m c _ (by decide), W7_of m c _ (by decide), W6_ne m c _ (by decide), Q_v1_5]
theorem Q_v1_15 (c : Dev nD) : W15 m c main_v1 = W1 m c main_v1 := by
  rw [W15_ne m c _ (by decide), W14_of m c _ (by decide), W13_ne m c _ (by decide) (by decide), W12_ne m c _ (by decide) (by decide), W11_of m c _ (by decide), W10_ne m c _ (by decide),
    W9_of m c _ (by decide), Q_v1_8]

theorem Q_v3_5 (c : Dev nD) : W5 m c main_v3 = W1 m c main_v3 := by
  rw [W5_of m c _ (by decide), W4_of m c _ (by decide), W3_of m c _ (by decide), W2_of m c _ (by decide)]
theorem Q_v3_13 (c : Dev nD) : W13 m c main_v3 = W1 m c main_v3 := by
  rw [W13_ne m c _ (by decide) (by decide), W12_ne m c _ (by decide) (by decide), W11_of m c _ (by decide), W10_ne m c _ (by decide), W9_of m c _ (by decide), W8_ne m c _ (by decide),
    W7_of m c _ (by decide), W6_ne m c _ (by decide), Q_v3_5]

theorem Q_arg1_8 (c : Dev nD) : W8 m c main_arg1 = a1 m c := by
  rw [W8_ne m c _ (by decide), W7_of m c _ (by decide), W6_ne m c _ (by decide), W5_of m c _ (by decide), W4_of m c _ (by decide), W3_of m c _ (by decide), W2_of m c _ (by decide),
    W1_of m c _ (by decide)]
theorem Q_arg9_8 (c : Dev nD) : W8 m c main_arg9 = a9 m c := by
  rw [W8_ne m c _ (by decide), W7_of m c _ (by decide), W6_ne m c _ (by decide), W5_of m c _ (by decide), W4_of m c _ (by decide), W3_of m c _ (by decide), W2_of m c _ (by decide),
    W1_of m c _ (by decide)]
theorem Q_arg9_15 (c : Dev nD) : W15 m c main_arg9 = a9 m c := by
  rw [W15_ne m c _ (by decide), W14_of m c _ (by decide), W13_ne m c _ (by decide) (by decide), W12_ne m c _ (by decide) (by decide), W11_of m c _ (by decide), W10_ne m c _ (by decide),
    W9_of m c _ (by decide), Q_arg9_8]
theorem Q_arg8_10 (c : Dev nD) : W10 m c main_arg8 = a8 m c := by
  rw [W10_ne m c _ (by decide), W9_of m c _ (by decide), W8_ne m c _ (by decide), W7_of m c _ (by decide), W6_ne m c _ (by decide), W5_of m c _ (by decide), W4_of m c _ (by decide),
    W3_of m c _ (by decide), W2_of m c _ (by decide), W1_of m c _ (by decide)]
theorem Q_arg8_17 (c : Dev nD) : W17 m c main_arg8 = a8 m c := by
  rw [W17_ne m c _ (by decide), W16_of m c _ (by decide), W15_ne m c _ (by decide), W14_of m c _ (by decide), W13_ne m c _ (by decide) (by decide), W12_ne m c _ (by decide) (by decide),
    W11_of m c _ (by decide), Q_arg8_10]

theorem Q_v57_0_13 (c : Dev nD) : W13 m c main_v57_0 = W12 m c main_v57_0 := by
  rw [W13_ne m c _ (by decide) (by decide)]
theorem Q_v57_0_15 (c : Dev nD) : W15 m c main_v57_0 = W12 m c main_v57_0 := by
  rw [W15_ne m c _ (by decide), W14_of m c _ (by decide), Q_v57_0_13]

theorem L_v1 (c : Dev nD) : W1 m c main_v1 = val_main_v1 (F := Ideal) (a6 m c) := by
  show StableHlo.after hostOps0 (W0 m c) (Proc.devRef .tc main_v1) = _
  dsimp only [hostOps0]
  after_results
  rfl

theorem L_v3b (c : Dev nD) : W1 m c main_v3 = val_main_v3 (F := Ideal) (a6 m c) := by
  show StableHlo.after hostOps0 (W0 m c) (Proc.devRef .tc main_v3) = _
  dsimp only [hostOps0]
  after_results
  rfl

theorem L_v45 (c : Dev nD) (h : W8 m c main_v42 = val_main_v47 (F := Ideal) (a1 m c) (a3 m c) (a6 m c) (a7 m c)) :
    W9 m c main_v45 = val_main_v50 (F := Ideal) (a1 m c) (a3 m c) (a6 m c) (a7 m c) := by
  show StableHlo.after hostOps2 (W8 m c) (Proc.devRef .tc main_v45) = _
  dsimp only [hostOps2]
  after_results
  rw [Q_v1_8, L_v1, h]
  rfl

theorem L_v52 (c : Dev nD) : W9 m c main_v52 = val_main_v74 (F := Ideal) (a1 m c) (a9 m c) := by
  show StableHlo.after hostOps2 (W8 m c) (Proc.devRef .tc main_v52) = _
  dsimp only [hostOps2]
  after_results_simp
  rw [Q_arg1_8, Q_arg9_8]
  rfl

theorem L_v56 (c : Dev nD) (h : W10 m c main_v53 = val_main_v76 (F := Ideal) (a1 m c) (a5 m c) (a9 m c)) :
    W11 m c main_v56 = val_main_v79 (F := Ideal) (a1 m c) (a5 m c) (a8 m c) (a9 m c) := by
  show StableHlo.after hostOps3 (W10 m c) (Proc.devRef .tc main_v56) = _
  dsimp only [hostOps3]
  after_results
  rw [Q_arg8_10, h]
  rfl

theorem L_v65 (c : Dev nD) (h : W12 m c main_v57_0 = val_main_v91 (F := Ideal) (a1 m c) (a3 m c) (a6 m c) (a7 m c)) :
    W14 m c main_v65 = val_main_v105 (F := Ideal) (a1 m c) (a3 m c) (a6 m c) (a7 m c) := by
  show StableHlo.after hostOps5 (W13 m c) (Proc.devRef .tc main_v65) = _
  dsimp only [hostOps5]
  after_results_simp
  rw [Q_v57_0_13, h, Q_v3_13, L_v3b]
  rfl

theorem L_v69 (c : Dev nD) (h : W15 m c main_v66 = val_main_v115 (F := Ideal) (a1 m c) (a3 m c) (a6 m c) (a7 m c)) :
    W16 m c main_v69 = val_main_v118 (F := Ideal) (a1 m c) (a3 m c) (a6 m c) (a7 m c) := by
  show StableHlo.after hostOps6 (W15 m c) (Proc.devRef .tc main_v69) = _
  dsimp only [hostOps6]
  after_results
  rw [Q_v1_15, L_v1, h]
  rfl

theorem L_v76 (c : Dev nD) (h : W12 m c main_v57_0 = val_main_v91 (F := Ideal) (a1 m c) (a3 m c) (a6 m c) (a7 m c)) :
    W16 m c main_v76 = val_main_v142 (F := Ideal) (a1 m c) (a3 m c) (a6 m c) (a7 m c) (a9 m c) := by
  show StableHlo.after hostOps6 (W15 m c) (Proc.devRef .tc main_v76) = _
  dsimp only [hostOps6]
  after_results_simp
  rw [Q_v57_0_15, h, Q_arg9_15]
  rfl

theorem L_v80 (c : Dev nD)
    (h : W17 m c main_v77 = val_main_v144 (F := Ideal) (a1 m c) (a3 m c) (a5 m c) (a6 m c) (a7 m c) (a9 m c)) :
    W18 m c main_v80 = val_main_v147 (F := Ideal) (a1 m c) (a3 m c) (a5 m c) (a6 m c) (a7 m c) (a8 m c) (a9 m c) := by
  show StableHlo.after hostOps7 (W17 m c) (Proc.devRef .tc main_v80) = _
  dsimp only [hostOps7]
  after_results
  rw [Q_arg8_17, h]
  rfl

theorem R_v114 (x3 : (⟨S16x64, .f32⟩ : BufTy).Contents (Elt Ideal)) (x7 : (⟨S1000000, .i32⟩ : BufTy).Contents (Elt Ideal)) :
    val_main_v114 (F := Ideal) x3 x7 = val_main_v46 (F := Ideal) x3 x7 := rfl

theorem R_v143 (x5 : (⟨S1000000, .f32⟩ : BufTy).Contents (Elt Ideal)) :
    val_main_v143 (F := Ideal) x5 = val_main_v75 (F := Ideal) x5 := rfl

end Cert.KernelIdeal.Hand

end
-- ==== Proof.LibColumns.lean ====
import Idealize.ShloMosaic.Lib.Pipeline.Value
import Idealize.ShloMosaic.Lib.ValueIdx

namespace Cert.Columns

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KIVal0.lean ====
import proofs.«407999_j84894323573127_3_alg».proof.Proof.KIR0
import proofs.«407999_j84894323573127_3_alg».proof.Proof.RefRun
import proofs.«407999_j84894323573127_3_alg».proof.Proof.LibColumns
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val0

theorem lhs_onehot_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs_onehot_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs_table_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs_table_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

theorem matmul_rows_table (a : FVec Ideal S10000x16 .f32) (b : FVec Ideal S16x64 .f32) (p : Fin 10000) (q : Fin 64) :
    matmul dot_S10000x16_S16x64_S10000x64_1_0_0_1_n_n none a b (constant (F := Ideal) S10000x64 .f32 0x00000000#32) (ix2 p q)
      = ∑ k : Fin 16, a (ix2 p k) * b (ix2 k q) := by
  simp only [matmul]
  rw [Ideal.matmul_constant_zero_apply, ← Equiv.sum_comp (ValueIdx.contrEquiv1 dot_S10000x16_S16x64_S10000x64_1_0_0_1_n_n 16 rfl rfl).symm]
  refine Finset.sum_congr rfl fun k _ => ?_
  have hk := ValueIdx.contrEquiv1_symm_val dot_S10000x16_S16x64_S10000x64_1_0_0_1_n_n 16 rfl rfl k
  have el : dot_S10000x16_S16x64_S10000x64_1_0_0_1_n_n.lhsIdx (ix2 p q) ((ValueIdx.contrEquiv1 dot_S10000x16_S16x64_S10000x64_1_0_0_1_n_n 16 rfl rfl).symm k) = ix2 p k := funext fun a => Fin.ext (by
    match a with
    | ⟨0, _⟩ => exact lhs_onehot_0 _ _
    | ⟨1, _⟩ => exact (lhs_onehot_1 _ _).trans hk)
  have er : dot_S10000x16_S16x64_S10000x64_1_0_0_1_n_n.rhsIdx (ix2 p q) ((ValueIdx.contrEquiv1 dot_S10000x16_S16x64_S10000x64_1_0_0_1_n_n 16 rfl rfl).symm k) = ix2 k q := funext fun a => Fin.ext (by
    match a with
    | ⟨0, _⟩ => exact (rhs_table_0 _ _).trans hk
    | ⟨1, _⟩ => exact rhs_table_1 _ _)
  rw [el, er]

theorem type_pred_word (e : BitVec 32) (f : Fin 16) (hf : (f.val : ℤ) = e.toInt - 1) :
    IntOp.subi e 1#32 = BitVec.ofNat 32 f.val := by
  have hnat : e.toNat = f.val + 1 := by
    have h := hf
    rw [BitVec.toInt_eq_toNat_cond] at h
    have := e.isLt
    have := f.isLt
    split at h <;> omega
  unfold IntOp.subi
  apply BitVec.eq_of_toNat_eq
  simp only [BitVec.toNat_sub, BitVec.toNat_ofNat]
  have := f.isLt
  omega

theorem onehot_entry (e : BitVec 32) (f k : Fin 16) (hf : (f.val : ℤ) = e.toInt - 1) :
    (FloatOps.sitofp (F := Ideal) .f32 ((IntOp.cmpi .eq (BitVec.ofNat 32 k.val) (IntOp.subi e 1#32)).setWidth 32) : EReal)
      = if k = f then 1 else 0 := by
  rw [type_pred_word e f hf]
  show (((((IntOp.cmpi .eq (BitVec.ofNat 32 k.val) (BitVec.ofNat 32 f.val)).setWidth 32).toInt : ℤ) : ℝ) : EReal) = _
  by_cases hkf : k = f
  · subst hkf
    rw [if_pos rfl, StableHlo.Predicate.cmpi_eq_iff.2 rfl]
    have : ((1#1 : BitVec 1).setWidth 32).toInt = 1 := by decide
    rw [this]; simp
  · rw [if_neg hkf]
    have hne : IntOp.cmpi .eq (BitVec.ofNat 32 k.val) (BitVec.ofNat 32 f.val) = 0#1 :=
      eq_zero_of_ne_one fun h1 => hkf (Fin.ext (by
        have h2 := congrArg BitVec.toNat (StableHlo.Predicate.cmpi_eq_iff.1 h1)
        simp only [BitVec.toNat_ofNat] at h2
        have := k.isLt; have := f.isLt
        omega))
    rw [hne]
    have : ((0#1 : BitVec 1).setWidth 32).toInt = 0 := by decide
    rw [this]; simp

theorem onehot_product_at (x0 : Vec Ideal S10000x1 .i32) (x1 : Vec Ideal S16x64 .f32) (p : Fin 10000) (q : Fin 64) (f : Fin 16)
    (hf : (f.val : ℤ) = (x0 (ix2 p (0 : Fin 1))).toInt - 1) :
    k0_pay1 x0 x1 (ix2 p q) = x1 (ix2 f q) := by
  unfold k0_pay1
  refine (matmul_rows_table _ x1 p q).trans ?_
  rw [Finset.sum_eq_single f]
  · have e1 : (sitofp (F := Ideal) .f32 (extui 32 (cmpi .eq (iota .tc S10000x16 32 [1] iota_S10000x16_d1_w32)
        (broadcastTo S10000x16 (subi (shapeCast S10000x1 x0 shapeCasts_S10000x1_S10000x1) (broadcast S10000x1 1#32)) broadcasts_S10000x1_S10000x16)) natLt_1_32) : FVec Ideal S10000x16 .f32) (ix2 p f) = 1 := by
      show (FloatOps.sitofp (F := Ideal) .f32 ((IntOp.cmpi .eq (iota .tc S10000x16 32 [1] iota_S10000x16_d1_w32 (ix2 p f))
        (broadcastTo S10000x16 (subi (shapeCast S10000x1 x0 shapeCasts_S10000x1_S10000x1) (broadcast S10000x1 1#32)) broadcasts_S10000x1_S10000x16 (ix2 p f))).setWidth 32) : EReal) = 1
      rw [iota_single_apply, Cert.Columns.broadcastTo_a1_ab_apply, shapeCast_self]
      exact (onehot_entry _ f f hf).trans (if_pos rfl)
    rw [e1, one_mul]
  · intro k _ hk
    have e0 : (sitofp (F := Ideal) .f32 (extui 32 (cmpi .eq (iota .tc S10000x16 32 [1] iota_S10000x16_d1_w32)
        (broadcastTo S10000x16 (subi (shapeCast S10000x1 x0 shapeCasts_S10000x1_S10000x1) (broadcast S10000x1 1#32)) broadcasts_S10000x1_S10000x16)) natLt_1_32) : FVec Ideal S10000x16 .f32) (ix2 p k) = 0 := by
      show (FloatOps.sitofp (F := Ideal) .f32 ((IntOp.cmpi .eq (iota .tc S10000x16 32 [1] iota_S10000x16_d1_w32 (ix2 p k))
        (broadcastTo S10000x16 (subi (shapeCast S10000x1 x0 shapeCasts_S10000x1_S10000x1) (broadcast S10000x1 1#32)) broadcasts_S10000x1_S10000x16 (ix2 p k))).setWidth 32) : EReal) = 0
      rw [iota_single_apply, Cert.Columns.broadcastTo_a1_ab_apply, shapeCast_self]
      exact (onehot_entry _ f k hf).trans (if_neg hk)
    rw [e0, zero_mul]
  · intro h; exact absurd (Finset.mem_univ f) h

theorem gather_rows_at {α : Type} (x3 : Cert.ReferenceIdeal.S16x64.Idx → α) (idx : IVec Cert.ReferenceIdeal.S1000000x1 32)
    (r : Fin 1000000) (q : Fin 64) :
    Host.gather Cert.ReferenceIdeal.gather_S16x64_S1000000x1_S1000000x64_1_0_n_n_0_1_164 x3 idx (ix2 r q)
      = x3 (ix2 (⟨min (idx (ix2 r (0 : Fin 1))).toInt.toNat 15, by omega⟩ : Fin 16) q) := by
  unfold Host.gather
  congr 1
  funext a
  refine Fin.ext ?_
  match a with
  | ⟨0, _⟩ =>
    show Cert.ReferenceIdeal.gather_S16x64_S1000000x1_S1000000x64_1_0_n_n_0_1_164.start (ix2 r q) idx 0 + Cert.ReferenceIdeal.gather_S16x64_S1000000x1_S1000000x64_1_0_n_n_0_1_164.batchCoord (ix2 r q) 0 + Cert.ReferenceIdeal.gather_S16x64_S1000000x1_S1000000x64_1_0_n_n_0_1_164.offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin Cert.ReferenceIdeal.S16x64.rank) ∈ Cert.ReferenceIdeal.gather_S16x64_S1000000x1_S1000000x64_1_0_n_n_0_1_164.startIndexMap from List.mem_singleton.mpr rfl)]
    have hsi : Cert.ReferenceIdeal.gather_S16x64_S1000000x1_S1000000x64_1_0_n_n_0_1_164.siIdx (ix2 r q) ⟨List.idxOf (0 : Fin Cert.ReferenceIdeal.S16x64.rank) Cert.ReferenceIdeal.gather_S16x64_S1000000x1_S1000000x64_1_0_n_n_0_1_164.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show Cert.ReferenceIdeal.gather_S16x64_S1000000x1_S1000000x64_1_0_n_n_0_1_164.start (ix2 r q) idx 1 + Cert.ReferenceIdeal.gather_S16x64_S1000000x1_S1000000x64_1_0_n_n_0_1_164.batchCoord (ix2 r q) 1 + Cert.ReferenceIdeal.gather_S16x64_S1000000x1_S1000000x64_1_0_n_n_0_1_164.offCoord (ix2 r q) 1 = q.val
    rw [GatherDims.batchCoord_eq_zero _ _ _ List.not_mem_nil]
    unfold GatherDims.start
    rw [dif_neg (show ¬(1 : Fin Cert.ReferenceIdeal.S16x64.rank) ∈ Cert.ReferenceIdeal.gather_S16x64_S1000000x1_S1000000x64_1_0_n_n_0_1_164.startIndexMap by decide)]
    unfold GatherDims.offCoord
    rw [dif_pos (show (1 : Fin Cert.ReferenceIdeal.S16x64.rank) ∈ Cert.ReferenceIdeal.gather_S16x64_S1000000x1_S1000000x64_1_0_n_n_0_1_164.sKept by decide)]
    simp only [Nat.zero_add]
    rfl

theorem ref_row_at (x3 : (⟨Cert.ReferenceIdeal.S16x64, .f32⟩ : BufTy).Contents (Elt Ideal))
    (x7 : (⟨Cert.ReferenceIdeal.S1000000, .i32⟩ : BufTy).Contents (Elt Ideal)) (r : Fin 1000000) (q : Fin 64) (f : Fin 16)
    (hf : (f.val : ℤ) = (x7 (ix1 r)).toInt - 1) :
    Cert.ReferenceIdeal.Read.val_main_v46 (F := Ideal) x3 x7 (ix2 r q) = x3 (ix2 f q) := by
  unfold Cert.ReferenceIdeal.Read.val_main_v46
  rw [gather_rows_at]
  have hstart : Cert.ReferenceIdeal.Read.val_main_v45 (F := Ideal) x7 (ix2 r (0 : Fin 1)) = BitVec.ofNat 32 f.val := by
    rw [Cert.ReferenceIdeal.Read.val_main_v45_apply]
    have hi : Cert.ReferenceIdeal.Read.idx_main_v45 (ix2 r (0 : Fin 1)) = ix1 r := by
      funext a; match a with | ⟨0, _⟩ => rfl
    rw [hi]
    show Scalar.select (IntOp.cmpi .slt (IntOp.subi (x7 (ix1 r)) 1#32) 0#32)
      (IntOp.addi (IntOp.subi (x7 (ix1 r)) 1#32) 16#32) (IntOp.subi (x7 (ix1 r)) 1#32) = _
    rw [type_pred_word _ f hf]
    have hnn : IntOp.cmpi .slt (BitVec.ofNat 32 f.val) 0#32 = 0#1 := by
      refine eq_zero_of_ne_one fun h1 => ?_
      unfold IntOp.cmpi at h1
      simp only [StableHlo.Predicate.ofBool_eq_one_iff, BitVec.slt, decide_eq_true_eq,
        StableHlo.Predicate.toInt_ofNat_small f.val (by have := f.isLt; omega)] at h1
      have h0 : (0#32 : BitVec 32).toInt = 0 := by decide
      rw [h0] at h1
      omega
    rw [hnn, select_zero]
  have hrow : (⟨min (Cert.ReferenceIdeal.Read.val_main_v45 (F := Ideal) x7 (ix2 r (0 : Fin 1))).toInt.toNat 15, by omega⟩ : Fin 16) = f := by
    apply Fin.ext
    show min (Cert.ReferenceIdeal.Read.val_main_v45 (F := Ideal) x7 (ix2 r (0 : Fin 1))).toInt.toNat 15 = f.val
    rw [hstart, StableHlo.Predicate.toInt_ofNat_small f.val (by have := f.isLt; omega), Int.toNat_natCast]
    have := f.isLt; omega
  exact congrArg (fun a => x3 (ix2 a q)) hrow

theorem block_row_eq (x0 : Vec Ideal S10000x1 .i32) (x1 : Vec Ideal S16x64 .f32) (w : S16x64.Idx → EReal)
    (et : S1000000.Idx → BitVec 32) (p : Fin 10000) (q : Fin 64) (r : Fin 1000000)
    (h0 : x0 (ix2 p (0 : Fin 1)) = et (ix1 r)) (h1 : ∀ i, x1 i = w i)
    (hr : 1 ≤ (et (ix1 r)).toInt ∧ (et (ix1 r)).toInt ≤ 16) :
    k0_pay1 x0 x1 (ix2 p q) = Cert.ReferenceIdeal.Read.val_main_v46 (F := Ideal) w et (ix2 r q) := by
  have hf : (((⟨((et (ix1 r)).toInt - 1).toNat, by omega⟩ : Fin 16).val : ℕ) : ℤ) = (et (ix1 r)).toInt - 1 := by
    show ((((et (ix1 r)).toInt - 1).toNat : ℕ) : ℤ) = _
    omega
  rw [onehot_product_at x0 x1 p q _ (by rw [h0]; exact hf), ref_row_at w et r q _ hf, h1]

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (et : (⟨S1000000, .i32⟩ : BufTy).Contents (Elt Ideal))
    (hV : V c main_v32 = broadcastInDim S1000000x1 ![0] bcast_S1000000_S1000000x1_0 et)
    (hr : ∀ r : S1000000.Idx, 1 ≤ (et r).toInt ∧ (et r).toInt ≤ 16) (t : Fin cfg0.N) :
    (dat0 (F := Ideal) V c).flushed 2 t
      = ((cfg0.win 2).blk t).view.read (Elt Ideal) (Cert.ReferenceIdeal.Read.val_main_v46 (F := Ideal) (V c main_arg3) et) := by
  show (cfg0.win 2).cut (grid0.coords t) ((dat0 V c).after 2 t) = _
  rw [after0_2]
  unfold out0_2
  rw [View.canon_unit_zero hz0]
  simp only [View.ld_unit_zero (S := S10000x1) hz0, View.ld_unit_zero (S := S16x64) hz0]
  obtain ⟨e0, e1, e2, e3, e4, e5⟩ := idx_facts0 t
  have ht : t.val < 100 := Nat.lt_of_lt_of_eq t.isLt (show cfg0.N = 100 from N_0)
  funext j
  show k0_pay1 (iblk0 V c 0 t) (iblk0 V c 1 t) j
      = Cert.ReferenceIdeal.Read.val_main_v46 (F := Ideal) (V c main_arg3) et (((cfg0.win 2).blk t).view.emb j)
  have hj0 : (j 0).val < 10000 := (j 0).isLt
  have hj1 : (j 1).val < 64 := (j 1).isLt
  have ej : (j : S10000x64.Idx) = ix2 (⟨(j 0).val, hj0⟩ : Fin 10000) (⟨(j 1).val, hj1⟩ : Fin 64) := by
    funext a; match a with | ⟨0, _⟩ => rfl | ⟨1, _⟩ => rfl
  have eemb : ((cfg0.win 2).blk t).view.emb j
      = ix2 (⟨10000 * t.val + (j 0).val, by omega⟩ : Fin 1000000) (⟨(j 1).val, hj1⟩ : Fin 64) := by
    funext a; apply Fin.ext
    match a with
    | ⟨0, _⟩ => show win0_2.index t (0 : Fin 2) * 10000 + 1 * (j 0).val = 10000 * t.val + (j 0).val; rw [e4]; omega
    | ⟨1, _⟩ => show win0_2.index t (1 : Fin 2) * 64 + 1 * (j 1).val = (j 1).val; rw [e5]; omega
  rw [eemb]
  refine (congrArg (k0_pay1 (iblk0 V c 0 t) (iblk0 V c 1 t)) ej).trans ?_
  refine block_row_eq _ _ (V c main_arg3) et _ _ _ ?_ ?_ (hr _)
  ·
    show V c main_v32 (((cfg0.win 0).blk t).view.emb (ix2 (⟨(j 0).val, hj0⟩ : Fin 10000) (0 : Fin 1))) = _
    rw [hV]
    refine broadcastInDim_apply _ _ et _ _ fun a => ?_
    match a with
    | ⟨0, _⟩ =>
      show 10000 * t.val + (j 0).val = if (1000000 : ℕ) = 1 then 0 else win0_0.index t (0 : Fin 2) * 10000 + 1 * (j 0).val
      rw [if_neg (by decide), e0]; omega
  ·
    intro i
    show V c main_arg3 (((cfg0.win 1).blk t).view.emb i) = V c main_arg3 i
    congr 1
    funext a; apply Fin.ext
    match a with
    | ⟨0, _⟩ => show win0_1.index t (0 : Fin 2) * 16 + 1 * (i 0).val = (i 0).val; rw [e2]; omega
    | ⟨1, _⟩ => show win0_1.index t (1 : Fin 2) * 64 + 1 * (i 1).val = (i 1).val; rw [e3]; omega

theorem mem_blk0 (t : Fin cfg0.N) (i : S1000000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v33).slice (win0_2.rect t)).set ↔ _
  rw [View.set_slice_whole, Rect.mem_set_unit]
  exact Iff.rfl

theorem cover0 (i : S1000000x64.Idx) :
    ∃ t : Fin cfg0.N, (cfg0.win 2).flush t = true ∧ i ∈ ((cfg0.win 2).blk t).view.set := by
  have hi0 : (i 0).val < 1000000 := (i 0).isLt
  have hi1 : (i 1).val < 64 := (i 1).isLt
  have hlt : (i 0).val / 10000 < cfg0.N := Nat.lt_of_lt_of_eq (by omega) (show cfg0.N = 100 from N_0).symm
  obtain ⟨t, ht⟩ : ∃ t : Fin cfg0.N, t.val = (i 0).val / 10000 := ⟨⟨_, hlt⟩, rfl⟩
  refine ⟨t, flush0_2 t, ?_⟩
  rw [mem_blk0]
  obtain ⟨-, -, -, -, e4, e5⟩ := idx_facts0 t
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

end Val0

open Val0

variable (V : (c : Dev nD) → (b : Ref sig .tc) → Buf (Elt Ideal) ((c : Thread nD τ).loc b))

theorem val0 (c : Dev nD) (et : (⟨S1000000, .i32⟩ : BufTy).Contents (Elt Ideal))
    (hV : V c main_v32 = broadcastInDim S1000000x1 ![0] bcast_S1000000_S1000000x1_0 et)
    (hr : ∀ r : S1000000.Idx, 1 ≤ (et r).toInt ∧ (et r).toInt ≤ 16) :
    ∀ i : S1000000x64.Idx, (dat0 (F := Ideal) V c).arrAt 2 cfg0.N i
      = Cert.ReferenceIdeal.Read.val_main_v46 (F := Ideal) (V c main_arg3) et i :=
  fun i => congrFun ((dat0 (F := Ideal) V c).arrAt_eq_of_cover 2 (Cert.ReferenceIdeal.Read.val_main_v46 (F := Ideal) (V c main_arg3) et)
    (fun t _ => flushed0_eq V c et hV hr t) cover0) i

end Cert.KernelIdeal.Hand

end
-- ==== Proof.KIVal12.lean ====
import proofs.«407999_j84894323573127_3_alg».proof.Proof.KIR1
import proofs.«407999_j84894323573127_3_alg».proof.Proof.KIR2
import proofs.«407999_j84894323573127_3_alg».proof.Proof.KIR5
import proofs.«407999_j84894323573127_3_alg».proof.Proof.KIR6
import proofs.«407999_j84894323573127_3_alg».proof.Proof.RefRun
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section AnyFloat

variable (V : (c : Dev nD) → (b : Ref sig .tc) → Buf (Elt F) ((c : Thread nD τ).loc b))

theorem ew_zero_offsets : (![0, 0] : Fin 2 → Nat) = fun _ => 0 := funext fun a => by fin_cases a <;> rfl

abbrev ewProd (a0 a1 : S1000000x64.Idx → Elt F .f32) : S1000000x64.Idx → Elt F .f32 := fun i => FloatOps.mulf (a0 i) (a1 i)

abbrev ewCol (i : S1000000x64.Idx) : S1000000x1.Idx := ValueIdx.ix2 ⟨(i 0).val, (i 0).isLt⟩ ⟨0, Nat.one_pos⟩

abbrev ewScale (a0 : S1000000x64.Idx → Elt F .f32) (a1 : S1000000x1.Idx → Elt F .f32) : S1000000x64.Idx → Elt F .f32 :=
  fun i => FloatOps.mulf (a0 i) (a1 (ewCol i))

theorem pay1_eq (x0 x1 : Vec F S10000x64 .f32) : k1_pay1 x0 x1 = mulf x0 x1 := by
  unfold k1_pay1
  simp only [shapeCast_self]

theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

theorem flushed1_eq (c : Dev nD) (t : Fin cfg1.N) :
    (dat1 V c).flushed 2 t = ((cfg1.win 2).blk t).view.read (Elt F) (ewProd (V c main_v41) (V c main_v33)) := by
  show (cfg1.win 2).cut (grid1.coords t) ((dat1 V c).after 2 t) = _
  rw [after1_2]
  unfold out1_2
  rw [View.canon_unit_zero ew_zero_offsets]
  simp only [View.ld_unit_zero (S := S10000x64) ew_zero_offsets]
  rw [pay1_eq]
  obtain ⟨e0, e1, e2, e3, e4, e5⟩ := idx_facts1 t
  funext j
  show FloatOps.mulf (V c main_v41 (((cfg1.win 0).blk t).view.emb j)) (V c main_v33 (((cfg1.win 1).blk t).view.emb j)) = FloatOps.mulf (V c main_v41 (((cfg1.win 2).blk t).view.emb j)) (V c main_v33 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

theorem mem_blk1 (t : Fin cfg1.N) (i : S1000000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

theorem covered1 (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  let t : Fin cfg1.N := ⟨(i 0).val / 10000, by show _ < 100; omega⟩
  obtain ⟨e0, e1, e2, e3, e4, e5⟩ := idx_facts1 t
  have e4' : win1_2.index t (0 : Fin 2) = (i 0).val / 10000 := e4
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

theorem final1 (c : Dev nD) : (dat1 V c).arrAt 2 cfg1.N = ewProd (V c main_v41) (V c main_v33) :=
  (dat1 V c).arrAt_eq_of_cover 2 (ewProd (V c main_v41) (V c main_v33)) (fun t _ => flushed1_eq V c t) covered1

theorem pay5_eq (x0 x1 : Vec F S10000x64 .f32) : k5_pay1 x0 x1 = mulf x0 x1 := by
  unfold k5_pay1
  simp only [shapeCast_self]

theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val
    ∧ win5_2.index t (1 : Fin 2) = 0 :=
  (by decide +kernel : ∀ t : Fin grid5.N, _)

theorem flushed5_eq (c : Dev nD) (t : Fin cfg5.N) :
    (dat5 V c).flushed 2 t = ((cfg5.win 2).blk t).view.read (Elt F) (ewProd (V c main_v65) (V c main_v33)) := by
  show (cfg5.win 2).cut (grid5.coords t) ((dat5 V c).after 2 t) = _
  rw [after5_2]
  unfold out5_2
  rw [View.canon_unit_zero ew_zero_offsets]
  simp only [View.ld_unit_zero (S := S10000x64) ew_zero_offsets]
  rw [pay5_eq]
  obtain ⟨e0, e1, e2, e3, e4, e5⟩ := idx_facts5 t
  funext j
  show FloatOps.mulf (V c main_v65 (((cfg5.win 0).blk t).view.emb j)) (V c main_v33 (((cfg5.win 1).blk t).view.emb j)) = FloatOps.mulf (V c main_v65 (((cfg5.win 2).blk t).view.emb j)) (V c main_v33 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

theorem mem_blk5 (t : Fin cfg5.N) (i : S1000000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v66).slice (win5_2.rect t)).set ↔ _
  rw [View.set_slice_whole, Rect.mem_set_unit]
  exact Iff.rfl

theorem covered5 (i : S1000000x64.Idx) : ∃ t : Fin cfg5.N, (cfg5.win 2).flush t = true ∧ i ∈ ((cfg5.win 2).blk t).view.set := by
  have hi0 : (i 0).val < 1000000 := (i 0).isLt
  have hi1 : (i 1).val < 64 := (i 1).isLt
  let t : Fin cfg5.N := ⟨(i 0).val / 10000, by show _ < 100; omega⟩
  obtain ⟨e0, e1, e2, e3, e4, e5⟩ := idx_facts5 t
  have e4' : win5_2.index t (0 : Fin 2) = (i 0).val / 10000 := e4
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

theorem final5 (c : Dev nD) : (dat5 V c).arrAt 2 cfg5.N = ewProd (V c main_v65) (V c main_v33) :=
  (dat5 V c).arrAt_eq_of_cover 2 (ewProd (V c main_v65) (V c main_v33)) (fun t _ => flushed5_eq V c t) covered5

theorem pay2_apply (x0 : Vec F S10000x64 .f32) (x1 : Vec F S10000x1 .f32) (j : S10000x64.Idx) (k : S10000x1.Idx)
    (hk : (k 0).val = (j 0).val) : k2_pay1 x0 x1 j = FloatOps.mulf (x0 j) (x1 k) := by
  unfold k2_pay1
  simp only [shapeCast_self]
  show FloatOps.mulf (x0 j) (broadcastTo S10000x64 x1 broadcasts_S10000x1_S10000x64 j) = FloatOps.mulf (x0 j) (x1 k)
  refine congrArg (FloatOps.mulf (x0 j)) ?_
  exact broadcastTo_apply x1 broadcasts_S10000x1_S10000x64 j k (fun a => match a with
    | ⟨0, _⟩ => by show (k 0).val = if (10000 : Nat) = 1 then 0 else (j 0).val; rw [if_neg (by decide)]; exact hk
    | ⟨1, _⟩ => by show (k 1).val = if (1 : Nat) = 1 then 0 else (j 1).val; rw [if_pos rfl]; have h1 : (k 1).val < 1 := (k 1).isLt; omega)

theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

theorem flushed2_eq (c : Dev nD) (t : Fin cfg2.N) :
    (dat2 V c).flushed 2 t = ((cfg2.win 2).blk t).view.read (Elt F) (ewScale (V c main_v52) (V c main_v34)) := by
  show (cfg2.win 2).cut (grid2.coords t) ((dat2 V c).after 2 t) = _
  rw [after2_2]
  unfold out2_2
  rw [View.canon_unit_zero ew_zero_offsets]
  simp only [View.ld_unit_zero (S := S10000x64) ew_zero_offsets, View.ld_unit_zero (S := S10000x1) ew_zero_offsets]
  obtain ⟨e0, e1, e2, e3, e4, e5⟩ := idx_facts2 t
  funext j
  refine (pay2_apply (iblk2 V c 0 t) (iblk2 V c 1 t) j (ValueIdx.ix2 ⟨(j 0).val, (j 0).isLt⟩ ⟨0, Nat.one_pos⟩) rfl).trans ?_
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ValueIdx.ix2 ⟨(j 0).val, (j 0).isLt⟩ ⟨0, Nat.one_pos⟩) = ewCol (((cfg2.win 2).blk t).view.emb j) := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  show FloatOps.mulf (V c main_v52 (((cfg2.win 0).blk t).view.emb j)) (V c main_v34 (((cfg2.win 1).blk t).view.emb (ValueIdx.ix2 ⟨(j 0).val, (j 0).isLt⟩ ⟨0, Nat.one_pos⟩)))
    = FloatOps.mulf (V c main_v52 (((cfg2.win 2).blk t).view.emb j)) (V c main_v34 (ewCol (((cfg2.win 2).blk t).view.emb j)))
  rw [h0, h1]

theorem mem_blk2 (t : Fin cfg2.N) (i : S1000000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

theorem covered2 (i : S1000000x64.Idx) : ∃ t : Fin cfg2.N, (cfg2.win 2).flush t = true ∧ i ∈ ((cfg2.win 2).blk t).view.set := by
  have hi0 : (i 0).val < 1000000 := (i 0).isLt
  have hi1 : (i 1).val < 64 := (i 1).isLt
  let t : Fin cfg2.N := ⟨(i 0).val / 10000, by show _ < 100; omega⟩
  obtain ⟨e0, e1, e2, e3, e4, e5⟩ := idx_facts2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

theorem final2 (c : Dev nD) : (dat2 V c).arrAt 2 cfg2.N = ewScale (V c main_v52) (V c main_v34) :=
  (dat2 V c).arrAt_eq_of_cover 2 (ewScale (V c main_v52) (V c main_v34)) (fun t _ => flushed2_eq V c t) covered2

theorem pay6_apply (x0 : Vec F S10000x64 .f32) (x1 : Vec F S10000x1 .f32) (j : S10000x64.Idx) (k : S10000x1.Idx)
    (hk : (k 0).val = (j 0).val) : k6_pay1 x0 x1 j = FloatOps.mulf (x0 j) (x1 k) := by
  unfold k6_pay1
  simp only [shapeCast_self]
  show FloatOps.mulf (x0 j) (broadcastTo S10000x64 x1 broadcasts_S10000x1_S10000x64 j) = FloatOps.mulf (x0 j) (x1 k)
  refine congrArg (FloatOps.mulf (x0 j)) ?_
  exact broadcastTo_apply x1 broadcasts_S10000x1_S10000x64 j k (fun a => match a with
    | ⟨0, _⟩ => by show (k 0).val = if (10000 : Nat) = 1 then 0 else (j 0).val; rw [if_neg (by decide)]; exact hk
    | ⟨1, _⟩ => by show (k 1).val = if (1 : Nat) = 1 then 0 else (j 1).val; rw [if_pos rfl]; have h1 : (k 1).val < 1 := (k 1).isLt; omega)

theorem idx_facts6 : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = 0
    ∧ win6_2.index t (0 : Fin 2) = t.val
    ∧ win6_2.index t (1 : Fin 2) = 0 :=
  (by decide +kernel : ∀ t : Fin grid6.N, _)

theorem flushed6_eq (c : Dev nD) (t : Fin cfg6.N) :
    (dat6 V c).flushed 2 t = ((cfg6.win 2).blk t).view.read (Elt F) (ewScale (V c main_v76) (V c main_v34)) := by
  show (cfg6.win 2).cut (grid6.coords t) ((dat6 V c).after 2 t) = _
  rw [after6_2]
  unfold out6_2
  rw [View.canon_unit_zero ew_zero_offsets]
  simp only [View.ld_unit_zero (S := S10000x64) ew_zero_offsets, View.ld_unit_zero (S := S10000x1) ew_zero_offsets]
  obtain ⟨e0, e1, e2, e3, e4, e5⟩ := idx_facts6 t
  funext j
  refine (pay6_apply (iblk6 V c 0 t) (iblk6 V c 1 t) j (ValueIdx.ix2 ⟨(j 0).val, (j 0).isLt⟩ ⟨0, Nat.one_pos⟩) rfl).trans ?_
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb (ValueIdx.ix2 ⟨(j 0).val, (j 0).isLt⟩ ⟨0, Nat.one_pos⟩) = ewCol (((cfg6.win 2).blk t).view.emb j) := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 1 + 1 * 0 = 0; omega
  show FloatOps.mulf (V c main_v76 (((cfg6.win 0).blk t).view.emb j)) (V c main_v34 (((cfg6.win 1).blk t).view.emb (ValueIdx.ix2 ⟨(j 0).val, (j 0).isLt⟩ ⟨0, Nat.one_pos⟩)))
    = FloatOps.mulf (V c main_v76 (((cfg6.win 2).blk t).view.emb j)) (V c main_v34 (ewCol (((cfg6.win 2).blk t).view.emb j)))
  rw [h0, h1]

theorem mem_blk6 (t : Fin cfg6.N) (i : S1000000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v77).slice (win6_2.rect t)).set ↔ _
  rw [View.set_slice_whole, Rect.mem_set_unit]
  exact Iff.rfl

theorem covered6 (i : S1000000x64.Idx) : ∃ t : Fin cfg6.N, (cfg6.win 2).flush t = true ∧ i ∈ ((cfg6.win 2).blk t).view.set := by
  have hi0 : (i 0).val < 1000000 := (i 0).isLt
  have hi1 : (i 1).val < 64 := (i 1).isLt
  let t : Fin cfg6.N := ⟨(i 0).val / 10000, by show _ < 100; omega⟩
  obtain ⟨e0, e1, e2, e3, e4, e5⟩ := idx_facts6 t
  have e4' : win6_2.index t (0 : Fin 2) = (i 0).val / 10000 := e4
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

theorem final6 (c : Dev nD) : (dat6 V c).arrAt 2 cfg6.N = ewScale (V c main_v76) (V c main_v34) :=
  (dat6 V c).arrAt_eq_of_cover 2 (ewScale (V c main_v76) (V c main_v34)) (fun t _ => flushed6_eq V c t) covered6

end AnyFloat

section AtIdeal

variable (V : (c : Dev nD) → (b : Ref sig .tc) → Buf (Elt Ideal) ((c : Thread nD τ).loc b))

theorem val1 (c : Dev nD) (i : S1000000x64.Idx) :
    (dat1 (F := Ideal) V c).arrAt 2 cfg1.N i = (FloatOps.mulf (V c main_v41 i) (V c main_v33 i) : Ideal .f32) :=
  congrFun (final1 V c) i

theorem val5 (c : Dev nD) (i : S1000000x64.Idx) :
    (dat5 (F := Ideal) V c).arrAt 2 cfg5.N i = (FloatOps.mulf (V c main_v65 i) (V c main_v33 i) : Ideal .f32) :=
  congrFun (final5 V c) i

theorem val2 (c : Dev nD) (i : S1000000x64.Idx) :
    (dat2 (F := Ideal) V c).arrAt 2 cfg2.N i
      = (FloatOps.mulf (V c main_v34 (ValueIdx.ix2 ⟨(i 0).val, (i 0).isLt⟩ ⟨0, Nat.one_pos⟩)) (V c main_v52 i) : Ideal .f32) :=
  (congrFun (final2 V c) i).trans (@mul_comm EReal _ (V c main_v52 i) (V c main_v34 (ewCol i)))

theorem val6 (c : Dev nD) (i : S1000000x64.Idx) :
    (dat6 (F := Ideal) V c).arrAt 2 cfg6.N i
      = (FloatOps.mulf (V c main_v34 (ValueIdx.ix2 ⟨(i 0).val, (i 0).isLt⟩ ⟨0, Nat.one_pos⟩)) (V c main_v76 i) : Ideal .f32) :=
  (congrFun (final6 V c) i).trans (@mul_comm EReal _ (V c main_v76 i) (V c main_v34 (ewCol i)))

end AtIdeal

end Cert.KernelIdeal.Hand

end
-- ==== Proof.KIVal37.lean ====
import proofs.«407999_j84894323573127_3_alg».proof.Proof.KIR3
import proofs.«407999_j84894323573127_3_alg».proof.Proof.KIR7
import proofs.«407999_j84894323573127_3_alg».proof.Proof.RefRun
import proofs.«407999_j84894323573127_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

def normRow (a : Fin 64 → EReal) (d : EReal) (j : Fin 64) : EReal :=
  Ideal.div (Ideal.div (a j) d)
    (max (Ideal.sqrt (∑ k : Fin 64, Ideal.div (a k) d * Ideal.div (a k) d)) (Ideal.ofBits .f32 0x2B8CBCCC#32))

def rowNorm (A : S250000x64.Idx → EReal) (D : S250000x1.Idx → EReal) : S250000x64.Idx → EReal := fun i =>
  normRow (fun k => A (ix2 (i 0) k)) (D (ix2 (i 0) (0 : Fin 1))) (i 1)

theorem rowNorm_ix2 (A : S250000x64.Idx → EReal) (D : S250000x1.Idx → EReal) (r : Fin 250000) (q : Fin 64) :
    rowNorm A D (ix2 r q) = normRow (fun k => A (ix2 r k)) (D (ix2 r (0 : Fin 1))) q := rfl

theorem rowSum_apply (v : FVec Ideal S5000x64 .f32) (hr : S5000x64.Reduces [1] S5000) (hc : S5000.ShapeCasts S5000x1)
    (hφ : FKind.Formats .f32) (hacc : (0x00000000#32 : BitVec 32) = FKind.add.neutral .f32 hφ) (p : Fin 5000) (u : Fin 1) :
    shapeCast S5000x1 (multiReduction .add [1] S5000 v 0x00000000#32 hr hφ hacc) hc (ix2 p u) = ∑ k : Fin 64, v (ix2 p k) := by
  refine (Columns.shapeCast_a_a1_apply _ hc p u).trans ?_
  refine (Ideal.multiReduction_add_single v _ hr hφ hacc (ix1 p)).trans ?_
  refine Finset.sum_congr rfl fun k _ => congrArg v ?_
  funext a
  match a with
  | ⟨0, _⟩ => rfl
  | ⟨1, _⟩ => rfl

theorem pay3_1_apply (x0 : Vec Ideal S5000x64 .f32) (x1 : Vec Ideal S5000x1 .f32) (p : Fin 5000) (q : Fin 64) :
    k3_pay1 x0 x1 (ix2 p q) = normRow (fun k => x0 (ix2 p k)) (x1 (ix2 p (0 : Fin 1))) q := by
  unfold k3_pay1 normRow
  simp only [shapeCast_self]
  rw [divf_apply]
  refine congrArg₂ Ideal.div ?_ ?_
  · rw [divf_apply]
    exact congrArg (Ideal.div _) (Columns.broadcastTo_a1_ab_apply _ _ p q)
  · refine (Columns.broadcastTo_a1_ab_apply _ _ p q).trans ?_
    rw [maximumf_apply]
    refine congrArg₂ max ?_ rfl
    refine (congrArg Ideal.sqrt (rowSum_apply _ _ _ _ _ p 0)).trans (congrArg Ideal.sqrt ?_)
    refine Finset.sum_congr rfl fun k _ => ?_
    have e : (divf (x0 : FVec Ideal S5000x64 .f32) (broadcastTo S5000x64 (x1 : FVec Ideal S5000x1 .f32) broadcasts_S5000x1_S5000x64) : FVec Ideal S5000x64 .f32) (ix2 p k) = Ideal.div (x0 (ix2 p k)) (x1 (ix2 p (0 : Fin 1))) := by
      rw [divf_apply]
      exact congrArg (Ideal.div _) (Columns.broadcastTo_a1_ab_apply _ _ p k)
    rw [mulf_apply, e]

theorem pay3_2_apply (x0 : Vec Ideal S5000x64 .f32) (x1 : Vec Ideal S5000x1 .f32) (x2 : Vec Ideal S5000x64 .f32) (p : Fin 5000) (q : Fin 64) :
    k3_pay2 x0 x1 x2 (ix2 p q) = x2 (ix2 p q) + normRow (fun k => x0 (ix2 p k)) (x1 (ix2 p (0 : Fin 1))) q := by
  unfold k3_pay2
  rw [addf_apply, pay3_1_apply]

theorem pay7_1_eq : k7_pay1 (F := Ideal) = k3_pay1 (F := Ideal) := rfl

theorem pay7_2_apply (x0 : Vec Ideal S5000x64 .f32) (x1 : Vec Ideal S5000x1 .f32) (x2 : Vec Ideal S5000x64 .f32) (p : Fin 5000) (q : Fin 64) :
    k7_pay2 x0 x1 x2 (ix2 p q) = x2 (ix2 p q) + normRow (fun k => x0 (ix2 p k)) (x1 (ix2 p (0 : Fin 1))) q := by
  unfold k7_pay2
  simp only [shapeCast_self]
  rw [addf_apply, pay7_1_eq, pay3_1_apply]

variable (V : (c : Dev nD) → (b : Ref sig .tc) → Buf (Elt Ideal) ((c : Thread nD τ).loc b))

theorem hz37 : (![0, 0] : Fin 2 → Nat) = fun _ => 0 := funext fun a => by fin_cases a <;> rfl

theorem out3_3_apply (x0 : Vec Ideal S5000x64 .f32) (x1 : Vec Ideal S5000x1 .f32) (y : S5000x64.Idx) :
    out3_3 x0 x1 y = normRow (fun k => x0 (ix2 (y 0) k)) (x1 (ix2 (y 0) (0 : Fin 1))) (y 1) := by
  obtain ⟨p, q, rfl⟩ : ∃ (p : Fin 5000) (q : Fin 64), y = ix2 p q := ⟨y 0, y 1, eq_ix2 y⟩
  unfold out3_3
  rw [View.canon_unit_zero hz37]
  simp only [View.ld_unit_zero (S := S5000x64) hz37, View.ld_unit_zero (S := S5000x1) hz37]
  exact pay3_1_apply x0 x1 p q

theorem out3_4_apply (x0 : Vec Ideal S5000x64 .f32) (x1 : Vec Ideal S5000x1 .f32) (x2 : Vec Ideal S5000x64 .f32) (y : S5000x64.Idx) :
    out3_4 x0 x1 x2 y = x2 y + normRow (fun k => x0 (ix2 (y 0) k)) (x1 (ix2 (y 0) (0 : Fin 1))) (y 1) := by
  obtain ⟨p, q, rfl⟩ : ∃ (p : Fin 5000) (q : Fin 64), y = ix2 p q := ⟨y 0, y 1, eq_ix2 y⟩
  unfold out3_4
  rw [View.canon_unit_zero hz37]
  simp only [View.ld_unit_zero (S := S5000x64) hz37, View.ld_unit_zero (S := S5000x1) hz37]
  exact pay3_2_apply x0 x1 x2 p q

theorem out7_3_apply (x0 : Vec Ideal S5000x64 .f32) (x1 : Vec Ideal S5000x1 .f32) (y : S5000x64.Idx) :
    out7_3 x0 x1 y = normRow (fun k => x0 (ix2 (y 0) k)) (x1 (ix2 (y 0) (0 : Fin 1))) (y 1) := by
  obtain ⟨p, q, rfl⟩ : ∃ (p : Fin 5000) (q : Fin 64), y = ix2 p q := ⟨y 0, y 1, eq_ix2 y⟩
  unfold out7_3
  rw [View.canon_unit_zero hz37]
  simp only [View.ld_unit_zero (S := S5000x64) hz37, View.ld_unit_zero (S := S5000x1) hz37]
  rw [pay7_1_eq]
  exact pay3_1_apply x0 x1 p q

theorem out7_4_apply (x0 : Vec Ideal S5000x64 .f32) (x1 : Vec Ideal S5000x1 .f32) (x2 : Vec Ideal S5000x64 .f32) (y : S5000x64.Idx) :
    out7_4 x0 x1 x2 y = x2 y + normRow (fun k => x0 (ix2 (y 0) k)) (x1 (ix2 (y 0) (0 : Fin 1))) (y 1) := by
  obtain ⟨p, q, rfl⟩ : ∃ (p : Fin 5000) (q : Fin 64), y = ix2 p q := ⟨y 0, y 1, eq_ix2 y⟩
  unfold out7_4
  rw [View.canon_unit_zero hz37]
  simp only [View.ld_unit_zero (S := S5000x64) hz37, View.ld_unit_zero (S := S5000x1) hz37]
  exact pay7_2_apply x0 x1 x2 p q

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (y : S5000x64.Idx) (i : S250000x64.Idx)
    (h0 : (i 0).val = 5000 * t.val + (y 0).val) (h1 : (i 1).val = (y 1).val) :
    (iblk3 V c 0 t : Vec Ideal S5000x64 .f32) y = (V c main_v45 : S250000x64.Idx → EReal) i := by
  obtain ⟨e0, e1, -⟩ := idx_facts3 t
  show V c main_v45 (((cfg3.win 0).blk t).view.emb y) = _
  refine congrArg (V c main_v45) ?_
  funext a; apply Fin.ext
  match a with
  | ⟨0, _⟩ => show win3_0.index t (0 : Fin 2) * 5000 + 1 * (y 0).val = (i 0).val; omega
  | ⟨1, _⟩ => show win3_0.index t (1 : Fin 2) * 64 + 1 * (y 1).val = (i 1).val; omega

theorem iblk3_1_apply (c : Dev nD) (t : Fin cfg3.N) (y : S5000x1.Idx) (i : S250000x1.Idx)
    (h0 : (i 0).val = 5000 * t.val + (y 0).val) :
    (iblk3 V c 1 t : Vec Ideal S5000x1 .f32) y = (V c main_v18 : S250000x1.Idx → EReal) i := by
  obtain ⟨-, -, e0, e1, -⟩ := idx_facts3 t
  show V c main_v18 (((cfg3.win 1).blk t).view.emb y) = _
  refine congrArg (V c main_v18) ?_
  funext a; apply Fin.ext
  have hy : (y 1).val < 1 := (y 1).isLt
  have hi : (i 1).val < 1 := (i 1).isLt
  match a with
  | ⟨0, _⟩ => show win3_1.index t (0 : Fin 2) * 5000 + 1 * (y 0).val = (i 0).val; omega
  | ⟨1, _⟩ => show win3_1.index t (1 : Fin 2) * 1 + 1 * (y 1).val = (i 1).val; omega

theorem iblk3_2_apply (c : Dev nD) (t : Fin cfg3.N) (y : S5000x64.Idx) (i : S250000x64.Idx)
    (h0 : (i 0).val = 5000 * t.val + (y 0).val) (h1 : (i 1).val = (y 1).val) :
    (iblk3 V c 2 t : Vec Ideal S5000x64 .f32) y = (V c main_arg1 : S250000x64.Idx → EReal) i := by
  obtain ⟨-, -, -, -, e0, e1, -⟩ := idx_facts3 t
  show V c main_arg1 (((cfg3.win 2).blk t).view.emb y) = _
  refine congrArg (V c main_arg1) ?_
  funext a; apply Fin.ext
  match a with
  | ⟨0, _⟩ => show win3_2.index t (0 : Fin 2) * 5000 + 1 * (y 0).val = (i 0).val; omega
  | ⟨1, _⟩ => show win3_2.index t (1 : Fin 2) * 64 + 1 * (y 1).val = (i 1).val; omega

theorem flushed3_3_eq (c : Dev nD) (t : Fin cfg3.N) :
    (dat3 V c).flushed 3 t = ((cfg3.win 3).blk t).view.read (Elt Ideal) (rowNorm (V c main_v45) (V c main_v18)) := by
  show (cfg3.win 3).cut (grid3.coords t) ((dat3 V c).after 3 t) = _
  rw [after3_3]
  funext j
  obtain ⟨-, -, -, -, -, -, e0, e1, -⟩ := idx_facts3 t
  have hr : ((((cfg3.win 3).blk t).view.emb j) 0).val = 5000 * t.val + (j 0).val := by
    show win3_3.index t (0 : Fin 2) * 5000 + 1 * (j 0).val = _; omega
  refine (out3_3_apply _ _ j).trans ?_
  show normRow _ _ _ = normRow _ _ _
  refine congr (congr (congrArg normRow (funext fun k => ?_)) ?_) ?_
  · exact iblk3_0_apply V c t _ _ hr rfl
  · exact iblk3_1_apply V c t _ _ hr
  · apply Fin.ext
    show (j 1).val = win3_3.index t (1 : Fin 2) * 64 + 1 * (j 1).val; omega

theorem flushed3_4_eq (c : Dev nD) (t : Fin cfg3.N) :
    (dat3 V c).flushed 4 t = ((cfg3.win 4).blk t).view.read (Elt Ideal)
      (fun i => FloatOps.addf (F := Ideal) (φ := .f32) ((V c main_arg1 : S250000x64.Idx → EReal) i) (rowNorm (V c main_v45) (V c main_v18) i)) := by
  show (cfg3.win 4).cut (grid3.coords t) ((dat3 V c).after 4 t) = _
  rw [after3_4]
  funext j
  obtain ⟨-, -, -, -, -, -, -, -, e0, e1⟩ := idx_facts3 t
  have hr : ((((cfg3.win 4).blk t).view.emb j) 0).val = 5000 * t.val + (j 0).val := by
    show win3_4.index t (0 : Fin 2) * 5000 + 1 * (j 0).val = _; omega
  have hq : ((((cfg3.win 4).blk t).view.emb j) 1).val = (j 1).val := by
    show win3_4.index t (1 : Fin 2) * 64 + 1 * (j 1).val = _; omega
  refine (out3_4_apply _ _ _ j).trans ?_
  show _ + normRow _ _ _ = _ + normRow _ _ _
  refine congrArg₂ (· + ·) ?_ (congr (congr (congrArg normRow (funext fun k => ?_)) ?_) ?_)
  · exact iblk3_2_apply V c t _ _ hr hq
  · exact iblk3_0_apply V c t _ _ hr rfl
  · exact iblk3_1_apply V c t _ _ hr
  · exact Fin.ext hq.symm

theorem mem_blk3_3 (t : Fin cfg3.N) (i : S250000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v57_0).slice (win3_3.rect t)).set ↔ _
  rw [View.set_slice_whole, Rect.mem_set_unit]
  exact Iff.rfl
theorem mem_blk3_4 (t : Fin cfg3.N) (i : S250000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v57_1).slice (win3_4.rect t)).set ↔ _
  rw [View.set_slice_whole, Rect.mem_set_unit]
  exact Iff.rfl

theorem covered3_3 (i : S250000x64.Idx) : ∃ t : Fin cfg3.N, (cfg3.win 3).flush t = true ∧ i ∈ ((cfg3.win 3).blk t).view.set := by
  have hi0 : (i 0).val < 250000 := (i 0).isLt
  have hi1 : (i 1).val < 64 := (i 1).isLt
  have hN : cfg3.N = 50 := N_3
  obtain ⟨t, ht⟩ : ∃ t : Fin cfg3.N, t.val = (i 0).val / 5000 := ⟨⟨(i 0).val / 5000, by omega⟩, rfl⟩
  obtain ⟨-, -, -, -, -, -, e0, e1, -⟩ := idx_facts3 t
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega
theorem covered3_4 (i : S250000x64.Idx) : ∃ t : Fin cfg3.N, (cfg3.win 4).flush t = true ∧ i ∈ ((cfg3.win 4).blk t).view.set := by
  have hi0 : (i 0).val < 250000 := (i 0).isLt
  have hi1 : (i 1).val < 64 := (i 1).isLt
  have hN : cfg3.N = 50 := N_3
  obtain ⟨t, ht⟩ : ∃ t : Fin cfg3.N, t.val = (i 0).val / 5000 := ⟨⟨(i 0).val / 5000, by omega⟩, rfl⟩
  obtain ⟨-, -, -, -, -, -, -, -, e0, e1⟩ := idx_facts3 t
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

theorem val3_e (c : Dev nD) : ∀ i, (dat3 (F := Ideal) V c).arrAt 3 cfg3.N i = rowNorm (V c main_v45) (V c main_v18) i :=
  fun i => congrFun ((dat3 V c).arrAt_eq_of_cover 3 (rowNorm (V c main_v45) (V c main_v18)) (fun t _ => flushed3_3_eq V c t) covered3_3) i

theorem val3_r (c : Dev nD) : ∀ i, (dat3 (F := Ideal) V c).arrAt 4 cfg3.N i
    = FloatOps.addf (F := Ideal) (φ := .f32) ((V c main_arg1 : S250000x64.Idx → EReal) i) (rowNorm (V c main_v45) (V c main_v18) i) :=
  fun i => congrFun ((dat3 V c).arrAt_eq_of_cover 4
    (fun i => FloatOps.addf (F := Ideal) (φ := .f32) ((V c main_arg1 : S250000x64.Idx → EReal) i) (rowNorm (V c main_v45) (V c main_v18) i))
    (fun t _ => flushed3_4_eq V c t) covered3_4) i

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

theorem iblk7_0_apply (c : Dev nD) (t : Fin cfg7.N) (y : S5000x64.Idx) (i : S250000x64.Idx)
    (h0 : (i 0).val = 5000 * t.val + (y 0).val) (h1 : (i 1).val = (y 1).val) :
    (iblk7 V c 0 t : Vec Ideal S5000x64 .f32) y = (V c main_v69 : S250000x64.Idx → EReal) i := by
  obtain ⟨e0, e1, -⟩ := idx_facts7 t
  show V c main_v69 (((cfg7.win 0).blk t).view.emb y) = _
  refine congrArg (V c main_v69) ?_
  funext a; apply Fin.ext
  match a with
  | ⟨0, _⟩ => show win7_0.index t (0 : Fin 2) * 5000 + 1 * (y 0).val = (i 0).val; omega
  | ⟨1, _⟩ => show win7_0.index t (1 : Fin 2) * 64 + 1 * (y 1).val = (i 1).val; omega

theorem iblk7_1_apply (c : Dev nD) (t : Fin cfg7.N) (y : S5000x1.Idx) (i : S250000x1.Idx)
    (h0 : (i 0).val = 5000 * t.val + (y 0).val) :
    (iblk7 V c 1 t : Vec Ideal S5000x1 .f32) y = (V c main_v18 : S250000x1.Idx → EReal) i := by
  obtain ⟨-, -, e0, e1, -⟩ := idx_facts7 t
  show V c main_v18 (((cfg7.win 1).blk t).view.emb y) = _
  refine congrArg (V c main_v18) ?_
  funext a; apply Fin.ext
  have hy : (y 1).val < 1 := (y 1).isLt
  have hi : (i 1).val < 1 := (i 1).isLt
  match a with
  | ⟨0, _⟩ => show win7_1.index t (0 : Fin 2) * 5000 + 1 * (y 0).val = (i 0).val; omega
  | ⟨1, _⟩ => show win7_1.index t (1 : Fin 2) * 1 + 1 * (y 1).val = (i 1).val; omega

theorem iblk7_2_apply (c : Dev nD) (t : Fin cfg7.N) (y : S5000x64.Idx) (i : S250000x64.Idx)
    (h0 : (i 0).val = 5000 * t.val + (y 0).val) (h1 : (i 1).val = (y 1).val) :
    (iblk7 V c 2 t : Vec Ideal S5000x64 .f32) y = (V c main_v57_1 : S250000x64.Idx → EReal) i := by
  obtain ⟨-, -, -, -, e0, e1, -⟩ := idx_facts7 t
  show V c main_v57_1 (((cfg7.win 2).blk t).view.emb y) = _
  refine congrArg (V c main_v57_1) ?_
  funext a; apply Fin.ext
  match a with
  | ⟨0, _⟩ => show win7_2.index t (0 : Fin 2) * 5000 + 1 * (y 0).val = (i 0).val; omega
  | ⟨1, _⟩ => show win7_2.index t (1 : Fin 2) * 64 + 1 * (y 1).val = (i 1).val; omega

theorem flushed7_3_eq (c : Dev nD) (t : Fin cfg7.N) :
    (dat7 V c).flushed 3 t = ((cfg7.win 3).blk t).view.read (Elt Ideal) (rowNorm (V c main_v69) (V c main_v18)) := by
  show (cfg7.win 3).cut (grid7.coords t) ((dat7 V c).after 3 t) = _
  rw [after7_3]
  funext j
  obtain ⟨-, -, -, -, -, -, e0, e1, -⟩ := idx_facts7 t
  have hr : ((((cfg7.win 3).blk t).view.emb j) 0).val = 5000 * t.val + (j 0).val := by
    show win7_3.index t (0 : Fin 2) * 5000 + 1 * (j 0).val = _; omega
  refine (out7_3_apply _ _ j).trans ?_
  show normRow _ _ _ = normRow _ _ _
  refine congr (congr (congrArg normRow (funext fun k => ?_)) ?_) ?_
  · exact iblk7_0_apply V c t _ _ hr rfl
  · exact iblk7_1_apply V c t _ _ hr
  · apply Fin.ext
    show (j 1).val = win7_3.index t (1 : Fin 2) * 64 + 1 * (j 1).val; omega

theorem flushed7_4_eq (c : Dev nD) (t : Fin cfg7.N) :
    (dat7 V c).flushed 4 t = ((cfg7.win 4).blk t).view.read (Elt Ideal)
      (fun i => FloatOps.addf (F := Ideal) (φ := .f32) ((V c main_v57_1 : S250000x64.Idx → EReal) i) (rowNorm (V c main_v69) (V c main_v18) i)) := by
  show (cfg7.win 4).cut (grid7.coords t) ((dat7 V c).after 4 t) = _
  rw [after7_4]
  funext j
  obtain ⟨-, -, -, -, -, -, -, -, e0, e1⟩ := idx_facts7 t
  have hr : ((((cfg7.win 4).blk t).view.emb j) 0).val = 5000 * t.val + (j 0).val := by
    show win7_4.index t (0 : Fin 2) * 5000 + 1 * (j 0).val = _; omega
  have hq : ((((cfg7.win 4).blk t).view.emb j) 1).val = (j 1).val := by
    show win7_4.index t (1 : Fin 2) * 64 + 1 * (j 1).val = _; omega
  refine (out7_4_apply _ _ _ j).trans ?_
  show _ + normRow _ _ _ = _ + normRow _ _ _
  refine congrArg₂ (· + ·) ?_ (congr (congr (congrArg normRow (funext fun k => ?_)) ?_) ?_)
  · exact iblk7_2_apply V c t _ _ hr hq
  · exact iblk7_0_apply V c t _ _ hr rfl
  · exact iblk7_1_apply V c t _ _ hr
  · exact Fin.ext hq.symm

theorem mem_blk7_3 (t : Fin cfg7.N) (i : S250000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v81_0).slice (win7_3.rect t)).set ↔ _
  rw [View.set_slice_whole, Rect.mem_set_unit]
  exact Iff.rfl
theorem mem_blk7_4 (t : Fin cfg7.N) (i : S250000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v81_1).slice (win7_4.rect t)).set ↔ _
  rw [View.set_slice_whole, Rect.mem_set_unit]
  exact Iff.rfl

theorem covered7_3 (i : S250000x64.Idx) : ∃ t : Fin cfg7.N, (cfg7.win 3).flush t = true ∧ i ∈ ((cfg7.win 3).blk t).view.set := by
  have hi0 : (i 0).val < 250000 := (i 0).isLt
  have hi1 : (i 1).val < 64 := (i 1).isLt
  have hN : cfg7.N = 50 := N_7
  obtain ⟨t, ht⟩ : ∃ t : Fin cfg7.N, t.val = (i 0).val / 5000 := ⟨⟨(i 0).val / 5000, by omega⟩, rfl⟩
  obtain ⟨-, -, -, -, -, -, e0, e1, -⟩ := idx_facts7 t
  refine ⟨t, flush7_3 t, ?_⟩
  rw [mem_blk7_3]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega
theorem covered7_4 (i : S250000x64.Idx) : ∃ t : Fin cfg7.N, (cfg7.win 4).flush t = true ∧ i ∈ ((cfg7.win 4).blk t).view.set := by
  have hi0 : (i 0).val < 250000 := (i 0).isLt
  have hi1 : (i 1).val < 64 := (i 1).isLt
  have hN : cfg7.N = 50 := N_7
  obtain ⟨t, ht⟩ : ∃ t : Fin cfg7.N, t.val = (i 0).val / 5000 := ⟨⟨(i 0).val / 5000, by omega⟩, rfl⟩
  obtain ⟨-, -, -, -, -, -, -, -, e0, e1⟩ := idx_facts7 t
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

theorem val7_e (c : Dev nD) : ∀ i, (dat7 (F := Ideal) V c).arrAt 3 cfg7.N i = rowNorm (V c main_v69) (V c main_v18) i :=
  fun i => congrFun ((dat7 V c).arrAt_eq_of_cover 3 (rowNorm (V c main_v69) (V c main_v18)) (fun t _ => flushed7_3_eq V c t) covered7_3) i

theorem val7_r (c : Dev nD) : ∀ i, (dat7 (F := Ideal) V c).arrAt 4 cfg7.N i
    = FloatOps.addf (F := Ideal) (φ := .f32) ((V c main_v57_1 : S250000x64.Idx → EReal) i) (rowNorm (V c main_v69) (V c main_v18) i) :=
  fun i => congrFun ((dat7 V c).arrAt_eq_of_cover 4
    (fun i => FloatOps.addf (F := Ideal) (φ := .f32) ((V c main_v57_1 : S250000x64.Idx → EReal) i) (rowNorm (V c main_v69) (V c main_v18) i))
    (fun t _ => flushed7_4_eq V c t) covered7_4) i

theorem ref_bcastCol_apply (x : S250000x1.Idx → EReal) (h : S250000x1.BroadcastsInDim S250000x64 (![0, 1] : Fin 2 → Fin S250000x64.rank))
    (r : Fin 250000) (q : Fin 64) : broadcastInDim S250000x64 ![0, 1] h x (ix2 r q) = x (ix2 r (0 : Fin 1)) :=
  broadcastInDim_apply _ h x (ix2 r q) (ix2 r (0 : Fin 1)) (fun a => match a with
    | ⟨0, _⟩ => by show r.val = if (250000 : Nat) = 1 then 0 else r.val; rw [if_neg (by decide)]
    | ⟨1, _⟩ => by show 0 = if (1 : Nat) = 1 then 0 else q.val; rw [if_pos rfl])

theorem ref_bcastRow_apply (x : S250000.Idx → EReal) (h : S250000.BroadcastsInDim S250000x1 (![0] : Fin 1 → Fin S250000x1.rank))
    (r : Fin 250000) (u : Fin 1) : broadcastInDim S250000x1 ![0] h x (ix2 r u) = x (ix1 r) :=
  broadcastInDim_apply _ h x (ix2 r u) (ix1 r) (fun a => match a with
    | ⟨0, _⟩ => by show r.val = if (250000 : Nat) = 1 then 0 else r.val; rw [if_neg (by decide)])

theorem ref_rowSum_apply (x : S250000x64.Idx → EReal) (h : S250000x64.ReducesTo [1] S250000) (hu : 0 < S_.numel) (r : Fin 250000) :
    Host.reduceAdd (F := Ideal) (φ := .f32) x (constant (F := Ideal) S_ .f32 0x00000000#32) h hu (ix1 r) = ∑ k : Fin 64, x (ix2 r k) := by
  simp only [Host.reduceAdd, Ideal.hostReduceAdd_def]
  rw [Ideal.hostReduceAdd_single h (by decide)]
  rw [constant_apply, Ideal.ofBits_zero_f32, zero_add]
  refine Finset.sum_congr rfl fun k _ => congrArg x ?_
  funext a
  match a with
  | ⟨0, _⟩ => rfl
  | ⟨1, _⟩ => rfl

theorem hostDivf_apply {s : Shape} (a b : s.Idx → EReal) (i : s.Idx) :
    Host.divf (F := Ideal) (φ := .f32) a b i = Ideal.div (a i) (b i) := rfl

theorem hostSqrt_apply {s : Shape} (a : s.Idx → EReal) (i : s.Idx) :
    Host.sqrt (F := Ideal) (φ := .f32) a i = Ideal.sqrt (a i) := rfl

theorem ref_rowNorm (A : (⟨Cert.ReferenceIdeal.S250000x64, .f32⟩ : BufTy).Contents (Elt Ideal)) (D : (⟨Cert.ReferenceIdeal.S250000x1, .f32⟩ : BufTy).Contents (Elt Ideal)) :
    Host.divf (Host.divf (F := Ideal) (φ := .f32) A (broadcastInDim Cert.ReferenceIdeal.S250000x64 ![0, 1] Cert.ReferenceIdeal.Gen.bcast_S250000x1_S250000x64_0_1 D))
      (broadcastInDim Cert.ReferenceIdeal.S250000x64 ![0, 1] Cert.ReferenceIdeal.Gen.bcast_S250000x1_S250000x64_0_1
        (maximumf
          (Host.sqrt (broadcastInDim Cert.ReferenceIdeal.S250000x1 ![0] Cert.ReferenceIdeal.Gen.bcast_S250000_S250000x1_0
            (Host.reduceAdd (mulf (Host.divf (F := Ideal) (φ := .f32) A (broadcastInDim Cert.ReferenceIdeal.S250000x64 ![0, 1] Cert.ReferenceIdeal.Gen.bcast_S250000x1_S250000x64_0_1 D)) (Host.divf (F := Ideal) (φ := .f32) A (broadcastInDim Cert.ReferenceIdeal.S250000x64 ![0, 1] Cert.ReferenceIdeal.Gen.bcast_S250000x1_S250000x64_0_1 D)))
              (constant (F := Ideal) Cert.ReferenceIdeal.S_ .f32 0x00000000#32) Cert.ReferenceIdeal.Gen.reducesTo_S250000x64_S250000_d1 Cert.ReferenceIdeal.Gen.h_S_)))
          (broadcastInDim Cert.ReferenceIdeal.S250000x1 ![] Cert.ReferenceIdeal.Gen.bcast_S_S250000x1 (constant (F := Ideal) Cert.ReferenceIdeal.S_ .f32 0x2B8CBCCC#32))))
      = rowNorm A D := by
  funext i
  obtain ⟨r, q, rfl⟩ : ∃ (r : Fin 250000) (q : Fin 64), i = ix2 r q := ⟨i 0, i 1, eq_ix2 i⟩
  have hQ : ∀ k : Fin 64, (Host.divf (F := Ideal) (φ := .f32) A (broadcastInDim Cert.ReferenceIdeal.S250000x64 ![0, 1] Cert.ReferenceIdeal.Gen.bcast_S250000x1_S250000x64_0_1 D)) (ix2 r k) = Ideal.div (A (ix2 r k)) (D (ix2 r (0 : Fin 1))) := fun k =>
    congrArg (Ideal.div _) (ref_bcastCol_apply D _ r k)
  refine (hostDivf_apply _ _ _).trans ?_
  refine Eq.trans ?_ (rowNorm_ix2 A D r q).symm
  unfold normRow
  refine congrArg₂ Ideal.div (hQ q) ?_
  refine (ref_bcastCol_apply _ _ r q).trans ?_
  rw [maximumf_apply]
  refine congrArg₂ max ?_ ?_
  · refine (hostSqrt_apply _ _).trans (congrArg Ideal.sqrt ?_)
    refine (ref_bcastRow_apply _ _ r 0).trans ?_
    refine (ref_rowSum_apply _ _ _ r).trans ?_
    refine Finset.sum_congr rfl fun k _ => ?_
    rw [mulf_apply, hQ k]
  · exact broadcastInDim_apply _ _ _ _ ix0 (fun a => a.elim0)

theorem ref_v91 (x1 : (⟨Cert.ReferenceIdeal.S250000x64, .f32⟩ : BufTy).Contents (Elt Ideal)) (x3 : (⟨Cert.ReferenceIdeal.S16x64, .f32⟩ : BufTy).Contents (Elt Ideal))
    (x6 : (⟨Cert.ReferenceIdeal.S2x1000000, .i32⟩ : BufTy).Contents (Elt Ideal)) (x7 : (⟨Cert.ReferenceIdeal.S1000000, .i32⟩ : BufTy).Contents (Elt Ideal)) :
    Cert.ReferenceIdeal.Read.val_main_v91 (F := Ideal) x1 x3 x6 x7
      = rowNorm (Cert.ReferenceIdeal.Read.val_main_v50 (F := Ideal) x1 x3 x6 x7) (Cert.ReferenceIdeal.Read.val_main_v18 (F := Ideal) x6) :=
  ref_rowNorm _ _

theorem ref_v159 (x1 : (⟨Cert.ReferenceIdeal.S250000x64, .f32⟩ : BufTy).Contents (Elt Ideal)) (x3 : (⟨Cert.ReferenceIdeal.S16x64, .f32⟩ : BufTy).Contents (Elt Ideal))
    (x6 : (⟨Cert.ReferenceIdeal.S2x1000000, .i32⟩ : BufTy).Contents (Elt Ideal)) (x7 : (⟨Cert.ReferenceIdeal.S1000000, .i32⟩ : BufTy).Contents (Elt Ideal)) :
    Cert.ReferenceIdeal.Read.val_main_v159 (F := Ideal) x1 x3 x6 x7
      = rowNorm (Cert.ReferenceIdeal.Read.val_main_v118 (F := Ideal) x1 x3 x6 x7) (Cert.ReferenceIdeal.Read.val_main_v18 (F := Ideal) x6) :=
  ref_rowNorm _ _

end Cert.KernelIdeal.Hand

end
-- ==== Proof.KIVal48.lean ====
import proofs.«407999_j84894323573127_3_alg».proof.Proof.KIR4
import proofs.«407999_j84894323573127_3_alg».proof.Proof.KIR8
import proofs.«407999_j84894323573127_3_alg».proof.Proof.RefRun
import proofs.«407999_j84894323573127_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

section Stages

theorem lhs_logit_0 (i : S5000x4.Idx) (q : dot_S5000x64_S64x4_S5000x4_1_0_0_1_n_n.contr.Idx) :
    (dot_S5000x64_S64x4_S5000x4_1_0_0_1_n_n.lhsIdx i q 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl
theorem lhs_logit_1 (i : S5000x4.Idx) (q : dot_S5000x64_S64x4_S5000x4_1_0_0_1_n_n.contr.Idx) :
    (dot_S5000x64_S64x4_S5000x4_1_0_0_1_n_n.lhsIdx i q 1).val = (q ⟨0, by decide⟩).val :=
  dot_S5000x64_S64x4_S5000x4_1_0_0_1_n_n.lhsIdx_val_of_single rfl i q
theorem rhs_logit_0 (i : S5000x4.Idx) (q : dot_S5000x64_S64x4_S5000x4_1_0_0_1_n_n.contr.Idx) :
    (dot_S5000x64_S64x4_S5000x4_1_0_0_1_n_n.rhsIdx i q 0).val = (q ⟨0, by decide⟩).val :=
  dot_S5000x64_S64x4_S5000x4_1_0_0_1_n_n.rhsIdx_val_of_single rfl i q
theorem rhs_logit_1 (i : S5000x4.Idx) (q : dot_S5000x64_S64x4_S5000x4_1_0_0_1_n_n.contr.Idx) :
    (dot_S5000x64_S64x4_S5000x4_1_0_0_1_n_n.rhsIdx i q 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

theorem logits_apply (a : FVec Ideal S5000x64 .f32) (b : FVec Ideal S64x4 .f32) (p : Fin 5000) (f : Fin 4) :
    matmul dot_S5000x64_S64x4_S5000x4_1_0_0_1_n_n none a b (constant S5000x4 .f32 0x00000000#32) (ix2 p f)
      = ∑ k : Fin 64, a (ix2 p k) * b (ix2 k f) := by
  simp only [matmul]
  rw [Ideal.matmul_constant_zero_apply, ← Equiv.sum_comp (ValueIdx.contrEquiv1 dot_S5000x64_S64x4_S5000x4_1_0_0_1_n_n 64 rfl rfl).symm]
  refine Finset.sum_congr rfl fun k _ => ?_
  have hk := ValueIdx.contrEquiv1_symm_val dot_S5000x64_S64x4_S5000x4_1_0_0_1_n_n 64 rfl rfl k
  have el : dot_S5000x64_S64x4_S5000x4_1_0_0_1_n_n.lhsIdx (ix2 p f) ((ValueIdx.contrEquiv1 dot_S5000x64_S64x4_S5000x4_1_0_0_1_n_n 64 rfl rfl).symm k) = ix2 p k := funext fun ax => Fin.ext (by
    match ax with
    | ⟨0, _⟩ => exact lhs_logit_0 _ _
    | ⟨1, _⟩ => exact (lhs_logit_1 _ _).trans hk)
  have er : dot_S5000x64_S64x4_S5000x4_1_0_0_1_n_n.rhsIdx (ix2 p f) ((ValueIdx.contrEquiv1 dot_S5000x64_S64x4_S5000x4_1_0_0_1_n_n 64 rfl rfl).symm k) = ix2 k f := funext fun ax => Fin.ext (by
    match ax with
    | ⟨0, _⟩ => exact (rhs_logit_0 _ _).trans hk
    | ⟨1, _⟩ => exact rhs_logit_1 _ _)
  rw [el, er]

theorem lhs_mix_0 (i : S5000x64.Idx) (q : dot_S5000x4_S4x64_S5000x64_1_0_0_1_n_n.contr.Idx) :
    (dot_S5000x4_S4x64_S5000x64_1_0_0_1_n_n.lhsIdx i q 0).val = (i 0).val := by
  unfold DotDims.lhsIdx
  rw [dif_neg (show ¬(0 : Fin S5000x4.rank) ∈ dot_S5000x4_S4x64_S5000x64_1_0_0_1_n_n.lhsBatch by decide), dif_pos (show (0 : Fin S5000x4.rank) ∈ dot_S5000x4_S4x64_S5000x64_1_0_0_1_n_n.lhsNonContracting by decide)]
  rfl
theorem lhs_mix_1 (i : S5000x64.Idx) (q : dot_S5000x4_S4x64_S5000x64_1_0_0_1_n_n.contr.Idx) :
    (dot_S5000x4_S4x64_S5000x64_1_0_0_1_n_n.lhsIdx i q 1).val = (q ⟨0, by decide⟩).val :=
  dot_S5000x4_S4x64_S5000x64_1_0_0_1_n_n.lhsIdx_val_of_single rfl i q
theorem rhs_mix_0 (i : S5000x64.Idx) (q : dot_S5000x4_S4x64_S5000x64_1_0_0_1_n_n.contr.Idx) :
    (dot_S5000x4_S4x64_S5000x64_1_0_0_1_n_n.rhsIdx i q 0).val = (q ⟨0, by decide⟩).val :=
  dot_S5000x4_S4x64_S5000x64_1_0_0_1_n_n.rhsIdx_val_of_single rfl i q
theorem rhs_mix_1 (i : S5000x64.Idx) (q : dot_S5000x4_S4x64_S5000x64_1_0_0_1_n_n.contr.Idx) :
    (dot_S5000x4_S4x64_S5000x64_1_0_0_1_n_n.rhsIdx i q 1).val = (i 1).val := by
  unfold DotDims.rhsIdx
  rw [dif_neg (show ¬(1 : Fin S4x64.rank) ∈ dot_S5000x4_S4x64_S5000x64_1_0_0_1_n_n.rhsBatch by decide), dif_pos (show (1 : Fin S4x64.rank) ∈ dot_S5000x4_S4x64_S5000x64_1_0_0_1_n_n.rhsNonContracting by decide)]
  rfl

theorem mixes_apply (s : FVec Ideal S5000x4 .f32) (b : FVec Ideal S4x64 .f32) (p : Fin 5000) (j : Fin 64) :
    matmul dot_S5000x4_S4x64_S5000x64_1_0_0_1_n_n none s b (constant S5000x64 .f32 0x00000000#32) (ix2 p j)
      = ∑ f : Fin 4, s (ix2 p f) * b (ix2 f j) := by
  simp only [matmul]
  rw [Ideal.matmul_constant_zero_apply, ← Equiv.sum_comp (ValueIdx.contrEquiv1 dot_S5000x4_S4x64_S5000x64_1_0_0_1_n_n 4 rfl rfl).symm]
  refine Finset.sum_congr rfl fun k _ => ?_
  have hk := ValueIdx.contrEquiv1_symm_val dot_S5000x4_S4x64_S5000x64_1_0_0_1_n_n 4 rfl rfl k
  have el : dot_S5000x4_S4x64_S5000x64_1_0_0_1_n_n.lhsIdx (ix2 p j) ((ValueIdx.contrEquiv1 dot_S5000x4_S4x64_S5000x64_1_0_0_1_n_n 4 rfl rfl).symm k) = ix2 p k := funext fun ax => Fin.ext (by
    match ax with
    | ⟨0, _⟩ => exact lhs_mix_0 _ _
    | ⟨1, _⟩ => exact (lhs_mix_1 _ _).trans hk)
  have er : dot_S5000x4_S4x64_S5000x64_1_0_0_1_n_n.rhsIdx (ix2 p j) ((ValueIdx.contrEquiv1 dot_S5000x4_S4x64_S5000x64_1_0_0_1_n_n 4 rfl rfl).symm k) = ix2 k j := funext fun ax => Fin.ext (by
    match ax with
    | ⟨0, _⟩ => exact (rhs_mix_0 _ _).trans hk
    | ⟨1, _⟩ => exact rhs_mix_1 _ _)
  rw [el, er]

theorem laneMax4_apply (l : FVec Ideal S5000x4 .f32) (p : Fin 5000) :
    multiReduction .maximumf [1] S5000 l 0xFF800000#32 reduces_S5000x4_S5000 (.inl rfl) rfl (ix1 p)
      = (Finset.univ : Finset (Fin 4)).fold max (Ideal.ofBits .f32 0xFF800000#32) (fun f => l (ix2 p f)) := by
  refine (Ideal.multiReduction_maximumf_single l _ reduces_S5000x4_S5000 (.inl rfl) rfl (ix1 p)).trans ?_
  refine congrArg (Finset.fold max _ · Finset.univ) (funext fun f => congrArg l (funext fun ax => Fin.ext ?_))
  match ax with
  | ⟨0, _⟩ => rfl
  | ⟨1, _⟩ => rfl

theorem laneSum4_apply (e : FVec Ideal S5000x4 .f32) (p : Fin 5000) :
    multiReduction .add [1] S5000 e 0x00000000#32 reduces_S5000x4_S5000 (.inl rfl) rfl (ix1 p) = ∑ f : Fin 4, e (ix2 p f) := by
  refine (Ideal.multiReduction_add_single e _ reduces_S5000x4_S5000 (.inl rfl) rfl (ix1 p)).trans ?_
  refine Finset.sum_congr rfl fun f _ => congrArg e (funext fun ax => Fin.ext ?_)
  match ax with
  | ⟨0, _⟩ => rfl
  | ⟨1, _⟩ => rfl

theorem laneSum64_apply (e : FVec Ideal S5000x64 .f32) (p : Fin 5000) :
    multiReduction .add [1] S5000 e 0x00000000#32 reduces_S5000x64_S5000 (.inl rfl) rfl (ix1 p) = ∑ j : Fin 64, e (ix2 p j) := by
  refine (Ideal.multiReduction_add_single e _ reduces_S5000x64_S5000 (.inl rfl) rfl (ix1 p)).trans ?_
  refine Finset.sum_congr rfl fun j _ => congrArg e (funext fun ax => Fin.ext ?_)
  match ax with
  | ⟨0, _⟩ => rfl
  | ⟨1, _⟩ => rfl

theorem rowCol4_apply (v : FVec Ideal S5000 .f32) (p : Fin 5000) (f : Fin 4) :
    broadcastTo S5000x4 (shapeCast S5000x1 v shapeCasts_S5000_S5000x1) broadcasts_S5000x1_S5000x4 (ix2 p f) = v (ix1 p) := by
  rw [Cert.Columns.broadcastTo_a1_ab_apply, Cert.Columns.shapeCast_a_a1_apply]

theorem col64_apply (v : FVec Ideal S5000x1 .f32) (p : Fin 5000) (j : Fin 64) :
    broadcastTo S5000x64 v broadcasts_S5000x1_S5000x64 (ix2 p j) = v (ix2 p (0 : Fin 1)) :=
  Cert.Columns.broadcastTo_a1_ab_apply v _ p j

theorem rowCol_apply (v : FVec Ideal S5000 .f32) (p : Fin 5000) (u : Fin 1) :
    shapeCast S5000x1 v shapeCasts_S5000_S5000x1 (ix2 p u) = v (ix1 p) :=
  Cert.Columns.shapeCast_a_a1_apply v _ p u

end Stages

def logit (urow : Fin 64 → EReal) (Lt : S64x4.Idx → EReal) (f : Fin 4) : EReal :=
  ∑ k : Fin 64, urow k * Lt (ix2 k f)

def rowTop (urow : Fin 64 → EReal) (Lt : S64x4.Idx → EReal) : EReal :=
  max (Ideal.ofBits .f32 0xFF800000#32)
    ((Finset.univ : Finset (Fin 4)).fold max (Ideal.ofBits .f32 0xFF800000#32) (fun f => logit urow Lt f))

def expo (urow : Fin 64 → EReal) (Lt : S64x4.Idx → EReal) (f : Fin 4) : EReal :=
  Ideal.exp (logit urow Lt f - rowTop urow Lt)

def weight (urow : Fin 64 → EReal) (Lt : S64x4.Idx → EReal) (f : Fin 4) : EReal :=
  Ideal.div (expo urow Lt f) (∑ f' : Fin 4, expo urow Lt f')

def mixAt (urow : Fin 64 → EReal) (Lt : S64x4.Idx → EReal) (M : S4x64.Idx → EReal) (j : Fin 64) : EReal :=
  ∑ f : Fin 4, weight urow Lt f * M (ix2 f j)

def gatedAt (urow : Fin 64 → EReal) (Lt : S64x4.Idx → EReal) (M : S4x64.Idx → EReal) (grow : Fin 64 → EReal) (j : Fin 64) : EReal :=
  grow j * mixAt urow Lt M j + grow j

def rowStep (urow : Fin 64 → EReal) (Lt : S64x4.Idx → EReal) (M : S4x64.Idx → EReal) (grow : Fin 64 → EReal) (j : Fin 64) : EReal :=
  Ideal.div (gatedAt urow Lt M grow j)
    (max (Ideal.sqrt (∑ j' : Fin 64, gatedAt urow Lt M grow j' * gatedAt urow Lt M grow j')) (Ideal.ofBits .f32 0x2B8CBCCC#32))

def userStep (u : S150000x64.Idx → EReal) (Lt : S64x4.Idx → EReal) (M : S4x64.Idx → EReal) (g : S150000x64.Idx → EReal) :
    S150000x64.Idx → EReal :=
  fun i => rowStep (fun k => u (ix2 (i 0) k)) Lt M (fun j => g (ix2 (i 0) j)) (i 1)

theorem exp_apply' {s : Shape} (a : FVec Ideal s .f32) (i : s.Idx) : exp a i = Ideal.exp (a i) := rfl
theorem sqrt_apply' {s : Shape} (a : FVec Ideal s .f32) (i : s.Idx) : sqrt a i = Ideal.sqrt (a i) := rfl

theorem k8_pay1_apply (x0 : Vec Ideal S5000x64 .f32) (x1 : Vec Ideal S64x4 .f32) (x2 : Vec Ideal S4x64 .f32)
    (x3 : Vec Ideal S5000x64 .f32) (p : Fin 5000) (q : Fin 64) :
    k8_pay1 x0 x1 x2 x3 (ix2 p q) = rowStep (fun k => x0 (ix2 p k)) x1 x2 (fun j => x3 (ix2 p j)) q := by
  unfold k8_pay1
  simp only [shapeCast_self]
  simp only [divf_apply, addf_apply, mulf_apply, subf_apply, maximumf_apply, broadcast_apply, exp_apply', sqrt_apply',
    col64_apply, rowCol_apply, rowCol4_apply, mixes_apply, logits_apply]
  rw [laneSum64_apply]
  simp only [divf_apply, addf_apply, mulf_apply, subf_apply, maximumf_apply, broadcast_apply, exp_apply', sqrt_apply',
    col64_apply, rowCol_apply, rowCol4_apply, mixes_apply, logits_apply]
  rw [laneSum4_apply]
  simp only [divf_apply, addf_apply, mulf_apply, subf_apply, maximumf_apply, broadcast_apply, exp_apply', sqrt_apply',
    col64_apply, rowCol_apply, rowCol4_apply, mixes_apply, logits_apply]
  rw [laneMax4_apply]
  simp only [divf_apply, addf_apply, mulf_apply, subf_apply, maximumf_apply, broadcast_apply, exp_apply', sqrt_apply',
    col64_apply, rowCol_apply, rowCol4_apply, mixes_apply, logits_apply]
  rfl

theorem k4_pay1_apply (x0 : Vec Ideal S5000x64 .f32) (x1 : Vec Ideal S64x4 .f32) (x2 : Vec Ideal S4x64 .f32)
    (x3 : Vec Ideal S5000x64 .f32) (p : Fin 5000) (q : Fin 64) :
    k4_pay1 x0 x1 x2 x3 (ix2 p q) = rowStep (fun k => x0 (ix2 p k)) x1 x2 (fun j => x3 (ix2 p j)) q := by
  unfold k4_pay1
  simp only [shapeCast_self]
  simp only [divf_apply, addf_apply, mulf_apply, subf_apply, maximumf_apply, broadcast_apply, exp_apply', sqrt_apply',
    col64_apply, rowCol_apply, rowCol4_apply, mixes_apply, logits_apply]
  rw [laneSum64_apply]
  simp only [divf_apply, addf_apply, mulf_apply, subf_apply, maximumf_apply, broadcast_apply, exp_apply', sqrt_apply',
    col64_apply, rowCol_apply, rowCol4_apply, mixes_apply, logits_apply]
  rw [laneSum4_apply]
  simp only [divf_apply, addf_apply, mulf_apply, subf_apply, maximumf_apply, broadcast_apply, exp_apply', sqrt_apply',
    col64_apply, rowCol_apply, rowCol4_apply, mixes_apply, logits_apply]
  rw [laneMax4_apply]
  simp only [divf_apply, addf_apply, mulf_apply, subf_apply, maximumf_apply, broadcast_apply, exp_apply', sqrt_apply',
    col64_apply, rowCol_apply, rowCol4_apply, mixes_apply, logits_apply]
  rfl

theorem k8_pay2_apply (x0 : Vec Ideal S5000x64 .f32) (x1 : Vec Ideal S64x4 .f32) (x2 : Vec Ideal S4x64 .f32)
    (x3 x4 : Vec Ideal S5000x64 .f32) (i : S5000x64.Idx) :
    k8_pay2 x0 x1 x2 x3 x4 i = FloatOps.addf (x4 i) (k8_pay1 x0 x1 x2 x3 i) := by
  unfold k8_pay2
  simp only [shapeCast_self]
  rfl
theorem k4_pay2_apply (x0 : Vec Ideal S5000x64 .f32) (x1 : Vec Ideal S64x4 .f32) (x2 : Vec Ideal S4x64 .f32)
    (x3 x4 : Vec Ideal S5000x64 .f32) (i : S5000x64.Idx) :
    k4_pay2 x0 x1 x2 x3 x4 i = FloatOps.addf (x4 i) (k4_pay1 x0 x1 x2 x3 i) := by
  unfold k4_pay2
  rfl

theorem hz2 : (![0, 0] : Fin 2 → Nat) = fun _ => 0 := funext fun a => by fin_cases a <;> rfl

theorem userStep_eq_rowStep (u : S150000x64.Idx → EReal) (Lt : S64x4.Idx → EReal) (M : S4x64.Idx → EReal) (g : S150000x64.Idx → EReal)
    (i : S150000x64.Idx) (urow : Fin 64 → EReal) (Lt' : S64x4.Idx → EReal) (M' : S4x64.Idx → EReal) (grow : Fin 64 → EReal) (q : Fin 64)
    (hu : ∀ k, u (ix2 (i 0) k) = urow k) (hL : Lt = Lt') (hM : M = M') (hg : ∀ j, g (ix2 (i 0) j) = grow j) (hq : i 1 = q) :
    userStep u Lt M g i = rowStep urow Lt' M' grow q := by
  subst hL hM hq
  unfold userStep
  rw [show (fun k => u (ix2 (i 0) k)) = urow from funext hu, show (fun j => g (ix2 (i 0) j)) = grow from funext hg]

section Region8

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

theorem iblk8_0_apply (c : Dev nD) (t : Fin cfg8.N) (p : Fin 5000) (k : Fin 64) (r : Fin 150000) (hr : r.val = 5000 * t.val + p.val) :
    (iblk8 V c 0 t : Vec Ideal S5000x64 .f32) (ix2 p k) = (V c main_v58_0 : S150000x64.Idx → EReal) (ix2 r k) := by
  obtain ⟨e0, e1, -⟩ := idx_facts8 t
  unfold iblk8
  rw [View.read_apply]
  show (V c main_v58_0 : S150000x64.Idx → EReal) _ = _
  refine congrArg _ (funext fun a => Fin.ext ?_)
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

theorem iblk8_3_apply (c : Dev nD) (t : Fin cfg8.N) (p : Fin 5000) (k : Fin 64) (r : Fin 150000) (hr : r.val = 5000 * t.val + p.val) :
    (iblk8 V c 3 t : Vec Ideal S5000x64 .f32) (ix2 p k) = (V c main_v80 : S150000x64.Idx → EReal) (ix2 r k) := by
  obtain ⟨-, -, -, -, -, -, e0, e1, -⟩ := idx_facts8 t
  unfold iblk8
  rw [View.read_apply]
  show (V c main_v80 : S150000x64.Idx → EReal) _ = _
  refine congrArg _ (funext fun a => Fin.ext ?_)
  match a with
  | ⟨0, _⟩ => show win8_3.index t (0 : Fin 2) * 5000 + 1 * p.val = r.val; rw [e0, hr]; omega
  | ⟨1, _⟩ => show win8_3.index t (1 : Fin 2) * 64 + 1 * k.val = k.val; rw [e1]; omega

theorem iblk8_4_apply (c : Dev nD) (t : Fin cfg8.N) (p : Fin 5000) (k : Fin 64) (r : Fin 150000) (hr : r.val = 5000 * t.val + p.val) :
    (iblk8 V c 4 t : Vec Ideal S5000x64 .f32) (ix2 p k) = (V c main_v58_1 : S150000x64.Idx → EReal) (ix2 r k) := by
  obtain ⟨-, -, -, -, -, -, -, -, e0, e1, -⟩ := idx_facts8 t
  unfold iblk8
  rw [View.read_apply]
  show (V c main_v58_1 : S150000x64.Idx → EReal) _ = _
  refine congrArg _ (funext fun a => Fin.ext ?_)
  match a with
  | ⟨0, _⟩ => show win8_4.index t (0 : Fin 2) * 5000 + 1 * p.val = r.val; rw [e0, hr]; omega
  | ⟨1, _⟩ => show win8_4.index t (1 : Fin 2) * 64 + 1 * k.val = k.val; rw [e1]; omega

theorem iblk8_1_eq (c : Dev nD) (t : Fin cfg8.N) : (iblk8 V c 1 t : Vec Ideal S64x4 .f32) = (V c main_v31 : S64x4.Idx → EReal) := by
  obtain ⟨-, -, e0, e1, -⟩ := idx_facts8 t
  funext y
  unfold iblk8
  rw [View.read_apply]
  show (V c main_v31 : S64x4.Idx → EReal) _ = _
  refine congrArg _ (funext fun a => Fin.ext ?_)
  match a with
  | ⟨0, _⟩ => show win8_1.index t (0 : Fin 2) * 64 + 1 * (y 0).val = (y 0).val; rw [e0]; omega
  | ⟨1, _⟩ => show win8_1.index t (1 : Fin 2) * 4 + 1 * (y 1).val = (y 1).val; rw [e1]; omega

theorem iblk8_2_eq (c : Dev nD) (t : Fin cfg8.N) : (iblk8 V c 2 t : Vec Ideal S4x64 .f32) = (V c main_v30 : S4x64.Idx → EReal) := by
  obtain ⟨-, -, -, -, e0, e1, -⟩ := idx_facts8 t
  funext y
  unfold iblk8
  rw [View.read_apply]
  show (V c main_v30 : S4x64.Idx → EReal) _ = _
  refine congrArg _ (funext fun a => Fin.ext ?_)
  match a with
  | ⟨0, _⟩ => show win8_2.index t (0 : Fin 2) * 4 + 1 * (y 0).val = (y 0).val; rw [e0]; omega
  | ⟨1, _⟩ => show win8_2.index t (1 : Fin 2) * 64 + 1 * (y 1).val = (y 1).val; rw [e1]; omega

theorem flushed8_5_eq (c : Dev nD) (t : Fin cfg8.N) :
    (dat8 (F := Ideal) V c).flushed 5 t = ((cfg8.win 5).blk t).view.read (Elt Ideal)
      (userStep (V c main_v58_0) (V c main_v31) (V c main_v30) (V c main_v80)) := by
  show (cfg8.win 5).cut (grid8.coords t) ((dat8 V c).after 5 t) = _
  rw [after8_5]
  unfold out8_5
  rw [View.canon_unit_zero hz2]
  simp only [View.ld_unit_zero (S := S5000x64) hz2, View.ld_unit_zero (S := S64x4) hz2, View.ld_unit_zero (S := S4x64) hz2]
  funext j
  obtain ⟨p, q, rfl⟩ : ∃ (p : Fin 5000) (q : Fin 64), j = ix2 p q := ⟨j 0, j 1, eq_ix2 j⟩
  obtain ⟨-, -, -, -, -, -, -, -, -, -, e0, e1, -⟩ := idx_facts8 t
  have ht : t.val < 30 := t.isLt
  rw [View.read_apply]
  show k8_pay1 (iblk8 V c 0 t) (iblk8 V c 1 t) (iblk8 V c 2 t) (iblk8 V c 3 t) (ix2 p q) = _
  refine (k8_pay1_apply _ _ _ _ p q).trans (Eq.symm ?_)
  have h0 : ((((cfg8.win 5).blk t).view.emb (ix2 p q) : S150000x64.Idx) 0).val = 5000 * t.val + p.val := by
    show win8_5.index t (0 : Fin 2) * 5000 + 1 * p.val = _; rw [e0]; omega
  have h1 : (((cfg8.win 5).blk t).view.emb (ix2 p q) : S150000x64.Idx) 1 = q := Fin.ext (by
    show win8_5.index t (1 : Fin 2) * 64 + 1 * q.val = _; rw [e1]; omega)
  exact userStep_eq_rowStep _ _ _ _ _ _ _ _ _ q (fun k => (iblk8_0_apply V c t p k _ h0).symm) (iblk8_1_eq V c t).symm
    (iblk8_2_eq V c t).symm (fun k => (iblk8_3_apply V c t p k _ h0).symm) h1

end Region8

def plusStep (res : S150000x64.Idx → EReal) (u : S150000x64.Idx → EReal) (Lt : S64x4.Idx → EReal) (M : S4x64.Idx → EReal)
    (g : S150000x64.Idx → EReal) : S150000x64.Idx → EReal :=
  fun i => FloatOps.addf (F := Ideal) (φ := .f32) (res i) (userStep u Lt M g i)

section Region8b

variable (V : (c : Dev nD) → (b : Ref sig .tc) → Buf (Elt Ideal) ((c : Thread nD τ).loc b))

theorem flushed8_6_eq (c : Dev nD) (t : Fin cfg8.N) :
    (dat8 (F := Ideal) V c).flushed 6 t = ((cfg8.win 6).blk t).view.read (Elt Ideal)
      (plusStep (V c main_v58_1) (V c main_v58_0) (V c main_v31) (V c main_v30) (V c main_v80)) := by
  show (cfg8.win 6).cut (grid8.coords t) ((dat8 V c).after 6 t) = _
  rw [after8_6]
  unfold out8_6
  rw [View.canon_unit_zero hz2]
  simp only [View.ld_unit_zero (S := S5000x64) hz2, View.ld_unit_zero (S := S64x4) hz2, View.ld_unit_zero (S := S4x64) hz2]
  funext j
  obtain ⟨p, q, rfl⟩ : ∃ (p : Fin 5000) (q : Fin 64), j = ix2 p q := ⟨j 0, j 1, eq_ix2 j⟩
  obtain ⟨-, -, -, -, -, -, -, -, -, -, -, -, e0, e1⟩ := idx_facts8 t
  have ht : t.val < 30 := t.isLt
  rw [View.read_apply]
  show k8_pay2 (iblk8 V c 0 t) (iblk8 V c 1 t) (iblk8 V c 2 t) (iblk8 V c 3 t) (iblk8 V c 4 t) (ix2 p q) = _
  refine (k8_pay2_apply _ _ _ _ _ (ix2 p q)).trans ?_
  have h0 : ((((cfg8.win 6).blk t).view.emb (ix2 p q) : S150000x64.Idx) 0).val = 5000 * t.val + p.val := by
    show win8_6.index t (0 : Fin 2) * 5000 + 1 * p.val = _; rw [e0]; omega
  have h1 : (((cfg8.win 6).blk t).view.emb (ix2 p q) : S150000x64.Idx) 1 = q := Fin.ext (by
    show win8_6.index t (1 : Fin 2) * 64 + 1 * q.val = _; rw [e1]; omega)
  have hi : (((cfg8.win 6).blk t).view.emb (ix2 p q) : S150000x64.Idx)
      = ix2 ((((cfg8.win 6).blk t).view.emb (ix2 p q) : S150000x64.Idx) 0) q := funext fun a => by
    match a with
    | ⟨0, _⟩ => rfl
    | ⟨1, _⟩ => exact h1
  show FloatOps.addf (F := Ideal) (φ := .f32) _ _ = FloatOps.addf (F := Ideal) (φ := .f32) _ _
  refine congrArg₂ (FloatOps.addf (F := Ideal) (φ := .f32)) ?_ ?_
  · exact (iblk8_4_apply V c t p q _ h0).trans (congrArg (V c main_v58_1 : S150000x64.Idx → EReal) hi.symm)
  · refine (k8_pay1_apply _ _ _ _ p q).trans (Eq.symm ?_)
    exact userStep_eq_rowStep _ _ _ _ _ _ _ _ _ q (fun k => (iblk8_0_apply V c t p k _ h0).symm) (iblk8_1_eq V c t).symm
      (iblk8_2_eq V c t).symm (fun k => (iblk8_3_apply V c t p k _ h0).symm) h1

theorem mem_blk8_5 (t : Fin cfg8.N) (i : S150000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v82_0).slice (win8_5.rect t)).set ↔ _
  rw [View.set_slice_whole, Rect.mem_set_unit]
  exact Iff.rfl
theorem mem_blk8_6 (t : Fin cfg8.N) (i : S150000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v82_1).slice (win8_6.rect t)).set ↔ _
  rw [View.set_slice_whole, Rect.mem_set_unit]
  exact Iff.rfl

theorem covered8_5 (i : S150000x64.Idx) : ∃ t : Fin cfg8.N, (cfg8.win 5).flush t = true ∧ i ∈ ((cfg8.win 5).blk t).view.set := by
  have hi0 : (i 0).val < 150000 := (i 0).isLt
  have hi1 : (i 1).val < 64 := (i 1).isLt
  have hlt : (i 0).val / 5000 < 30 := by omega
  refine ⟨⟨(i 0).val / 5000, hlt⟩, flush8_5 _, ?_⟩
  rw [mem_blk8_5]
  obtain ⟨-, -, -, -, -, -, -, -, -, -, e0, e1, -⟩ := idx_facts8 ⟨(i 0).val / 5000, hlt⟩
  intro a
  match a with
  | ⟨0, _⟩ =>
    show win8_5.index ⟨(i 0).val / 5000, hlt⟩ (0 : Fin 2) * 5000 ≤ (i 0).val ∧ (i 0).val < win8_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win8_5.index ⟨(i 0).val / 5000, hlt⟩ (1 : Fin 2) * 64 ≤ (i 1).val ∧ (i 1).val < win8_5.index ⟨(i 0).val / 5000, hlt⟩ (1 : Fin 2) * 64 + 64
    rw [e1]; omega
theorem covered8_6 (i : S150000x64.Idx) : ∃ t : Fin cfg8.N, (cfg8.win 6).flush t = true ∧ i ∈ ((cfg8.win 6).blk t).view.set := by
  have hi0 : (i 0).val < 150000 := (i 0).isLt
  have hi1 : (i 1).val < 64 := (i 1).isLt
  have hlt : (i 0).val / 5000 < 30 := by omega
  refine ⟨⟨(i 0).val / 5000, hlt⟩, flush8_6 _, ?_⟩
  rw [mem_blk8_6]
  obtain ⟨-, -, -, -, -, -, -, -, -, -, -, -, e0, e1⟩ := idx_facts8 ⟨(i 0).val / 5000, hlt⟩
  intro a
  match a with
  | ⟨0, _⟩ =>
    show win8_6.index ⟨(i 0).val / 5000, hlt⟩ (0 : Fin 2) * 5000 ≤ (i 0).val ∧ (i 0).val < win8_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win8_6.index ⟨(i 0).val / 5000, hlt⟩ (1 : Fin 2) * 64 ≤ (i 1).val ∧ (i 1).val < win8_6.index ⟨(i 0).val / 5000, hlt⟩ (1 : Fin 2) * 64 + 64
    rw [e1]; omega

theorem val8_u (c : Dev nD) : ∀ i : S150000x64.Idx, (dat8 (F := Ideal) V c).arrAt 5 cfg8.N i
    = userStep (V c main_v58_0) (V c main_v31) (V c main_v30) (V c main_v80) i :=
  fun i => congrFun ((dat8 (F := Ideal) V c).arrAt_eq_of_cover 5
    (userStep (V c main_v58_0) (V c main_v31) (V c main_v30) (V c main_v80)) (fun t _ => flushed8_5_eq V c t) covered8_5) i

theorem val8_r (c : Dev nD) : ∀ i : S150000x64.Idx, (dat8 (F := Ideal) V c).arrAt 6 cfg8.N i
    = FloatOps.addf (F := Ideal) (φ := .f32) ((V c main_v58_1 : S150000x64.Idx → EReal) i)
        (userStep (V c main_v58_0) (V c main_v31) (V c main_v30) (V c main_v80) i) :=
  fun i => congrFun ((dat8 (F := Ideal) V c).arrAt_eq_of_cover 6
    (plusStep (V c main_v58_1) (V c main_v58_0) (V c main_v31) (V c main_v30) (V c main_v80))
    (fun t _ => flushed8_6_eq V c t) covered8_6) i

end Region8b

section Region4

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

theorem iblk4_0_apply (c : Dev nD) (t : Fin cfg4.N) (p : Fin 5000) (k : Fin 64) (r : Fin 150000) (hr : r.val = 5000 * t.val + p.val) :
    (iblk4 V c 0 t : Vec Ideal S5000x64 .f32) (ix2 p k) = (V c main_arg0 : S150000x64.Idx → EReal) (ix2 r k) := by
  obtain ⟨e0, e1, -⟩ := idx_facts4 t
  unfold iblk4
  rw [View.read_apply]
  show (V c main_arg0 : S150000x64.Idx → EReal) _ = _
  refine congrArg _ (funext fun a => Fin.ext ?_)
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

theorem iblk4_3_apply (c : Dev nD) (t : Fin cfg4.N) (p : Fin 5000) (k : Fin 64) (r : Fin 150000) (hr : r.val = 5000 * t.val + p.val) :
    (iblk4 V c 3 t : Vec Ideal S5000x64 .f32) (ix2 p k) = (V c main_v56 : S150000x64.Idx → EReal) (ix2 r k) := by
  obtain ⟨-, -, -, -, -, -, e0, e1, -⟩ := idx_facts4 t
  unfold iblk4
  rw [View.read_apply]
  show (V c main_v56 : S150000x64.Idx → EReal) _ = _
  refine congrArg _ (funext fun a => Fin.ext ?_)
  match a with
  | ⟨0, _⟩ => show win4_3.index t (0 : Fin 2) * 5000 + 1 * p.val = r.val; rw [e0, hr]; omega
  | ⟨1, _⟩ => show win4_3.index t (1 : Fin 2) * 64 + 1 * k.val = k.val; rw [e1]; omega

theorem iblk4_4_apply (c : Dev nD) (t : Fin cfg4.N) (p : Fin 5000) (k : Fin 64) (r : Fin 150000) (hr : r.val = 5000 * t.val + p.val) :
    (iblk4 V c 4 t : Vec Ideal S5000x64 .f32) (ix2 p k) = (V c main_arg0 : S150000x64.Idx → EReal) (ix2 r k) := by
  obtain ⟨-, -, -, -, -, -, -, -, e0, e1, -⟩ := idx_facts4 t
  unfold iblk4
  rw [View.read_apply]
  show (V c main_arg0 : S150000x64.Idx → EReal) _ = _
  refine congrArg _ (funext fun a => Fin.ext ?_)
  match a with
  | ⟨0, _⟩ => show win4_4.index t (0 : Fin 2) * 5000 + 1 * p.val = r.val; rw [e0, hr]; omega
  | ⟨1, _⟩ => show win4_4.index t (1 : Fin 2) * 64 + 1 * k.val = k.val; rw [e1]; omega

theorem iblk4_1_eq (c : Dev nD) (t : Fin cfg4.N) : (iblk4 V c 1 t : Vec Ideal S64x4 .f32) = (V c main_v31 : S64x4.Idx → EReal) := by
  obtain ⟨-, -, e0, e1, -⟩ := idx_facts4 t
  funext y
  unfold iblk4
  rw [View.read_apply]
  show (V c main_v31 : S64x4.Idx → EReal) _ = _
  refine congrArg _ (funext fun a => Fin.ext ?_)
  match a with
  | ⟨0, _⟩ => show win4_1.index t (0 : Fin 2) * 64 + 1 * (y 0).val = (y 0).val; rw [e0]; omega
  | ⟨1, _⟩ => show win4_1.index t (1 : Fin 2) * 4 + 1 * (y 1).val = (y 1).val; rw [e1]; omega

theorem iblk4_2_eq (c : Dev nD) (t : Fin cfg4.N) : (iblk4 V c 2 t : Vec Ideal S4x64 .f32) = (V c main_v30 : S4x64.Idx → EReal) := by
  obtain ⟨-, -, -, -, e0, e1, -⟩ := idx_facts4 t
  funext y
  unfold iblk4
  rw [View.read_apply]
  show (V c main_v30 : S4x64.Idx → EReal) _ = _
  refine congrArg _ (funext fun a => Fin.ext ?_)
  match a with
  | ⟨0, _⟩ => show win4_2.index t (0 : Fin 2) * 4 + 1 * (y 0).val = (y 0).val; rw [e0]; omega
  | ⟨1, _⟩ => show win4_2.index t (1 : Fin 2) * 64 + 1 * (y 1).val = (y 1).val; rw [e1]; omega

theorem flushed4_5_eq (c : Dev nD) (t : Fin cfg4.N) :
    (dat4 (F := Ideal) V c).flushed 5 t = ((cfg4.win 5).blk t).view.read (Elt Ideal)
      (userStep (V c main_arg0) (V c main_v31) (V c main_v30) (V c main_v56)) := by
  show (cfg4.win 5).cut (grid4.coords t) ((dat4 V c).after 5 t) = _
  rw [after4_5]
  unfold out4_5
  rw [View.canon_unit_zero hz2]
  simp only [View.ld_unit_zero (S := S5000x64) hz2, View.ld_unit_zero (S := S64x4) hz2, View.ld_unit_zero (S := S4x64) hz2]
  funext j
  obtain ⟨p, q, rfl⟩ : ∃ (p : Fin 5000) (q : Fin 64), j = ix2 p q := ⟨j 0, j 1, eq_ix2 j⟩
  obtain ⟨-, -, -, -, -, -, -, -, -, -, e0, e1, -⟩ := idx_facts4 t
  have ht : t.val < 30 := t.isLt
  rw [View.read_apply]
  show k4_pay1 (iblk4 V c 0 t) (iblk4 V c 1 t) (iblk4 V c 2 t) (iblk4 V c 3 t) (ix2 p q) = _
  refine (k4_pay1_apply _ _ _ _ p q).trans (Eq.symm ?_)
  have h0 : ((((cfg4.win 5).blk t).view.emb (ix2 p q) : S150000x64.Idx) 0).val = 5000 * t.val + p.val := by
    show win4_5.index t (0 : Fin 2) * 5000 + 1 * p.val = _; rw [e0]; omega
  have h1 : (((cfg4.win 5).blk t).view.emb (ix2 p q) : S150000x64.Idx) 1 = q := Fin.ext (by
    show win4_5.index t (1 : Fin 2) * 64 + 1 * q.val = _; rw [e1]; omega)
  exact userStep_eq_rowStep _ _ _ _ _ _ _ _ _ q (fun k => (iblk4_0_apply V c t p k _ h0).symm) (iblk4_1_eq V c t).symm
    (iblk4_2_eq V c t).symm (fun k => (iblk4_3_apply V c t p k _ h0).symm) h1

end Region4

section Region4b

variable (V : (c : Dev nD) → (b : Ref sig .tc) → Buf (Elt Ideal) ((c : Thread nD τ).loc b))

theorem flushed4_6_eq (c : Dev nD) (t : Fin cfg4.N) :
    (dat4 (F := Ideal) V c).flushed 6 t = ((cfg4.win 6).blk t).view.read (Elt Ideal)
      (plusStep (V c main_arg0) (V c main_arg0) (V c main_v31) (V c main_v30) (V c main_v56)) := by
  show (cfg4.win 6).cut (grid4.coords t) ((dat4 V c).after 6 t) = _
  rw [after4_6]
  unfold out4_6
  rw [View.canon_unit_zero hz2]
  simp only [View.ld_unit_zero (S := S5000x64) hz2, View.ld_unit_zero (S := S64x4) hz2, View.ld_unit_zero (S := S4x64) hz2]
  funext j
  obtain ⟨p, q, rfl⟩ : ∃ (p : Fin 5000) (q : Fin 64), j = ix2 p q := ⟨j 0, j 1, eq_ix2 j⟩
  obtain ⟨-, -, -, -, -, -, -, -, -, -, -, -, e0, e1⟩ := idx_facts4 t
  have ht : t.val < 30 := t.isLt
  rw [View.read_apply]
  show k4_pay2 (iblk4 V c 0 t) (iblk4 V c 1 t) (iblk4 V c 2 t) (iblk4 V c 3 t) (iblk4 V c 4 t) (ix2 p q) = _
  refine (k4_pay2_apply _ _ _ _ _ (ix2 p q)).trans ?_
  have h0 : ((((cfg4.win 6).blk t).view.emb (ix2 p q) : S150000x64.Idx) 0).val = 5000 * t.val + p.val := by
    show win4_6.index t (0 : Fin 2) * 5000 + 1 * p.val = _; rw [e0]; omega
  have h1 : (((cfg4.win 6).blk t).view.emb (ix2 p q) : S150000x64.Idx) 1 = q := Fin.ext (by
    show win4_6.index t (1 : Fin 2) * 64 + 1 * q.val = _; rw [e1]; omega)
  have hi : (((cfg4.win 6).blk t).view.emb (ix2 p q) : S150000x64.Idx)
      = ix2 ((((cfg4.win 6).blk t).view.emb (ix2 p q) : S150000x64.Idx) 0) q := funext fun a => by
    match a with
    | ⟨0, _⟩ => rfl
    | ⟨1, _⟩ => exact h1
  show FloatOps.addf (F := Ideal) (φ := .f32) _ _ = FloatOps.addf (F := Ideal) (φ := .f32) _ _
  refine congrArg₂ (FloatOps.addf (F := Ideal) (φ := .f32)) ?_ ?_
  · exact (iblk4_4_apply V c t p q _ h0).trans (congrArg (V c main_arg0 : S150000x64.Idx → EReal) hi.symm)
  · refine (k4_pay1_apply _ _ _ _ p q).trans (Eq.symm ?_)
    exact userStep_eq_rowStep _ _ _ _ _ _ _ _ _ q (fun k => (iblk4_0_apply V c t p k _ h0).symm) (iblk4_1_eq V c t).symm
      (iblk4_2_eq V c t).symm (fun k => (iblk4_3_apply V c t p k _ h0).symm) h1

theorem mem_blk4_5 (t : Fin cfg4.N) (i : S150000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v58_0).slice (win4_5.rect t)).set ↔ _
  rw [View.set_slice_whole, Rect.mem_set_unit]
  exact Iff.rfl
theorem mem_blk4_6 (t : Fin cfg4.N) (i : S150000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v58_1).slice (win4_6.rect t)).set ↔ _
  rw [View.set_slice_whole, Rect.mem_set_unit]
  exact Iff.rfl

theorem covered4_5 (i : S150000x64.Idx) : ∃ t : Fin cfg4.N, (cfg4.win 5).flush t = true ∧ i ∈ ((cfg4.win 5).blk t).view.set := by
  have hi0 : (i 0).val < 150000 := (i 0).isLt
  have hi1 : (i 1).val < 64 := (i 1).isLt
  have hlt : (i 0).val / 5000 < 30 := by omega
  refine ⟨⟨(i 0).val / 5000, hlt⟩, flush4_5 _, ?_⟩
  rw [mem_blk4_5]
  obtain ⟨-, -, -, -, -, -, -, -, -, -, e0, e1, -⟩ := idx_facts4 ⟨(i 0).val / 5000, hlt⟩
  intro a
  match a with
  | ⟨0, _⟩ =>
    show win4_5.index ⟨(i 0).val / 5000, hlt⟩ (0 : Fin 2) * 5000 ≤ (i 0).val ∧ (i 0).val < win4_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, hlt⟩ (1 : Fin 2) * 64 ≤ (i 1).val ∧ (i 1).val < win4_5.index ⟨(i 0).val / 5000, hlt⟩ (1 : Fin 2) * 64 + 64
    rw [e1]; omega
theorem covered4_6 (i : S150000x64.Idx) : ∃ t : Fin cfg4.N, (cfg4.win 6).flush t = true ∧ i ∈ ((cfg4.win 6).blk t).view.set := by
  have hi0 : (i 0).val < 150000 := (i 0).isLt
  have hi1 : (i 1).val < 64 := (i 1).isLt
  have hlt : (i 0).val / 5000 < 30 := by omega
  refine ⟨⟨(i 0).val / 5000, hlt⟩, flush4_6 _, ?_⟩
  rw [mem_blk4_6]
  obtain ⟨-, -, -, -, -, -, -, -, -, -, -, -, e0, e1⟩ := idx_facts4 ⟨(i 0).val / 5000, hlt⟩
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hlt⟩ (1 : Fin 2) * 64 ≤ (i 1).val ∧ (i 1).val < win4_6.index ⟨(i 0).val / 5000, hlt⟩ (1 : Fin 2) * 64 + 64
    rw [e1]; omega

theorem val4_u (c : Dev nD) : ∀ i : S150000x64.Idx, (dat4 (F := Ideal) V c).arrAt 5 cfg4.N i
    = userStep (V c main_arg0) (V c main_v31) (V c main_v30) (V c main_v56) i :=
  fun i => congrFun ((dat4 (F := Ideal) V c).arrAt_eq_of_cover 5
    (userStep (V c main_arg0) (V c main_v31) (V c main_v30) (V c main_v56)) (fun t _ => flushed4_5_eq V c t) covered4_5) i

theorem val4_r (c : Dev nD) : ∀ i : S150000x64.Idx, (dat4 (F := Ideal) V c).arrAt 6 cfg4.N i
    = FloatOps.addf (F := Ideal) (φ := .f32) ((V c main_arg0 : S150000x64.Idx → EReal) i)
        (userStep (V c main_arg0) (V c main_v31) (V c main_v30) (V c main_v56) i) :=
  fun i => congrFun ((dat4 (F := Ideal) V c).arrAt_eq_of_cover 6
    (plusStep (V c main_arg0) (V c main_arg0) (V c main_v31) (V c main_v30) (V c main_v56))
    (fun t _ => flushed4_6_eq V c t) covered4_6) i

end Region4b

section Reference

variable {F : FTy → Type} [FloatOps F]

def refScores (u : (⟨Cert.ReferenceIdeal.S150000x64, .f32⟩ : BufTy).Contents (Elt F)) (Lt : (⟨Cert.ReferenceIdeal.S64x4, .f32⟩ : BufTy).Contents (Elt F)) :
    (⟨Cert.ReferenceIdeal.S150000x4, .f32⟩ : BufTy).Contents (Elt F) :=
  Host.dotGeneral Cert.ReferenceIdeal.dot_S150000x64_S64x4_S150000x4_1_0_0_1_n_n none u Lt

def refExps (u : (⟨Cert.ReferenceIdeal.S150000x64, .f32⟩ : BufTy).Contents (Elt F)) (Lt : (⟨Cert.ReferenceIdeal.S64x4, .f32⟩ : BufTy).Contents (Elt F)) :
    (⟨Cert.ReferenceIdeal.S150000x4, .f32⟩ : BufTy).Contents (Elt F) :=
  Host.exp (subf (refScores u Lt)
    (broadcastInDim Cert.ReferenceIdeal.S150000x4 ![0, 1] Cert.ReferenceIdeal.Gen.bcast_S150000x1_S150000x4_0_1 (broadcastInDim Cert.ReferenceIdeal.S150000x1 ![0] Cert.ReferenceIdeal.Gen.bcast_S150000_S150000x1_0
      (maximumf (broadcastInDim Cert.ReferenceIdeal.S150000 ![] Cert.ReferenceIdeal.Gen.bcast_S_S150000 (constant (F := F) Cert.ReferenceIdeal.S_ .f32 0xFF800000#32))
        (Host.reduce FloatOps.maximumf (refScores u Lt) (constant (F := F) Cert.ReferenceIdeal.S_ .f32 0xFF800000#32) Cert.ReferenceIdeal.Gen.reducesTo_S150000x4_S150000_d1 Cert.ReferenceIdeal.Gen.h_S_)))))

def refWeights (u : (⟨Cert.ReferenceIdeal.S150000x64, .f32⟩ : BufTy).Contents (Elt F)) (Lt : (⟨Cert.ReferenceIdeal.S64x4, .f32⟩ : BufTy).Contents (Elt F)) :
    (⟨Cert.ReferenceIdeal.S150000x4, .f32⟩ : BufTy).Contents (Elt F) :=
  Host.divf (refExps u Lt)
    (broadcastInDim Cert.ReferenceIdeal.S150000x4 ![0, 1] Cert.ReferenceIdeal.Gen.bcast_S150000x1_S150000x4_0_1 (broadcastInDim Cert.ReferenceIdeal.S150000x1 ![0] Cert.ReferenceIdeal.Gen.bcast_S150000_S150000x1_0
      (Host.reduceAdd (refExps u Lt) (constant (F := F) Cert.ReferenceIdeal.S_ .f32 0x00000000#32) Cert.ReferenceIdeal.Gen.reducesTo_S150000x4_S150000_d1 Cert.ReferenceIdeal.Gen.h_S_)))

def refGated (u : (⟨Cert.ReferenceIdeal.S150000x64, .f32⟩ : BufTy).Contents (Elt F)) (Lt : (⟨Cert.ReferenceIdeal.S64x4, .f32⟩ : BufTy).Contents (Elt F))
    (M : (⟨Cert.ReferenceIdeal.S4x64, .f32⟩ : BufTy).Contents (Elt F)) (g : (⟨Cert.ReferenceIdeal.S150000x64, .f32⟩ : BufTy).Contents (Elt F)) :
    (⟨Cert.ReferenceIdeal.S150000x64, .f32⟩ : BufTy).Contents (Elt F) :=
  addf (mulf g (Host.reduceAdd
      (mulf (broadcastInDim Cert.ReferenceIdeal.S150000x4x64 ![0, 1, 2] Cert.ReferenceIdeal.Gen.bcast_S1x4x64_S150000x4x64_0_1_2 (broadcastInDim Cert.ReferenceIdeal.S1x4x64 ![1, 2] Cert.ReferenceIdeal.Gen.bcast_S4x64_S1x4x64_1_2 M))
        (broadcastInDim Cert.ReferenceIdeal.S150000x4x64 ![0, 1, 2] Cert.ReferenceIdeal.Gen.bcast_S150000x4x1_S150000x4x64_0_1_2
          (broadcastInDim Cert.ReferenceIdeal.S150000x4x1 ![0, 1] Cert.ReferenceIdeal.Gen.bcast_S150000x4_S150000x4x1_0_1 (refWeights u Lt))))
      (constant (F := F) Cert.ReferenceIdeal.S_ .f32 0x00000000#32) Cert.ReferenceIdeal.Gen.reducesTo_S150000x4x64_S150000x64_d1 Cert.ReferenceIdeal.Gen.h_S_)) g

def refUserStep (u : (⟨Cert.ReferenceIdeal.S150000x64, .f32⟩ : BufTy).Contents (Elt F)) (Lt : (⟨Cert.ReferenceIdeal.S64x4, .f32⟩ : BufTy).Contents (Elt F))
    (M : (⟨Cert.ReferenceIdeal.S4x64, .f32⟩ : BufTy).Contents (Elt F)) (g : (⟨Cert.ReferenceIdeal.S150000x64, .f32⟩ : BufTy).Contents (Elt F)) :
    (⟨Cert.ReferenceIdeal.S150000x64, .f32⟩ : BufTy).Contents (Elt F) :=
  Host.divf (refGated u Lt M g)
    (broadcastInDim Cert.ReferenceIdeal.S150000x64 ![0, 1] Cert.ReferenceIdeal.Gen.bcast_S150000x1_S150000x64_0_1
      (maximumf
        (Host.sqrt (broadcastInDim Cert.ReferenceIdeal.S150000x1 ![0] Cert.ReferenceIdeal.Gen.bcast_S150000_S150000x1_0
          (Host.reduceAdd (mulf (refGated u Lt M g) (refGated u Lt M g))
            (constant (F := F) Cert.ReferenceIdeal.S_ .f32 0x00000000#32) Cert.ReferenceIdeal.Gen.reducesTo_S150000x64_S150000_d1 Cert.ReferenceIdeal.Gen.h_S_)))
        (broadcastInDim Cert.ReferenceIdeal.S150000x1 ![] Cert.ReferenceIdeal.Gen.bcast_S_S150000x1 (constant (F := F) Cert.ReferenceIdeal.S_ .f32 0x2B8CBCCC#32))))

set_option maxRecDepth 65536 in
theorem val_v96_eq_refUserStep (x0 : (⟨Cert.ReferenceIdeal.S150000x64, .f32⟩ : BufTy).Contents (Elt Ideal)) (x1 : (⟨Cert.ReferenceIdeal.S250000x64, .f32⟩ : BufTy).Contents (Elt Ideal))
    (x2 : (⟨Cert.ReferenceIdeal.S4x64, .f32⟩ : BufTy).Contents (Elt Ideal)) (x3 : (⟨Cert.ReferenceIdeal.S16x64, .f32⟩ : BufTy).Contents (Elt Ideal)) (x4 : (⟨Cert.ReferenceIdeal.S4x16, .f32⟩ : BufTy).Contents (Elt Ideal))
    (x5 : (⟨Cert.ReferenceIdeal.S1000000, .f32⟩ : BufTy).Contents (Elt Ideal)) (x8 x9 : (⟨Cert.ReferenceIdeal.S1000000, .i32⟩ : BufTy).Contents (Elt Ideal)) :
    Cert.ReferenceIdeal.Read.val_main_v96 (F := Ideal) x0 x1 x2 x3 x4 x5 x8 x9
      = refUserStep (F := Ideal) x0 (Cert.ReferenceIdeal.Read.val_main_v53 (F := Ideal) x2) (Cert.ReferenceIdeal.Read.val_main_v30 (F := Ideal) x3 x4) (Cert.ReferenceIdeal.Read.val_main_v79 (F := Ideal) x1 x5 x8 x9) := rfl

set_option maxRecDepth 65536 in
theorem val_v164_eq_refUserStep (x0 : (⟨Cert.ReferenceIdeal.S150000x64, .f32⟩ : BufTy).Contents (Elt Ideal)) (x1 : (⟨Cert.ReferenceIdeal.S250000x64, .f32⟩ : BufTy).Contents (Elt Ideal))
    (x2 : (⟨Cert.ReferenceIdeal.S4x64, .f32⟩ : BufTy).Contents (Elt Ideal)) (x3 : (⟨Cert.ReferenceIdeal.S16x64, .f32⟩ : BufTy).Contents (Elt Ideal)) (x4 : (⟨Cert.ReferenceIdeal.S4x16, .f32⟩ : BufTy).Contents (Elt Ideal))
    (x5 : (⟨Cert.ReferenceIdeal.S1000000, .f32⟩ : BufTy).Contents (Elt Ideal)) (x6 : (⟨Cert.ReferenceIdeal.S2x1000000, .i32⟩ : BufTy).Contents (Elt Ideal))
    (x7 x8 x9 : (⟨Cert.ReferenceIdeal.S1000000, .i32⟩ : BufTy).Contents (Elt Ideal)) :
    Cert.ReferenceIdeal.Read.val_main_v164 (F := Ideal) x0 x1 x2 x3 x4 x5 x6 x7 x8 x9
      = refUserStep (F := Ideal) (Cert.ReferenceIdeal.Read.val_main_v96 (F := Ideal) x0 x1 x2 x3 x4 x5 x8 x9) (Cert.ReferenceIdeal.Read.val_main_v121 (F := Ideal) x2) (Cert.ReferenceIdeal.Read.val_main_v30 (F := Ideal) x3 x4)
          (Cert.ReferenceIdeal.Read.val_main_v147 (F := Ideal) x1 x3 x5 x6 x7 x8 x9) := rfl

end Reference

section ReferenceStages

theorem ref_logits_apply (u : FVec Ideal Cert.ReferenceIdeal.S150000x64 .f32) (Lt : FVec Ideal Cert.ReferenceIdeal.S64x4 .f32)
    (r : Fin 150000) (f : Fin 4) :
    Host.dotGeneral (F := Ideal) Cert.ReferenceIdeal.dot_S150000x64_S64x4_S150000x4_1_0_0_1_n_n none u Lt (ix2 r f) = ∑ k : Fin 64, u (ix2 r k) * Lt (ix2 k f) := by
  simp only [Host.dotGeneral]
  rw [Ideal.dotGeneral_apply, ← Equiv.sum_comp (ValueIdx.contrEquiv1 Cert.ReferenceIdeal.dot_S150000x64_S64x4_S150000x4_1_0_0_1_n_n 64 rfl rfl).symm]
  refine Finset.sum_congr rfl fun k _ => ?_
  have hk := ValueIdx.contrEquiv1_symm_val Cert.ReferenceIdeal.dot_S150000x64_S64x4_S150000x4_1_0_0_1_n_n 64 rfl rfl k
  have el : Cert.ReferenceIdeal.dot_S150000x64_S64x4_S150000x4_1_0_0_1_n_n.lhsIdx (ix2 r f) ((ValueIdx.contrEquiv1 Cert.ReferenceIdeal.dot_S150000x64_S64x4_S150000x4_1_0_0_1_n_n 64 rfl rfl).symm k) = ix2 r k := funext fun a => Fin.ext (by
    match a with
    | ⟨0, _⟩ => exact Cert.ReferenceIdeal.Read.lhs_main_v54_0 _ _
    | ⟨1, _⟩ => exact (Cert.ReferenceIdeal.Read.lhs_main_v54_1 _ _).trans hk)
  have er : Cert.ReferenceIdeal.dot_S150000x64_S64x4_S150000x4_1_0_0_1_n_n.rhsIdx (ix2 r f) ((ValueIdx.contrEquiv1 Cert.ReferenceIdeal.dot_S150000x64_S64x4_S150000x4_1_0_0_1_n_n 64 rfl rfl).symm k) = ix2 k f := funext fun a => Fin.ext (by
    match a with
    | ⟨0, _⟩ => exact (Cert.ReferenceIdeal.Read.rhs_main_v54_0 _ _).trans hk
    | ⟨1, _⟩ => exact Cert.ReferenceIdeal.Read.rhs_main_v54_1 _ _)
  rw [el, er]

theorem ref_rowMax_apply (l : FVec Ideal Cert.ReferenceIdeal.S150000x4 .f32) (b : BitVec 32) (r : Fin 150000) :
    Host.reduce FloatOps.maximumf l (constant (F := Ideal) Cert.ReferenceIdeal.S_ .f32 b) Cert.ReferenceIdeal.Gen.reducesTo_S150000x4_S150000_d1 Cert.ReferenceIdeal.Gen.h_S_ (ix1 r)
      = (Finset.univ : Finset (Fin 4)).fold max (Ideal.ofBits .f32 b) (fun f => l (ix2 r f)) := by
  refine (Host.reduce_eq_fold_single (FloatOps.maximumf (F := Ideal) (φ := .f32)) l _ Cert.ReferenceIdeal.Gen.reducesTo_S150000x4_S150000_d1 (by decide) Cert.ReferenceIdeal.Gen.h_S_ (ix1 r)).trans ?_
  show (Finset.univ : Finset (Fin 4)).fold max (Ideal.ofBits .f32 b) _ = _
  refine congrArg (Finset.fold max _ · Finset.univ) (funext fun f => congrArg l (funext fun ax => Fin.ext ?_))
  match ax with
  | ⟨0, _⟩ => rfl
  | ⟨1, _⟩ => rfl

theorem ref_rowSum4_apply (e : FVec Ideal Cert.ReferenceIdeal.S150000x4 .f32) (r : Fin 150000) :
    Host.reduceAdd (F := Ideal) e (constant (F := Ideal) Cert.ReferenceIdeal.S_ .f32 0x00000000#32) Cert.ReferenceIdeal.Gen.reducesTo_S150000x4_S150000_d1 Cert.ReferenceIdeal.Gen.h_S_ (ix1 r) = ∑ f : Fin 4, e (ix2 r f) := by
  simp only [Host.reduceAdd, Ideal.hostReduceAdd_def]
  rw [Ideal.hostReduceAdd_single Cert.ReferenceIdeal.Gen.reducesTo_S150000x4_S150000_d1 (by decide)]
  show Ideal.ofBits .f32 0x00000000#32 + _ = _
  rw [Ideal.ofBits_zero_f32, zero_add]
  refine Finset.sum_congr rfl fun f _ => congrArg e (funext fun ax => Fin.ext ?_)
  match ax with
  | ⟨0, _⟩ => rfl
  | ⟨1, _⟩ => rfl

theorem ref_rowSum64_apply (e : FVec Ideal Cert.ReferenceIdeal.S150000x64 .f32) (r : Fin 150000) :
    Host.reduceAdd (F := Ideal) e (constant (F := Ideal) Cert.ReferenceIdeal.S_ .f32 0x00000000#32) Cert.ReferenceIdeal.Gen.reducesTo_S150000x64_S150000_d1 Cert.ReferenceIdeal.Gen.h_S_ (ix1 r) = ∑ j : Fin 64, e (ix2 r j) := by
  simp only [Host.reduceAdd, Ideal.hostReduceAdd_def]
  rw [Ideal.hostReduceAdd_single Cert.ReferenceIdeal.Gen.reducesTo_S150000x64_S150000_d1 (by decide)]
  show Ideal.ofBits .f32 0x00000000#32 + _ = _
  rw [Ideal.ofBits_zero_f32, zero_add]
  refine Finset.sum_congr rfl fun j _ => congrArg e (funext fun ax => Fin.ext ?_)
  match ax with
  | ⟨0, _⟩ => rfl
  | ⟨1, _⟩ => rfl

theorem ref_midSum_apply (e : FVec Ideal Cert.ReferenceIdeal.S150000x4x64 .f32) (r : Fin 150000) (j : Fin 64) :
    Host.reduceAdd (F := Ideal) e (constant (F := Ideal) Cert.ReferenceIdeal.S_ .f32 0x00000000#32) Cert.ReferenceIdeal.Gen.reducesTo_S150000x4x64_S150000x64_d1 Cert.ReferenceIdeal.Gen.h_S_ (ix2 r j) = ∑ f : Fin 4, e (ix3 r f j) := by
  simp only [Host.reduceAdd, Ideal.hostReduceAdd_def]
  rw [Ideal.hostReduceAdd_single Cert.ReferenceIdeal.Gen.reducesTo_S150000x4x64_S150000x64_d1 (by decide)]
  show Ideal.ofBits .f32 0x00000000#32 + _ = _
  rw [Ideal.ofBits_zero_f32, zero_add]
  refine Finset.sum_congr rfl fun f _ => congrArg e (funext fun ax => Fin.ext ?_)
  match ax with
  | ⟨0, _⟩ => rfl
  | ⟨1, _⟩ => rfl
  | ⟨2, _⟩ => rfl

variable {α : Type}

theorem bc_S_S150000_apply (x : Cert.ReferenceIdeal.S_.Idx → α) (i : Cert.ReferenceIdeal.S150000.Idx) :
    broadcastInDim Cert.ReferenceIdeal.S150000 ![] Cert.ReferenceIdeal.Gen.bcast_S_S150000 x i = x (fun a => a.elim0) :=
  broadcastInDim_apply _ Cert.ReferenceIdeal.Gen.bcast_S_S150000 x i (fun a => a.elim0) (fun a => a.elim0)

theorem bc_S_S150000x1_apply (x : Cert.ReferenceIdeal.S_.Idx → α) (i : Cert.ReferenceIdeal.S150000x1.Idx) :
    broadcastInDim Cert.ReferenceIdeal.S150000x1 ![] Cert.ReferenceIdeal.Gen.bcast_S_S150000x1 x i = x (fun a => a.elim0) :=
  broadcastInDim_apply _ Cert.ReferenceIdeal.Gen.bcast_S_S150000x1 x i (fun a => a.elim0) (fun a => a.elim0)

theorem bc_S150000_S150000x1_apply (x : Cert.ReferenceIdeal.S150000.Idx → α) (r : Fin 150000) (u : Fin 1) :
    broadcastInDim Cert.ReferenceIdeal.S150000x1 ![0] Cert.ReferenceIdeal.Gen.bcast_S150000_S150000x1_0 x (ix2 r u) = x (ix1 r) :=
  broadcastInDim_apply _ Cert.ReferenceIdeal.Gen.bcast_S150000_S150000x1_0 x (ix2 r u) (ix1 r) (fun a => match a with
    | ⟨0, _⟩ => by show r.val = if (150000 : Nat) = 1 then 0 else r.val; rw [if_neg (by decide)])

theorem bc_S150000x1_S150000x4_apply (x : Cert.ReferenceIdeal.S150000x1.Idx → α) (r : Fin 150000) (f : Fin 4) :
    broadcastInDim Cert.ReferenceIdeal.S150000x4 ![0, 1] Cert.ReferenceIdeal.Gen.bcast_S150000x1_S150000x4_0_1 x (ix2 r f) = x (ix2 r (0 : Fin 1)) :=
  broadcastInDim_apply _ Cert.ReferenceIdeal.Gen.bcast_S150000x1_S150000x4_0_1 x (ix2 r f) (ix2 r (0 : Fin 1)) (fun a => match a with
    | ⟨0, _⟩ => by show r.val = if (150000 : Nat) = 1 then 0 else r.val; rw [if_neg (by decide)]
    | ⟨1, _⟩ => by show 0 = if (1 : Nat) = 1 then 0 else f.val; rw [if_pos rfl])

theorem bc_S150000x1_S150000x64_apply (x : Cert.ReferenceIdeal.S150000x1.Idx → α) (r : Fin 150000) (j : Fin 64) :
    broadcastInDim Cert.ReferenceIdeal.S150000x64 ![0, 1] Cert.ReferenceIdeal.Gen.bcast_S150000x1_S150000x64_0_1 x (ix2 r j) = x (ix2 r (0 : Fin 1)) :=
  broadcastInDim_apply _ Cert.ReferenceIdeal.Gen.bcast_S150000x1_S150000x64_0_1 x (ix2 r j) (ix2 r (0 : Fin 1)) (fun a => match a with
    | ⟨0, _⟩ => by show r.val = if (150000 : Nat) = 1 then 0 else r.val; rw [if_neg (by decide)]
    | ⟨1, _⟩ => by show 0 = if (1 : Nat) = 1 then 0 else j.val; rw [if_pos rfl])

theorem bc_S150000x4_S150000x4x1_apply (x : Cert.ReferenceIdeal.S150000x4.Idx → α) (r : Fin 150000) (f : Fin 4) (u : Fin 1) :
    broadcastInDim Cert.ReferenceIdeal.S150000x4x1 ![0, 1] Cert.ReferenceIdeal.Gen.bcast_S150000x4_S150000x4x1_0_1 x (ix3 r f u) = x (ix2 r f) :=
  broadcastInDim_apply _ Cert.ReferenceIdeal.Gen.bcast_S150000x4_S150000x4x1_0_1 x (ix3 r f u) (ix2 r f) (fun a => match a with
    | ⟨0, _⟩ => by show r.val = if (150000 : Nat) = 1 then 0 else r.val; rw [if_neg (by decide)]
    | ⟨1, _⟩ => by show f.val = if (4 : Nat) = 1 then 0 else f.val; rw [if_neg (by decide)])

theorem bc_S150000x4x1_S150000x4x64_apply (x : Cert.ReferenceIdeal.S150000x4x1.Idx → α) (r : Fin 150000) (f : Fin 4) (j : Fin 64) :
    broadcastInDim Cert.ReferenceIdeal.S150000x4x64 ![0, 1, 2] Cert.ReferenceIdeal.Gen.bcast_S150000x4x1_S150000x4x64_0_1_2 x (ix3 r f j) = x (ix3 r f (0 : Fin 1)) :=
  broadcastInDim_apply _ Cert.ReferenceIdeal.Gen.bcast_S150000x4x1_S150000x4x64_0_1_2 x (ix3 r f j) (ix3 r f (0 : Fin 1)) (fun a => match a with
    | ⟨0, _⟩ => by show r.val = if (150000 : Nat) = 1 then 0 else r.val; rw [if_neg (by decide)]
    | ⟨1, _⟩ => by show f.val = if (4 : Nat) = 1 then 0 else f.val; rw [if_neg (by decide)]
    | ⟨2, _⟩ => by show 0 = if (1 : Nat) = 1 then 0 else j.val; rw [if_pos rfl])

theorem bc_S4x64_S1x4x64_apply (x : Cert.ReferenceIdeal.S4x64.Idx → α) (u : Fin 1) (f : Fin 4) (j : Fin 64) :
    broadcastInDim Cert.ReferenceIdeal.S1x4x64 ![1, 2] Cert.ReferenceIdeal.Gen.bcast_S4x64_S1x4x64_1_2 x (ix3 u f j) = x (ix2 f j) :=
  broadcastInDim_apply _ Cert.ReferenceIdeal.Gen.bcast_S4x64_S1x4x64_1_2 x (ix3 u f j) (ix2 f j) (fun a => match a with
    | ⟨0, _⟩ => by show f.val = if (4 : Nat) = 1 then 0 else f.val; rw [if_neg (by decide)]
    | ⟨1, _⟩ => by show j.val = if (64 : Nat) = 1 then 0 else j.val; rw [if_neg (by decide)])

theorem bc_S1x4x64_S150000x4x64_apply (x : Cert.ReferenceIdeal.S1x4x64.Idx → α) (r : Fin 150000) (f : Fin 4) (j : Fin 64) :
    broadcastInDim Cert.ReferenceIdeal.S150000x4x64 ![0, 1, 2] Cert.ReferenceIdeal.Gen.bcast_S1x4x64_S150000x4x64_0_1_2 x (ix3 r f j) = x (ix3 (0 : Fin 1) f j) :=
  broadcastInDim_apply _ Cert.ReferenceIdeal.Gen.bcast_S1x4x64_S150000x4x64_0_1_2 x (ix3 r f j) (ix3 (0 : Fin 1) f j) (fun a => match a with
    | ⟨0, _⟩ => by show 0 = if (1 : Nat) = 1 then 0 else r.val; rw [if_pos rfl]
    | ⟨1, _⟩ => by show f.val = if (4 : Nat) = 1 then 0 else f.val; rw [if_neg (by decide)]
    | ⟨2, _⟩ => by show j.val = if (64 : Nat) = 1 then 0 else j.val; rw [if_neg (by decide)])

end ReferenceStages

section ReferenceValue

theorem hostDivf_apply' {s : Shape} (a b : FVec Ideal s .f32) (i : s.Idx) : Host.divf a b i = Ideal.div (a i) (b i) := rfl
theorem hostExp_apply' {s : Shape} (a : FVec Ideal s .f32) (i : s.Idx) : Host.exp a i = Ideal.exp (a i) := rfl
theorem hostSqrt_apply' {s : Shape} (a : FVec Ideal s .f32) (i : s.Idx) : Host.sqrt a i = Ideal.sqrt (a i) := rfl

theorem refExps_apply (u : FVec Ideal Cert.ReferenceIdeal.S150000x64 .f32) (Lt : FVec Ideal Cert.ReferenceIdeal.S64x4 .f32) (r : Fin 150000) (f : Fin 4) :
    refExps (F := Ideal) u Lt (ix2 r f) = expo (fun k => u (ix2 r k)) Lt f := by
  unfold refExps refScores
  simp only [hostExp_apply', subf_apply]
  rw [bc_S150000x1_S150000x4_apply, bc_S150000_S150000x1_apply]
  simp only [maximumf_apply]
  rw [bc_S_S150000_apply, ref_rowMax_apply]
  simp only [constant_apply, ref_logits_apply]
  rfl

theorem refWeights_apply (u : FVec Ideal Cert.ReferenceIdeal.S150000x64 .f32) (Lt : FVec Ideal Cert.ReferenceIdeal.S64x4 .f32) (r : Fin 150000) (f : Fin 4) :
    refWeights (F := Ideal) u Lt (ix2 r f) = weight (fun k => u (ix2 r k)) Lt f := by
  unfold refWeights
  simp only [hostDivf_apply']
  rw [bc_S150000x1_S150000x4_apply, bc_S150000_S150000x1_apply, ref_rowSum4_apply]
  simp only [refExps_apply]
  rfl

theorem refGated_apply (u : FVec Ideal Cert.ReferenceIdeal.S150000x64 .f32) (Lt : FVec Ideal Cert.ReferenceIdeal.S64x4 .f32) (M : FVec Ideal Cert.ReferenceIdeal.S4x64 .f32)
    (g : FVec Ideal Cert.ReferenceIdeal.S150000x64 .f32) (r : Fin 150000) (j : Fin 64) :
    refGated (F := Ideal) u Lt M g (ix2 r j) = gatedAt (fun k => u (ix2 r k)) Lt M (fun j => g (ix2 r j)) j := by
  unfold refGated
  simp only [addf_apply, mulf_apply]
  rw [ref_midSum_apply]
  unfold gatedAt mixAt
  refine congrArg₂ (· + ·) (congrArg (g (ix2 r j) * ·) (Finset.sum_congr rfl fun f _ => ?_)) rfl
  simp only [mulf_apply]
  rw [bc_S1x4x64_S150000x4x64_apply, bc_S4x64_S1x4x64_apply, bc_S150000x4x1_S150000x4x64_apply,
    bc_S150000x4_S150000x4x1_apply, refWeights_apply, mul_comm]

theorem ref_userStep (u : FVec Ideal Cert.ReferenceIdeal.S150000x64 .f32) (Lt : FVec Ideal Cert.ReferenceIdeal.S64x4 .f32) (M : FVec Ideal Cert.ReferenceIdeal.S4x64 .f32)
    (g : FVec Ideal Cert.ReferenceIdeal.S150000x64 .f32) : refUserStep (F := Ideal) u Lt M g = userStep u Lt M g := by
  funext i
  obtain ⟨r, j, rfl⟩ : ∃ (r : Fin 150000) (j : Fin 64), i = ix2 r j := ⟨i 0, i 1, eq_ix2 i⟩
  unfold refUserStep
  simp only [hostDivf_apply']
  rw [bc_S150000x1_S150000x64_apply]
  simp only [maximumf_apply, hostSqrt_apply']
  rw [bc_S150000_S150000x1_apply, bc_S_S150000x1_apply, ref_rowSum64_apply]
  simp only [mulf_apply, refGated_apply, constant_apply]
  rfl

theorem ref_v96 (x0 : (⟨Cert.ReferenceIdeal.S150000x64, .f32⟩ : BufTy).Contents (Elt Ideal)) (x1 : (⟨Cert.ReferenceIdeal.S250000x64, .f32⟩ : BufTy).Contents (Elt Ideal))
    (x2 : (⟨Cert.ReferenceIdeal.S4x64, .f32⟩ : BufTy).Contents (Elt Ideal)) (x3 : (⟨Cert.ReferenceIdeal.S16x64, .f32⟩ : BufTy).Contents (Elt Ideal)) (x4 : (⟨Cert.ReferenceIdeal.S4x16, .f32⟩ : BufTy).Contents (Elt Ideal))
    (x5 : (⟨Cert.ReferenceIdeal.S1000000, .f32⟩ : BufTy).Contents (Elt Ideal)) (x8 x9 : (⟨Cert.ReferenceIdeal.S1000000, .i32⟩ : BufTy).Contents (Elt Ideal)) :
    Cert.ReferenceIdeal.Read.val_main_v96 (F := Ideal) x0 x1 x2 x3 x4 x5 x8 x9
      = userStep x0 (Cert.ReferenceIdeal.Read.val_main_v53 (F := Ideal) x2) (Cert.ReferenceIdeal.Read.val_main_v30 (F := Ideal) x3 x4) (Cert.ReferenceIdeal.Read.val_main_v79 (F := Ideal) x1 x5 x8 x9) :=
  (val_v96_eq_refUserStep x0 x1 x2 x3 x4 x5 x8 x9).trans (ref_userStep _ _ _ _)

theorem ref_v164 (x0 : (⟨Cert.ReferenceIdeal.S150000x64, .f32⟩ : BufTy).Contents (Elt Ideal)) (x1 : (⟨Cert.ReferenceIdeal.S250000x64, .f32⟩ : BufTy).Contents (Elt Ideal))
    (x2 : (⟨Cert.ReferenceIdeal.S4x64, .f32⟩ : BufTy).Contents (Elt Ideal)) (x3 : (⟨Cert.ReferenceIdeal.S16x64, .f32⟩ : BufTy).Contents (Elt Ideal)) (x4 : (⟨Cert.ReferenceIdeal.S4x16, .f32⟩ : BufTy).Contents (Elt Ideal))
    (x5 : (⟨Cert.ReferenceIdeal.S1000000, .f32⟩ : BufTy).Contents (Elt Ideal)) (x6 : (⟨Cert.ReferenceIdeal.S2x1000000, .i32⟩ : BufTy).Contents (Elt Ideal))
    (x7 x8 x9 : (⟨Cert.ReferenceIdeal.S1000000, .i32⟩ : BufTy).Contents (Elt Ideal)) :
    Cert.ReferenceIdeal.Read.val_main_v164 (F := Ideal) x0 x1 x2 x3 x4 x5 x6 x7 x8 x9
      = userStep (Cert.ReferenceIdeal.Read.val_main_v96 (F := Ideal) x0 x1 x2 x3 x4 x5 x8 x9) (Cert.ReferenceIdeal.Read.val_main_v121 (F := Ideal) x2) (Cert.ReferenceIdeal.Read.val_main_v30 (F := Ideal) x3 x4)
          (Cert.ReferenceIdeal.Read.val_main_v147 (F := Ideal) x1 x3 x5 x6 x7 x8 x9) :=
  (val_v164_eq_refUserStep x0 x1 x2 x3 x4 x5 x6 x7 x8 x9).trans (ref_userStep _ _ _ _)

end ReferenceValue

end Cert.KernelIdeal.Hand

end
-- ==== Proof.KIBridge.lean ====
import proofs.«407999_j84894323573127_3_alg».proof.Proof.KIHost
import proofs.«407999_j84894323573127_3_alg».proof.Proof.KIHostB
import proofs.«407999_j84894323573127_3_alg».proof.Proof.KIVal0
import proofs.«407999_j84894323573127_3_alg».proof.Proof.KIVal12
import proofs.«407999_j84894323573127_3_alg».proof.Proof.KIVal37
import proofs.«407999_j84894323573127_3_alg».proof.Proof.KIVal48

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read

variable (m : (ℓ : Loc nD τ sig) → Buf (Elt Ideal) ℓ)

variable (hr : ∀ c : Dev nD, ∀ r : S1000000.Idx, 1 ≤ (a7 m c r).toInt ∧ (a7 m c r).toInt ≤ 16)

theorem R_v121 (x2 : (⟨Cert.ReferenceIdeal.S4x64, .f32⟩ : BufTy).Contents (Elt Ideal)) : val_main_v121 (F := Ideal) x2 = val_main_v53 (F := Ideal) x2 := rfl

theorem col_idx (i : S1000000x64.Idx) :
    (ValueIdx.ix2 ⟨(i 0).val, (i 0).isLt⟩ ⟨0, Nat.one_pos⟩ : S1000000x1.Idx) = idx_main_v75 i :=
  funext fun a => match a with | ⟨0, _⟩ => rfl | ⟨1, _⟩ => rfl

include hr in
theorem L_v33 (c : Dev nD) : W6 m c main_v33 = val_main_v46 (F := Ideal) (a3 m c) (a7 m c) := by
  rw [W6_self]; unfold X33
  funext i
  have h := val0 (rd (W5 m)) c (a7 m c) (L_v32 m c) (hr c) i
  rw [show rd (W5 m) c main_arg3 = a3 m c from P_arg3_5 m c] at h
  exact h

include hr in
theorem L_v42 (c : Dev nD) : W8 m c main_v42 = val_main_v47 (F := Ideal) (a1 m c) (a3 m c) (a6 m c) (a7 m c) := by
  rw [W8_self]; unfold X42
  funext i
  refine (val1 (rd (W7 m)) c i).trans ?_
  dsimp only [rd]
  rw [L_v41, P_v33_7, L_v33 m hr]
  rfl

theorem L_v53 (c : Dev nD) : W10 m c main_v53 = val_main_v76 (F := Ideal) (a1 m c) (a5 m c) (a9 m c) := by
  rw [W10_self]; unfold X53
  funext i
  refine (val2 (rd (W9 m)) c i).trans ?_
  dsimp only [rd]
  rw [P_v34_9, L_v34, L_v52, col_idx, val_main_v76_apply, val_main_v75_apply]

include hr in
theorem L_v57_0 (c : Dev nD) : W12 m c main_v57_0 = val_main_v91 (F := Ideal) (a1 m c) (a3 m c) (a6 m c) (a7 m c) := by
  rw [W12_fst]; unfold X57_0
  funext i
  refine (val3_e (rd (W11 m)) c i).trans ?_
  dsimp only [rd]
  rw [P_v45_11, L_v45 m c (L_v42 m hr c), P_v18_11, L_v18, ref_v91]

include hr in
theorem L_v57_1 (c : Dev nD) : W12 m c main_v57_1 = val_main_v97 (F := Ideal) (a1 m c) (a3 m c) (a6 m c) (a7 m c) := by
  rw [W12_snd]; unfold X57_1
  funext i
  refine (val3_r (rd (W11 m)) c i).trans ?_
  dsimp only [rd]
  rw [P_arg1_11, P_v45_11, L_v45 m c (L_v42 m hr c), P_v18_11, L_v18, val_main_v97_apply, ref_v91]

theorem L_v58_0 (c : Dev nD) : W13 m c main_v58_0 = val_main_v96 (F := Ideal) (a0 m c) (a1 m c) (a2 m c) (a3 m c) (a4 m c) (a5 m c) (a8 m c) (a9 m c) := by
  rw [W13_fst]; unfold X58_0
  funext i
  refine (val4_u (rd (W12 m)) c i).trans ?_
  dsimp only [rd]
  rw [P_arg0_12, P_v31_12, L_v31, P_v30_12, L_v30, P_v56_12, L_v56 m c (L_v53 m c), ref_v96]

theorem L_v58_1 (c : Dev nD) : W13 m c main_v58_1 = val_main_v98 (F := Ideal) (a0 m c) (a1 m c) (a2 m c) (a3 m c) (a4 m c) (a5 m c) (a8 m c) (a9 m c) := by
  rw [W13_snd]; unfold X58_1
  funext i
  refine (val4_r (rd (W12 m)) c i).trans ?_
  dsimp only [rd]
  rw [P_arg0_12, P_v31_12, L_v31, P_v30_12, L_v30, P_v56_12, L_v56 m c (L_v53 m c), val_main_v98_apply, ref_v96]

include hr in
theorem L_v66 (c : Dev nD) : W15 m c main_v66 = val_main_v115 (F := Ideal) (a1 m c) (a3 m c) (a6 m c) (a7 m c) := by
  rw [W15_self]; unfold X66
  funext i
  refine (val5 (rd (W14 m)) c i).trans ?_
  dsimp only [rd]
  rw [L_v65 m c (L_v57_0 m hr c), P_v33_14, L_v33 m hr, val_main_v115_apply, R_v114]

include hr in
theorem L_v77 (c : Dev nD) : W17 m c main_v77 = val_main_v144 (F := Ideal) (a1 m c) (a3 m c) (a5 m c) (a6 m c) (a7 m c) (a9 m c) := by
  rw [W17_self]; unfold X77
  funext i
  refine (val6 (rd (W16 m)) c i).trans ?_
  dsimp only [rd]
  rw [P_v34_16, L_v34, L_v76 m c (L_v57_0 m hr c), col_idx, val_main_v144_apply, R_v143, val_main_v75_apply]

include hr in
theorem L_v81_1 (c : Dev nD) : W19 m c main_v81_1 = val_main_v165 (F := Ideal) (a1 m c) (a3 m c) (a6 m c) (a7 m c) := by
  rw [W19_snd]; unfold X81_1
  funext i
  refine (val7_r (rd (W18 m)) c i).trans ?_
  dsimp only [rd]
  rw [P_v57_1_18, L_v57_1 m hr, P_v69_18, L_v69 m c (L_v66 m hr c), P_v18_18, L_v18, val_main_v165_apply, ref_v159]

include hr in
set_option maxHeartbeats 2000000 in
theorem L_v82_1 (c : Dev nD) : W20 m c main_v82_1 = val_main_v166 (F := Ideal) (a0 m c) (a1 m c) (a2 m c) (a3 m c) (a4 m c) (a5 m c) (a6 m c) (a7 m c) (a8 m c) (a9 m c) := by
  rw [W20_snd]; unfold X82_1
  funext i
  refine (val8_r (rd (W19 m)) c i).trans ?_
  dsimp only [rd]
  rw [P_v58_1_19, L_v58_1, P_v58_0_19, L_v58_0]
  rw [P_v31_19, L_v31, P_v30_19, L_v30]
  rw [P_v80_19, L_v80 m c (L_v77 m hr c)]
  rw [val_main_v166_apply]
  rw [ref_v164]
  rw [R_v121]

end Cert.KernelIdeal.Hand

end
-- ==== Proof.KIPre.lean ====
import proofs.«407999_j84894323573127_3_alg».proof.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.KernelIdeal.Hand

open Idealize.ShloMosaic Idealize.ShloMosaic.ValueIdx

instance subsingleton_scalar_idx : Subsingleton Cert.Pre_finite_inputs.S_.Idx := ⟨fun a b => funext fun d => d.elim0⟩

theorem edge_range [Cert.Pre_finite_inputs.Facts]
    (a0 : FVec Ideal Cert.Pre_finite_inputs.S150000x64 .f32) (a1 : FVec Ideal Cert.Pre_finite_inputs.S250000x64 .f32)
    (a2 : FVec Ideal Cert.Pre_finite_inputs.S4x64 .f32) (a3 : FVec Ideal Cert.Pre_finite_inputs.S16x64 .f32)
    (a4 : FVec Ideal Cert.Pre_finite_inputs.S4x16 .f32) (a5 : FVec Ideal Cert.Pre_finite_inputs.S1000000 .f32)
    (a6 : IVec Cert.Pre_finite_inputs.S2x1000000 32) (a7 : IVec Cert.Pre_finite_inputs.S1000000 32)
    (a8 : IVec Cert.Pre_finite_inputs.S1000000 32) (a9 : IVec Cert.Pre_finite_inputs.S1000000 32)
    (h : Cert.Pre_finite_inputs.fn (F := Ideal) a0 a1 a2 a3 a4 a5 a6 a7 a8 a9 = fun _ => 1#1) :
    ∀ r : Cert.Pre_finite_inputs.S1000000.Idx, 1 ≤ (a7 r).toInt ∧ (a7 r).toInt ≤ 16 := by
  intro r
  have h0 := congrFun h ValueIdx.ix0
  dsimp only [Cert.Pre_finite_inputs.fn, Cert.Pre_finite_inputs.fn_part1, Cert.Pre_finite_inputs.fn_part2] at h0

  obtain ⟨-, h1⟩ := IntOp.andi_eq_one.1 h0
  have h2 := Host.reduce_andi_all _ _ _ _ _ h1 r
  obtain ⟨hge, hle⟩ := IntOp.andi_eq_one.1 h2

  have hge' : IntOp.cmpi .sge (a7 r) 1#32 = 1#1 := hge
  have hle' : IntOp.cmpi .sle (a7 r) 16#32 = 1#1 := hle
  unfold IntOp.cmpi at hge' hle'
  simp only [StableHlo.Predicate.ofBool_eq_one_iff, BitVec.sle, decide_eq_true_eq] at hge' hle'
  have e1 : (1#32 : BitVec 32).toInt = 1 := by decide
  have e16 : (16#32 : BitVec 32).toInt = 16 := by decide
  rw [e1] at hge'; rw [e16] at hle'
  exact ⟨hge', hle'⟩

end Cert.KernelIdeal.Hand

end
-- ==== Proof.Claims.lean ====
import proofs.«407999_j84894323573127_3_alg».proof.Defs
import proofs.«407999_j84894323573127_3_alg».proof.Proof.Gen.Pre_finite_inputs
import proofs.«407999_j84894323573127_3_alg».proof.Proof.KBRun
import proofs.«407999_j84894323573127_3_alg».proof.Proof.KIRun
import proofs.«407999_j84894323573127_3_alg».proof.Proof.KIBridge
import proofs.«407999_j84894323573127_3_alg».proof.Proof.KIPre
import proofs.«407999_j84894323573127_3_alg».proof.Proof.RefRun

noncomputable section

namespace Cert.Proof.Claims

open Idealize.ShloMosaic Idealize.ShloMosaic.TcCoe Idealize.SL.Sem
open Cert.KernelIdeal Cert.KernelIdeal.Gen Cert.KernelIdeal.Hand
open Cert.ReferenceIdeal.Read

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hr : ∀ c : Dev nD, ∀ r : S1000000.Idx, 1 ≤ (a7 m c r).toInt ∧ (a7 m c r).toInt ≤ 16 :=
    fun c => edge_range _ _ _ _ _ _ _ _ _ _ (hpre c)
  refine ⟨fun c => val_main_v165 (F := Ideal) (a1 m c) (a3 m c) (a6 m c) (a7 m c),
    fun c => val_main_v166 (F := Ideal) (a0 m c) (a1 m c) (a2 m c) (a3 m c) (a4 m c) (a5 m c) (a6 m c) (a7 m c) (a8 m c) (a9 m c),
    fun c => val_main_v11 (F := Ideal) (a4 m c), ?_, ?_⟩
  · refine (θ_run Cert.KernelIdeal.defs _ _).mono (fun r h c => ?_) (run_all (F := Ideal) m ρ)
    exact ⟨(h c _ (mem_uc main_v81_1 (by decide))).trans ((P_v81_1_20 m c).trans (L_v81_1 m hr c)),
      (h c _ (mem_uc main_v82_1 (by decide))).trans (L_v82_1 m hr c),
      (h c _ (mem_uc main_v11 (by decide))).trans ((P_v11_20 m c).trans (L_v11 m c)),
      (h c _ (mem_uc main_arg0 (by decide))).trans ((congrFun (VW20 m c).symm _).trans (V20_main_arg0 m (outs m) c)),
      (h c _ (mem_uc main_arg1 (by decide))).trans ((congrFun (VW20 m c).symm _).trans (V20_main_arg1 m (outs m) c)),
      (h c _ (mem_uc main_arg2 (by decide))).trans ((congrFun (VW20 m c).symm _).trans (V20_main_arg2 m (outs m) c)),
      (h c _ (mem_uc main_arg3 (by decide))).trans ((congrFun (VW20 m c).symm _).trans (V20_main_arg3 m (outs m) c)),
      (h c _ (mem_uc main_arg4 (by decide))).trans ((congrFun (VW20 m c).symm _).trans (V20_main_arg4 m (outs m) c)),
      (h c _ (mem_uc main_arg5 (by decide))).trans ((congrFun (VW20 m c).symm _).trans (V20_main_arg5 m (outs m) c)),
      (h c _ (mem_uc main_arg6 (by decide))).trans ((congrFun (VW20 m c).symm _).trans (V20_main_arg6 m (outs m) c)),
      (h c _ (mem_uc main_arg7 (by decide))).trans ((congrFun (VW20 m c).symm _).trans (V20_main_arg7 m (outs m) c)),
      (h c _ (mem_uc main_arg8 (by decide))).trans ((congrFun (VW20 m c).symm _).trans (V20_main_arg8 m (outs m) c)),
      (h c _ (mem_uc main_arg9 (by decide))).trans ((congrFun (VW20 m c).symm _).trans (V20_main_arg9 m (outs m) c))⟩
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [val_main_v165_eq, (hagree c).2.1, (hagree c).2.2.2.1, (hagree c).2.2.2.2.2.2.1, (hagree c).2.2.2.2.2.2.2.1]
    · rw [val_main_v166_eq, (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
    · rw [(hagree c).2.2.2.2.1]; exact val_main_v11_eq (F := Ideal) _

end Cert.Proof.Claims

end
-- ==== Proof.lean ====
import proofs.«407999_j84894323573127_3_alg».proof.Defs
import proofs.«407999_j84894323573127_3_alg».proof.Proof.Gen.Kernel
import proofs.«407999_j84894323573127_3_alg».proof.Proof.Gen.KernelIdeal
import proofs.«407999_j84894323573127_3_alg».proof.Proof.Gen.ReferenceIdeal
import proofs.«407999_j84894323573127_3_alg».proof.Proof.Gen.Pre_finite_inputs
import proofs.«407999_j84894323573127_3_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
